-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v218)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v218) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S640000 : Shape := ⟨1, ![640000]⟩
abbrev S20000x1 : Shape := ⟨2, ![20000, 1]⟩
abbrev S200x128 : Shape := ⟨2, ![200, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S20000x1 : S_.BroadcastsInDim S20000x1 (![] : Fin 0 → Fin S20000x1.rank)
  reducesTo_S20000x1_S_d0_1 : S20000x1.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S20000 : S_.BroadcastsInDim S20000 (![] : Fin 0 → Fin S20000.rank)
  reducesTo_S20000_S_d0 : S20000.ReducesTo [0] S_

variable [Facts]

def fn_part9 {F : FTy → Type} [FloatOps F] (main_arg0 : IVec S20000 32) (main_v152 : IVec S_ 1) (main_c_60 : IVec S_ 32) : IVec S_ 1 :=
  let main_v153 : IVec S20000 32 := broadcastInDim S20000 ![] bcast_S_S20000 main_c_60
  let main_v154 : IVec S20000 1 := cmpi .slt main_arg0 main_v153
  let main_c_61 : IVec S_ 1 := constantI S_ 1 1#1
  let main_v155 : IVec S_ 1 := (fun x v => Host.reduce IntOp.andi x v reducesTo_S20000_S_d0 h_S_) main_v154 main_c_61
  let main_v156 : IVec S_ 1 := andi main_v152 main_v155
  main_v156

def fn_part8 {F : FTy → Type} [FloatOps F] (main_arg0 : IVec S20000 32) (main_arg31 : FVec F S64x2 .f32) (main_arg32 : FVec F S2 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x2 .f32 := Host.absf main_arg31
  let main_cst_54 : FVec F S_ .f32 := constant S_ .f32 0x7F800000#32
  let main_v140 : FVec F S64x2 .f32 := broadcastInDim S64x2 ![] bcast_S_S64x2 main_cst_54
  let main_v141 : IVec S64x2 1 := cmpf .olt main_v139 main_v140
  let main_c_55 : IVec S_ 1 := constantI S_ 1 1#1
  let main_v142 : IVec S_ 1 := (fun x v => Host.reduce IntOp.andi x v reducesTo_S64x2_S_d0_1 h_S_) main_v141 main_c_55
  let main_v143 : IVec S_ 1 := andi main_v138 main_v142
  let main_v144 : FVec F S2 .f32 := Host.absf main_arg32
  let main_cst_56 : FVec F S_ .f32 := constant S_ .f32 0x7F800000#32
  let main_v145 : FVec F S2 .f32 := broadcastInDim S2 ![] bcast_S_S2 main_cst_56
  let main_v146 : IVec S2 1 := cmpf .olt main_v144 main_v145
  let main_c_57 : IVec S_ 1 := constantI S_ 1 1#1
  let main_v147 : IVec S_ 1 := (fun x v => Host.reduce IntOp.andi x v reducesTo_S2_S_d0 h_S_) main_v146 main_c_57
  let main_v148 : IVec S_ 1 := andi main_v143 main_v147
  let main_c_58 : IVec S_ 32 := constantI S_ 32 0#32
  let main_v149 : IVec S20000 32 := broadcastInDim S20000 ![] bcast_S_S20000 main_c_58
  let main_v150 : IVec S20000 1 := cmpi .sge main_arg0 main_v149
  let main_c_59 : IVec S_ 1 := constantI S_ 1 1#1
  let main_v151 : IVec S_ 1 := (fun x v => Host.reduce IntOp.andi x v reducesTo_S20000_S_d0 h_S_) main_v150 main_c_59
  let main_v152 : IVec S_ 1 := andi main_v148 main_v151
  let main_c_60 : IVec S_ 32 := constantI S_ 32 200#32
  fn_part9 (F := F) main_arg0 main_v152 main_c_60

def fn_part7 {F : FTy → Type} [FloatOps F] (main_arg0 : IVec S20000 32) (main_arg28 : FVec F S128 .f32) (main_arg29 : FVec F S128x64 .f32) (main_arg30 : FVec F S64 .f32) (main_arg31 : FVec F S64x2 .f32) (main_arg32 : FVec F S2 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg28
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x64 .f32 := Host.absf main_arg29
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg30
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg0 main_arg31 main_arg32 main_v133 main_v136

def fn_part6 {F : FTy → Type} [FloatOps F] (main_arg0 : IVec S20000 32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v98 : IVec S_ 1) (main_v101 : IVec S32x4 1) (main_c_39 : IVec S_ 1) : IVec S_ 1 :=
  let main_v102 : IVec S_ 1 := (fun x v => Host.reduce IntOp.andi x v reducesTo_S32x4_S_d0_1 h_S_) main_v101 main_c_39
  let main_v103 : IVec S_ 1 := andi main_v98 main_v102
  let main_v104 : FVec F S4 .f32 := Host.absf main_arg24
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  let main_v109 : FVec F S32x4 .f32 := Host.absf main_arg25
  let main_cst_42 : FVec F S_ .f32 := constant S_ .f32 0x7F800000#32
  let main_v110 : FVec F S32x4 .f32 := broadcastInDim S32x4 ![] bcast_S_S32x4 main_cst_42
  let main_v111 : IVec S32x4 1 := cmpf .olt main_v109 main_v110
  let main_c_43 : IVec S_ 1 := constantI S_ 1 1#1
  let main_v112 : IVec S_ 1 := (fun x v => Host.reduce IntOp.andi x v reducesTo_S32x4_S_d0_1 h_S_) main_v111 main_c_43
  let main_v113 : IVec S_ 1 := andi main_v108 main_v112
  let main_v114 : FVec F S4 .f32 := Host.absf main_arg26
  let main_cst_44 : FVec F S_ .f32 := constant S_ .f32 0x7F800000#32
  let main_v115 : FVec F S4 .f32 := broadcastInDim S4 ![] bcast_S_S4 main_cst_44
  let main_v116 : IVec S4 1 := cmpf .olt main_v114 main_v115
  let main_c_45 : IVec S_ 1 := constantI S_ 1 1#1
  let main_v117 : IVec S_ 1 := (fun x v => Host.reduce IntOp.andi x v reducesTo_S4_S_d0 h_S_) main_v116 main_c_45
  let main_v118 : IVec S_ 1 := andi main_v113 main_v117
  let main_v119 : FVec F S128 .f32 := Host.absf main_arg27
  fn_part7 (F := F) main_arg0 main_arg28 main_arg29 main_arg30 main_arg31 main_arg32 main_v118 main_v119

def fn_part5 {F : FTy → Type} [FloatOps F] (main_arg0 : IVec S20000 32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x32 .f32 := Host.absf main_arg21
  let main_cst_34 : FVec F S_ .f32 := constant S_ .f32 0x7F800000#32
  let main_v90 : FVec F S128x32 .f32 := broadcastInDim S128x32 ![] bcast_S_S128x32 main_cst_34
  let main_v91 : IVec S128x32 1 := cmpf .olt main_v89 main_v90
  let main_c_35 : IVec S_ 1 := constantI S_ 1 1#1
  let main_v92 : IVec S_ 1 := (fun x v => Host.reduce IntOp.andi x v reducesTo_S128x32_S_d0_1 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x4 .f32 := Host.absf main_arg23
  let main_cst_38 : FVec F S_ .f32 := constant S_ .f32 0x7F800000#32
  let main_v100 : FVec F S32x4 .f32 := broadcastInDim S32x4 ![] bcast_S_S32x4 main_cst_38
  let main_v101 : IVec S32x4 1 := cmpf .olt main_v99 main_v100
  let main_c_39 : IVec S_ 1 := constantI S_ 1 1#1
  fn_part6 (F := F) main_arg0 main_arg24 main_arg25 main_arg26 main_arg27 main_arg28 main_arg29 main_arg30 main_arg31 main_arg32 main_v98 main_v101 main_c_39

def fn_part4 {F : FTy → Type} [FloatOps F] (main_arg0 : IVec S20000 32) (main_arg17 : FVec F S32x4 .f32) (main_arg18 : FVec F S4 .f32) (main_arg19 : FVec F S128 .f32) (main_arg20 : FVec F S128 .f32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v63 : IVec S_ 1) (main_v67 : IVec S_ 1) : IVec S_ 1 :=
  let main_v68 : IVec S_ 1 := andi main_v63 main_v67
  let main_v69 : FVec F S32x4 .f32 := Host.absf main_arg17
  let main_cst_26 : FVec F S_ .f32 := constant S_ .f32 0x7F800000#32
  let main_v70 : FVec F S32x4 .f32 := broadcastInDim S32x4 ![] bcast_S_S32x4 main_cst_26
  let main_v71 : IVec S32x4 1 := cmpf .olt main_v69 main_v70
  let main_c_27 : IVec S_ 1 := constantI S_ 1 1#1
  let main_v72 : IVec S_ 1 := (fun x v => Host.reduce IntOp.andi x v reducesTo_S32x4_S_d0_1 h_S_) main_v71 main_c_27
  let main_v73 : IVec S_ 1 := andi main_v68 main_v72
  let main_v74 : FVec F S4 .f32 := Host.absf main_arg18
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg0 main_arg21 main_arg22 main_arg23 main_arg24 main_arg25 main_arg26 main_arg27 main_arg28 main_arg29 main_arg30 main_arg31 main_arg32 main_v83 main_v84 main_cst_32

def fn_part3 {F : FTy → Type} [FloatOps F] (main_arg0 : IVec S20000 32) (main_arg14 : FVec F S32 .f32) (main_arg15 : FVec F S32x4 .f32) (main_arg16 : FVec F S4 .f32) (main_arg17 : FVec F S32x4 .f32) (main_arg18 : FVec F S4 .f32) (main_arg19 : FVec F S128 .f32) (main_arg20 : FVec F S128 .f32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S32 .f32 := Host.absf main_arg14
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x4 .f32 := Host.absf main_arg15
  let main_cst_22 : FVec F S_ .f32 := constant S_ .f32 0x7F800000#32
  let main_v60 : FVec F S32x4 .f32 := broadcastInDim S32x4 ![] bcast_S_S32x4 main_cst_22
  let main_v61 : IVec S32x4 1 := cmpf .olt main_v59 main_v60
  let main_c_23 : IVec S_ 1 := constantI S_ 1 1#1
  let main_v62 : IVec S_ 1 := (fun x v => Host.reduce IntOp.andi x v reducesTo_S32x4_S_d0_1 h_S_) main_v61 main_c_23
  let main_v63 : IVec S_ 1 := andi main_v58 main_v62
  let main_v64 : FVec F S4 .f32 := Host.absf main_arg16
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg0 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg0 : IVec S20000 32) (main_arg10 : FVec F S8 .f32) (main_arg11 : FVec F S128 .f32) (main_arg12 : FVec F S128 .f32) (main_arg13 : FVec F S128x32 .f32) (main_arg14 : FVec F S32 .f32) (main_arg15 : FVec F S32x4 .f32) (main_arg16 : FVec F S4 .f32) (main_arg17 : FVec F S32x4 .f32) (main_arg18 : FVec F S4 .f32) (main_arg19 : FVec F S128 .f32) (main_arg20 : FVec F S128 .f32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v33 : IVec S_ 1) : IVec S_ 1 :=
  let main_v34 : FVec F S8 .f32 := Host.absf main_arg10
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x32 .f32 := Host.absf main_arg13
  let main_cst_18 : FVec F S_ .f32 := constant S_ .f32 0x7F800000#32
  let main_v50 : FVec F S128x32 .f32 := broadcastInDim S128x32 ![] bcast_S_S128x32 main_cst_18
  fn_part3 (F := F) main_arg0 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg0 : IVec S20000 32) (main_arg7 : FVec F S16x8 .f32) (main_arg8 : FVec F S8 .f32) (main_arg9 : FVec F S16x8 .f32) (main_arg10 : FVec F S8 .f32) (main_arg11 : FVec F S128 .f32) (main_arg12 : FVec F S128 .f32) (main_arg13 : FVec F S128x32 .f32) (main_arg14 : FVec F S32 .f32) (main_arg15 : FVec F S32x4 .f32) (main_arg16 : FVec F S4 .f32) (main_arg17 : FVec F S32x4 .f32) (main_arg18 : FVec F S4 .f32) (main_arg19 : FVec F S128 .f32) (main_arg20 : FVec F S128 .f32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg7
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg8
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S16x8 .f32 := Host.absf main_arg9
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg0 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : IVec S20000 32) (main_arg1 : IVec S640000 32) (main_arg2 : IVec S640000 32) (main_arg3 : FVec F S20000x1 .f32) (main_arg4 : FVec F S200x128 .f32) (main_arg5 : FVec F S128x16 .f32) (main_arg6 : FVec F S16 .f32) (main_arg7 : FVec F S16x8 .f32) (main_arg8 : FVec F S8 .f32) (main_arg9 : FVec F S16x8 .f32) (main_arg10 : FVec F S8 .f32) (main_arg11 : FVec F S128 .f32) (main_arg12 : FVec F S128 .f32) (main_arg13 : FVec F S128x32 .f32) (main_arg14 : FVec F S32 .f32) (main_arg15 : FVec F S32x4 .f32) (main_arg16 : FVec F S4 .f32) (main_arg17 : FVec F S32x4 .f32) (main_arg18 : FVec F S4 .f32) (main_arg19 : FVec F S128 .f32) (main_arg20 : FVec F S128 .f32) (main_arg21 : FVec F S128x32 .f32) (main_arg22 : FVec F S32 .f32) (main_arg23 : FVec F S32x4 .f32) (main_arg24 : FVec F S4 .f32) (main_arg25 : FVec F S32x4 .f32) (main_arg26 : FVec F S4 .f32) (main_arg27 : FVec F S128 .f32) (main_arg28 : FVec F S128 .f32) (main_arg29 : FVec F S128x64 .f32) (main_arg30 : FVec F S64 .f32) (main_arg31 : FVec F S64x2 .f32) (main_arg32 : FVec F S2 .f32) : IVec S_ 1 :=
  let main_v0 : FVec F S20000x1 .f32 := Host.absf main_arg3
  let main_cst : FVec F S_ .f32 := constant S_ .f32 0x7F800000#32
  let main_v1 : FVec F S20000x1 .f32 := broadcastInDim S20000x1 ![] bcast_S_S20000x1 main_cst
  let main_v2 : IVec S20000x1 1 := cmpf .olt main_v0 main_v1
  let main_c : IVec S_ 1 := constantI S_ 1 1#1
  let main_v3 : IVec S_ 1 := (fun x v => Host.reduce IntOp.andi x v reducesTo_S20000x1_S_d0_1 h_S_) main_v2 main_c
  let main_v4 : FVec F S200x128 .f32 := Host.absf main_arg4
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S128x16 .f32 := Host.absf main_arg5
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg6
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S20000 : Shape := ⟨1, ![20000]⟩
abbrev S640000 : Shape := ⟨1, ![640000]⟩
abbrev S20000x1 : Shape := ⟨2, ![20000, 1]⟩
abbrev S200x128 : Shape := ⟨2, ![200, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S640000x1 : Shape := ⟨2, ![640000, 1]⟩
abbrev S20000x128 : Shape := ⟨2, ![20000, 128]⟩
abbrev S2000x1 : Shape := ⟨2, ![2000, 1]⟩
abbrev S2000x128 : Shape := ⟨2, ![2000, 128]⟩
abbrev S1x200 : Shape := ⟨2, ![1, 200]⟩
abbrev S2000x200 : Shape := ⟨2, ![2000, 200]⟩
abbrev S20000x16 : Shape := ⟨2, ![20000, 16]⟩
abbrev S1x16 : Shape := ⟨2, ![1, 16]⟩
abbrev S20000x8 : Shape := ⟨2, ![20000, 8]⟩
abbrev S1x8 : Shape := ⟨2, ![1, 8]⟩
abbrev S640000x8 : Shape := ⟨2, ![640000, 8]⟩
abbrev S640000x16 : Shape := ⟨2, ![640000, 16]⟩
abbrev S640000x128 : Shape := ⟨2, ![640000, 128]⟩
abbrev S3200x8 : Shape := ⟨2, ![3200, 8]⟩
abbrev S3200x16 : Shape := ⟨2, ![3200, 16]⟩
abbrev S3200x128 : Shape := ⟨2, ![3200, 128]⟩
abbrev S3200x1 : Shape := ⟨2, ![3200, 1]⟩
abbrev S1x128 : Shape := ⟨2, ![1, 128]⟩
abbrev S20000x32 : Shape := ⟨2, ![20000, 32]⟩
abbrev S1x32 : Shape := ⟨2, ![1, 32]⟩
abbrev S20000x4 : Shape := ⟨2, ![20000, 4]⟩
abbrev S1x4 : Shape := ⟨2, ![1, 4]⟩
abbrev S640000x4 : Shape := ⟨2, ![640000, 4]⟩
abbrev S640000x32 : Shape := ⟨2, ![640000, 32]⟩
abbrev S3200x4 : Shape := ⟨2, ![3200, 4]⟩
abbrev S3200x32 : Shape := ⟨2, ![3200, 32]⟩
abbrev S20000x64 : Shape := ⟨2, ![20000, 64]⟩
abbrev S1x64 : Shape := ⟨2, ![1, 64]⟩
abbrev S20000x2 : Shape := ⟨2, ![20000, 2]⟩
abbrev S1x2 : Shape := ⟨2, ![1, 2]⟩

abbrev nBuf : Space → Nat
  | .hbm => 369
  | .vmem => 29
  | .smem => 0
  | _ => 0

abbrev hbmTy0_0 (i : Nat) : BufTy := match i % 128 with
  | 0 => ⟨S20000, .i32⟩
  | 1 => ⟨S640000, .i32⟩
  | 2 => ⟨S640000, .i32⟩
  | 3 => ⟨S20000x1, .f32⟩
  | 4 => ⟨S200x128, .f32⟩
  | 5 => ⟨S128x16, .f32⟩
  | 6 => ⟨S16, .f32⟩
  | 7 => ⟨S16x8, .f32⟩
  | 8 => ⟨S8, .f32⟩
  | 9 => ⟨S16x8, .f32⟩
  | 10 => ⟨S8, .f32⟩
  | 11 => ⟨S128, .f32⟩
  | 12 => ⟨S128, .f32⟩
  | 13 => ⟨S128x32, .f32⟩
  | 14 => ⟨S32, .f32⟩
  | 15 => ⟨S32x4, .f32⟩
  | 16 => ⟨S4, .f32⟩
  | 17 => ⟨S32x4, .f32⟩
  | 18 => ⟨S4, .f32⟩
  | 19 => ⟨S128, .f32⟩
  | 20 => ⟨S128, .f32⟩
  | 21 => ⟨S128x32, .f32⟩
  | 22 => ⟨S32, .f32⟩
  | 23 => ⟨S32x4, .f32⟩
  | 24 => ⟨S4, .f32⟩
  | 25 => ⟨S32x4, .f32⟩
  | 26 => ⟨S4, .f32⟩
  | 27 => ⟨S128, .f32⟩
  | 28 => ⟨S128, .f32⟩
  | 29 => ⟨S128x64, .f32⟩
  | 30 => ⟨S64, .f32⟩
  | 31 => ⟨S64x2, .f32⟩
  | 32 => ⟨S2, .f32⟩
  | 33 => ⟨S_, .f32⟩
  | 34 => ⟨S640000, .f32⟩
  | 35 => ⟨S_, .f32⟩
  | 36 => ⟨S20000, .f32⟩
  | 37 => ⟨S640000x1, .i32⟩
  | 38 => ⟨S20000, .f32⟩
  | 39 => ⟨S_, .f32⟩
  | 40 => ⟨S20000, .f32⟩
  | 41 => ⟨S20000, .f32⟩
  | 42 => ⟨S_, .f32⟩
  | 43 => ⟨S20000, .f32⟩
  | 44 => ⟨S20000, .f32⟩
  | 45 => ⟨S_, .i32⟩
  | 46 => ⟨S_, .i32⟩
  | 47 => ⟨S_, .i32⟩
  | 48 => ⟨S20000, .i32⟩
  | 49 => ⟨S20000, .i32⟩
  | 50 => ⟨S_, .i32⟩
  | 51 => ⟨S20000, .i32⟩
  | 52 => ⟨S20000, .i32⟩
  | 53 => ⟨S20000x1, .i32⟩
  | 54 => ⟨S20000x128, .f32⟩
  | 55 => ⟨S20000x16, .f32⟩
  | 56 => ⟨S1x16, .f32⟩
  | 57 => ⟨S20000x16, .f32⟩
  | 58 => ⟨S20000x16, .f32⟩
  | 59 => ⟨S20000x8, .f32⟩
  | 60 => ⟨S1x8, .f32⟩
  | 61 => ⟨S20000x8, .f32⟩
  | 62 => ⟨S20000x8, .f32⟩
  | 63 => ⟨S20000x8, .f32⟩
  | 64 => ⟨S1x8, .f32⟩
  | 65 => ⟨S20000x8, .f32⟩
  | 66 => ⟨S20000x8, .f32⟩
  | 67 => ⟨S20000x1, .f32⟩
  | 68 => ⟨S20000x16, .f32⟩
  | 69 => ⟨S20000x16, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S640000x8, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x8, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x16, .f32⟩
  | 97 => ⟨S640000x128, .f32⟩
  | 98 => ⟨S_, .f32⟩
  | 99 => ⟨S20000x128, .f32⟩
  | 100 => ⟨S640000x1, .i32⟩
  | 101 => ⟨S20000x128, .f32⟩
  | 102 => ⟨S20000x128, .f32⟩
  | 103 => ⟨S20000x128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S20000x128, .f32⟩
  | 117 => ⟨S20000x128, .f32⟩
  | 118 => ⟨S20000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S20000, .i32⟩

abbrev hbmTy0_1 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S20000x128, .f32⟩
  | 6 => ⟨S20000x128, .f32⟩
  | 7 => ⟨S_, .f32⟩
  | 8 => ⟨S128, .f32⟩
  | 9 => ⟨S128, .f32⟩
  | 10 => ⟨S128, .f32⟩
  | 11 => ⟨S1x128, .f32⟩
  | 12 => ⟨S20000x128, .f32⟩
  | 13 => ⟨S20000x128, .f32⟩
  | 14 => ⟨S1x128, .f32⟩
  | 15 => ⟨S20000x128, .f32⟩
  | 16 => ⟨S20000x128, .f32⟩
  | 17 => ⟨S1x128, .f32⟩
  | 18 => ⟨S20000x128, .f32⟩
  | 19 => ⟨S20000x128, .f32⟩
  | 20 => ⟨S_, .f32⟩
  | 21 => ⟨S20000x128, .f32⟩
  | 22 => ⟨S20000x128, .i1⟩
  | 23 => ⟨S_, .f32⟩
  | 24 => ⟨S20000x128, .f32⟩
  | 25 => ⟨S20000x128, .f32⟩
  | 26 => ⟨S20000x128, .f32⟩
  | 27 => ⟨S20000x32, .f32⟩
  | 28 => ⟨S1x32, .f32⟩
  | 29 => ⟨S20000x32, .f32⟩
  | 30 => ⟨S20000x32, .f32⟩
  | 31 => ⟨S20000x4, .f32⟩
  | 32 => ⟨S1x4, .f32⟩
  | 33 => ⟨S20000x4, .f32⟩
  | 34 => ⟨S20000x4, .f32⟩
  | 35 => ⟨S20000x4, .f32⟩
  | 36 => ⟨S1x4, .f32⟩
  | 37 => ⟨S20000x4, .f32⟩
  | 38 => ⟨S20000x4, .f32⟩
  | 39 => ⟨S20000x1, .f32⟩
  | 40 => ⟨S20000x32, .f32⟩
  | 41 => ⟨S20000x32, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000x4, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x4, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x32, .f32⟩
  | 69 => ⟨S640000x128, .f32⟩
  | 70 => ⟨S_, .f32⟩
  | 71 => ⟨S20000x128, .f32⟩
  | 72 => ⟨S640000x1, .i32⟩
  | 73 => ⟨S20000x128, .f32⟩
  | 74 => ⟨S20000x128, .f32⟩
  | 75 => ⟨S20000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S20000x128, .f32⟩
  | 89 => ⟨S20000x128, .f32⟩
  | 90 => ⟨S20000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S20000x128, .f32⟩
  | 106 => ⟨S20000x128, .f32⟩
  | 107 => ⟨S_, .f32⟩
  | 108 => ⟨S128, .f32⟩
  | 109 => ⟨S128, .f32⟩
  | 110 => ⟨S128, .f32⟩
  | 111 => ⟨S1x128, .f32⟩
  | 112 => ⟨S20000x128, .f32⟩
  | 113 => ⟨S20000x128, .f32⟩
  | 114 => ⟨S1x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S_, .f32⟩
  | 121 => ⟨S20000x128, .f32⟩
  | 122 => ⟨S20000x128, .i1⟩
  | 123 => ⟨S_, .f32⟩
  | 124 => ⟨S20000x128, .f32⟩
  | 125 => ⟨S20000x128, .f32⟩
  | 126 => ⟨S20000x128, .f32⟩
  | 127 => ⟨S20000x32, .f32⟩
  | _ => ⟨S20000, .i32⟩

abbrev hbmTy0_2 (i : Nat) : BufTy := match i % 128 with
  | 0 => ⟨S1x32, .f32⟩
  | 1 => ⟨S20000x32, .f32⟩
  | 2 => ⟨S20000x32, .f32⟩
  | 3 => ⟨S20000x4, .f32⟩
  | 4 => ⟨S1x4, .f32⟩
  | 5 => ⟨S20000x4, .f32⟩
  | 6 => ⟨S20000x4, .f32⟩
  | 7 => ⟨S20000x4, .f32⟩
  | 8 => ⟨S1x4, .f32⟩
  | 9 => ⟨S20000x4, .f32⟩
  | 10 => ⟨S20000x4, .f32⟩
  | 11 => ⟨S20000x1, .f32⟩
  | 12 => ⟨S20000x32, .f32⟩
  | 13 => ⟨S20000x32, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000x4, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x4, .f32⟩
  | 32 => ⟨S_, .i32⟩
  | 33 => ⟨S640000, .i32⟩
  | 34 => ⟨S640000, .i1⟩
  | 35 => ⟨S_, .i32⟩
  | 36 => ⟨S640000, .i32⟩
  | 37 => ⟨S640000, .i32⟩
  | 38 => ⟨S640000, .i32⟩
  | 39 => ⟨S640000x1, .i32⟩
  | 40 => ⟨S640000x32, .f32⟩
  | 41 => ⟨S640000x128, .f32⟩
  | 42 => ⟨S_, .f32⟩
  | 43 => ⟨S20000x128, .f32⟩
  | 44 => ⟨S640000x1, .i32⟩
  | 45 => ⟨S20000x128, .f32⟩
  | 46 => ⟨S20000x128, .f32⟩
  | 47 => ⟨S20000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S20000x128, .f32⟩
  | 61 => ⟨S20000x128, .f32⟩
  | 62 => ⟨S20000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S20000x128, .f32⟩
  | 78 => ⟨S20000x128, .f32⟩
  | 79 => ⟨S_, .f32⟩
  | 80 => ⟨S128, .f32⟩
  | 81 => ⟨S128, .f32⟩
  | 82 => ⟨S128, .f32⟩
  | 83 => ⟨S1x128, .f32⟩
  | 84 => ⟨S20000x128, .f32⟩
  | 85 => ⟨S20000x128, .f32⟩
  | 86 => ⟨S1x128, .f32⟩
  | 87 => ⟨S20000x128, .f32⟩
  | 88 => ⟨S20000x128, .f32⟩
  | 89 => ⟨S1x128, .f32⟩
  | 90 => ⟨S20000x128, .f32⟩
  | 91 => ⟨S20000x128, .f32⟩
  | 92 => ⟨S_, .f32⟩
  | 93 => ⟨S20000x128, .f32⟩
  | 94 => ⟨S20000x128, .i1⟩
  | 95 => ⟨S_, .f32⟩
  | 96 => ⟨S20000x128, .f32⟩
  | 97 => ⟨S20000x128, .f32⟩
  | 98 => ⟨S20000x128, .f32⟩
  | 99 => ⟨S_, .f32⟩
  | 100 => ⟨S20000x128, .f32⟩
  | 101 => ⟨S20000x128, .f32⟩
  | 102 => ⟨S20000x64, .f32⟩
  | 103 => ⟨S1x64, .f32⟩
  | 104 => ⟨S20000x64, .f32⟩
  | 105 => ⟨S20000x64, .f32⟩
  | 106 => ⟨S_, .f32⟩
  | 107 => ⟨S20000x64, .f32⟩
  | 108 => ⟨S20000x64, .f32⟩
  | 109 => ⟨S20000x2, .f32⟩
  | 110 => ⟨S1x2, .f32⟩
  | 111 => ⟨S20000x2, .f32⟩
  | 112 => ⟨S20000x2, .f32⟩
  | _ => ⟨S20000, .i32⟩

abbrev hbmTy (i : Nat) : BufTy := match i / 128 with
  | 0 => hbmTy0_0 i
  | 1 => hbmTy0_1 i
  | 2 => hbmTy0_2 i
  | _ => ⟨S20000, .i32⟩

abbrev bufTy : (tb : Table) → Fin (tcTables nBuf tb) → BufTy
  | .hbm, ⟨i, _⟩ => hbmTy i
  | .local _ .vmem, ⟨0, _⟩ => ⟨S2000x1, .i32⟩
  | .local _ .vmem, ⟨1, _⟩ => ⟨S2000x1, .i32⟩
  | .local _ .vmem, ⟨2, _⟩ => ⟨S200x128, .f32⟩
  | .local _ .vmem, ⟨3, _⟩ => ⟨S2000x128, .f32⟩
  | .local _ .vmem, ⟨4, _⟩ => ⟨S2000x128, .f32⟩
  | .local _ .vmem, ⟨5, _⟩ => ⟨S3200x8, .f32⟩
  | .local _ .vmem, ⟨6, _⟩ => ⟨S3200x8, .f32⟩
  | .local _ .vmem, ⟨7, _⟩ => ⟨S3200x8, .f32⟩
  | .local _ .vmem, ⟨8, _⟩ => ⟨S3200x8, .f32⟩
  | .local _ .vmem, ⟨9, _⟩ => ⟨S3200x16, .f32⟩
  | .local _ .vmem, ⟨10, _⟩ => ⟨S3200x16, .f32⟩
  | .local _ .vmem, ⟨11, _⟩ => ⟨S3200x128, .f32⟩
  | .local _ .vmem, ⟨12, _⟩ => ⟨S3200x128, .f32⟩
  | .local _ .vmem, ⟨13, _⟩ => ⟨S3200x4, .f32⟩
  | .local _ .vmem, ⟨14, _⟩ => ⟨S3200x4, .f32⟩
  | .local _ .vmem, ⟨15, _⟩ => ⟨S3200x4, .f32⟩
  | .local _ .vmem, ⟨16, _⟩ => ⟨S3200x4, .f32⟩
  | .local _ .vmem, ⟨17, _⟩ => ⟨S3200x32, .f32⟩
  | .local _ .vmem, ⟨18, _⟩ => ⟨S3200x32, .f32⟩
  | .local _ .vmem, ⟨19, _⟩ => ⟨S3200x128, .f32⟩
  | .local _ .vmem, ⟨20, _⟩ => ⟨S3200x128, .f32⟩
  | .local _ .vmem, ⟨21, _⟩ => ⟨S3200x4, .f32⟩
  | .local _ .vmem, ⟨22, _⟩ => ⟨S3200x4, .f32⟩
  | .local _ .vmem, ⟨23, _⟩ => ⟨S3200x4, .f32⟩
  | .local _ .vmem, ⟨24, _⟩ => ⟨S3200x4, .f32⟩
  | .local _ .vmem, ⟨25, _⟩ => ⟨S3200x32, .f32⟩
  | .local _ .vmem, ⟨26, _⟩ => ⟨S3200x32, .f32⟩
  | .local _ .vmem, ⟨27, _⟩ => ⟨S3200x128, .f32⟩
  | .local _ .vmem, ⟨28, _⟩ => ⟨S3200x128, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_cst : Ref sig .tc := ⟨.hbm, 33, rfl⟩
abbrev main_v0 : Ref sig .tc := ⟨.hbm, 34, rfl⟩
abbrev main_cst_0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_cst_1 : Ref sig .tc := ⟨.hbm, 39, rfl⟩
abbrev main_v4 : Ref sig .tc := ⟨.hbm, 40, rfl⟩
abbrev main_v5 : Ref sig .tc := ⟨.hbm, 41, rfl⟩
abbrev main_cst_2 : Ref sig .tc := ⟨.hbm, 42, rfl⟩
abbrev main_v6 : Ref sig .tc := ⟨.hbm, 43, rfl⟩
abbrev main_v7 : Ref sig .tc := ⟨.hbm, 44, rfl⟩
abbrev main_c : Ref sig .tc := ⟨.hbm, 45, rfl⟩
abbrev main_c_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_c_4 : Ref sig .tc := ⟨.hbm, 70, rfl⟩
abbrev main_v26 : Ref sig .tc := ⟨.hbm, 71, rfl⟩
abbrev main_v27 : Ref sig .tc := ⟨.hbm, 72, rfl⟩
abbrev main_c_5 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_c_6 : Ref sig .tc := ⟨.hbm, 79, rfl⟩
abbrev main_v33 : Ref sig .tc := ⟨.hbm, 80, rfl⟩
abbrev main_v34 : Ref sig .tc := ⟨.hbm, 81, rfl⟩
abbrev main_c_7 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_8 : Ref sig .tc := ⟨.hbm, 88, rfl⟩
abbrev main_v40 : Ref sig .tc := ⟨.hbm, 89, rfl⟩
abbrev main_v41 : Ref sig .tc := ⟨.hbm, 90, rfl⟩
abbrev main_c_9 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_10 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_11 : Ref sig .tc := ⟨.hbm, 104, rfl⟩
abbrev main_v53 : Ref sig .tc := ⟨.hbm, 105, rfl⟩
abbrev main_cst_12 : Ref sig .tc := ⟨.hbm, 106, rfl⟩
abbrev main_v54 : Ref sig .tc := ⟨.hbm, 107, rfl⟩
abbrev main_v55 : Ref sig .tc := ⟨.hbm, 108, rfl⟩
abbrev main_c_13 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_cst_0 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_cst_1 : Ref sig .tc := ⟨.hbm, 120, rfl⟩
abbrev main_call1_v8 : Ref sig .tc := ⟨.hbm, 121, rfl⟩
abbrev main_call1_cst_2 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_cst_3 : Ref sig .tc := ⟨.hbm, 126, rfl⟩
abbrev main_call1_v12 : Ref sig .tc := ⟨.hbm, 127, rfl⟩
abbrev main_call1_cst_4 : Ref sig .tc := ⟨.hbm, 128, rfl⟩
abbrev main_call1_call0_v0 : Ref sig .tc := ⟨.hbm, 129, rfl⟩
abbrev main_call1_call0_v1 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_cst_14 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_15 : Ref sig .tc := ⟨.hbm, 148, rfl⟩
abbrev main_v72 : Ref sig .tc := ⟨.hbm, 149, rfl⟩
abbrev main_v73 : Ref sig .tc := ⟨.hbm, 150, rfl⟩
abbrev main_cst_16 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_c_17 : Ref sig .tc := ⟨.hbm, 170, rfl⟩
abbrev main_v92 : Ref sig .tc := ⟨.hbm, 171, rfl⟩
abbrev main_v93 : Ref sig .tc := ⟨.hbm, 172, rfl⟩
abbrev main_c_18 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_c_19 : Ref sig .tc := ⟨.hbm, 179, rfl⟩
abbrev main_v99 : Ref sig .tc := ⟨.hbm, 180, rfl⟩
abbrev main_v100 : Ref sig .tc := ⟨.hbm, 181, rfl⟩
abbrev main_c_20 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_c_21 : Ref sig .tc := ⟨.hbm, 188, rfl⟩
abbrev main_v106 : Ref sig .tc := ⟨.hbm, 189, rfl⟩
abbrev main_v107 : Ref sig .tc := ⟨.hbm, 190, rfl⟩
abbrev main_c_22 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_cst_23 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_cst_24 : Ref sig .tc := ⟨.hbm, 204, rfl⟩
abbrev main_v119 : Ref sig .tc := ⟨.hbm, 205, rfl⟩
abbrev main_cst_25 : Ref sig .tc := ⟨.hbm, 206, rfl⟩
abbrev main_v120 : Ref sig .tc := ⟨.hbm, 207, rfl⟩
abbrev main_v121 : Ref sig .tc := ⟨.hbm, 208, rfl⟩
abbrev main_c_26 : Ref sig .tc := ⟨.hbm, 209, rfl⟩
abbrev main_call3_cst : Ref sig .tc := ⟨.hbm, 210, rfl⟩
abbrev main_call3_v0 : Ref sig .tc := ⟨.hbm, 211, rfl⟩
abbrev main_call3_v1 : Ref sig .tc := ⟨.hbm, 212, rfl⟩
abbrev main_call3_cst_0 : Ref sig .tc := ⟨.hbm, 213, rfl⟩
abbrev main_call3_v2 : Ref sig .tc := ⟨.hbm, 214, rfl⟩
abbrev main_call3_v3 : Ref sig .tc := ⟨.hbm, 215, rfl⟩
abbrev main_call3_v4 : Ref sig .tc := ⟨.hbm, 216, rfl⟩
abbrev main_call3_v5 : Ref sig .tc := ⟨.hbm, 217, rfl⟩
abbrev main_call3_v6 : Ref sig .tc := ⟨.hbm, 218, rfl⟩
abbrev main_call3_v7 : Ref sig .tc := ⟨.hbm, 219, rfl⟩
abbrev main_call3_cst_1 : Ref sig .tc := ⟨.hbm, 220, rfl⟩
abbrev main_call3_v8 : Ref sig .tc := ⟨.hbm, 221, rfl⟩
abbrev main_call3_cst_2 : Ref sig .tc := ⟨.hbm, 222, rfl⟩
abbrev main_call3_v9 : Ref sig .tc := ⟨.hbm, 223, rfl⟩
abbrev main_call3_v10 : Ref sig .tc := ⟨.hbm, 224, rfl⟩
abbrev main_call3_v11 : Ref sig .tc := ⟨.hbm, 225, rfl⟩
abbrev main_call3_cst_3 : Ref sig .tc := ⟨.hbm, 226, rfl⟩
abbrev main_call3_v12 : Ref sig .tc := ⟨.hbm, 227, rfl⟩
abbrev main_call3_cst_4 : Ref sig .tc := ⟨.hbm, 228, rfl⟩
abbrev main_call3_call0_v0 : Ref sig .tc := ⟨.hbm, 229, rfl⟩
abbrev main_call3_call0_v1 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_cst_27 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_cst_28 : Ref sig .tc := ⟨.hbm, 248, rfl⟩
abbrev main_v138 : Ref sig .tc := ⟨.hbm, 249, rfl⟩
abbrev main_v139 : Ref sig .tc := ⟨.hbm, 250, rfl⟩
abbrev main_cst_29 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_c_30 : Ref sig .tc := ⟨.hbm, 270, rfl⟩
abbrev main_v158 : Ref sig .tc := ⟨.hbm, 271, rfl⟩
abbrev main_v159 : Ref sig .tc := ⟨.hbm, 272, rfl⟩
abbrev main_c_31 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_c_32 : Ref sig .tc := ⟨.hbm, 279, rfl⟩
abbrev main_v165 : Ref sig .tc := ⟨.hbm, 280, rfl⟩
abbrev main_v166 : Ref sig .tc := ⟨.hbm, 281, rfl⟩
abbrev main_c_33 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_c_34 : Ref sig .tc := ⟨.hbm, 288, rfl⟩
abbrev main_v172 : Ref sig .tc := ⟨.hbm, 289, rfl⟩
abbrev main_v173 : Ref sig .tc := ⟨.hbm, 290, rfl⟩
abbrev main_c_35 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_cst_36 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_cst_37 : Ref sig .tc := ⟨.hbm, 304, rfl⟩
abbrev main_v185 : Ref sig .tc := ⟨.hbm, 305, rfl⟩
abbrev main_cst_38 : Ref sig .tc := ⟨.hbm, 306, rfl⟩
abbrev main_v186 : Ref sig .tc := ⟨.hbm, 307, rfl⟩
abbrev main_v187 : Ref sig .tc := ⟨.hbm, 308, rfl⟩
abbrev main_c_39 : Ref sig .tc := ⟨.hbm, 309, rfl⟩
abbrev main_call5_cst : Ref sig .tc := ⟨.hbm, 310, rfl⟩
abbrev main_call5_v0 : Ref sig .tc := ⟨.hbm, 311, rfl⟩
abbrev main_call5_v1 : Ref sig .tc := ⟨.hbm, 312, rfl⟩
abbrev main_call5_cst_0 : Ref sig .tc := ⟨.hbm, 313, rfl⟩
abbrev main_call5_v2 : Ref sig .tc := ⟨.hbm, 314, rfl⟩
abbrev main_call5_v3 : Ref sig .tc := ⟨.hbm, 315, rfl⟩
abbrev main_call5_v4 : Ref sig .tc := ⟨.hbm, 316, rfl⟩
abbrev main_call5_v5 : Ref sig .tc := ⟨.hbm, 317, rfl⟩
abbrev main_call5_v6 : Ref sig .tc := ⟨.hbm, 318, rfl⟩
abbrev main_call5_v7 : Ref sig .tc := ⟨.hbm, 319, rfl⟩
abbrev main_call5_cst_1 : Ref sig .tc := ⟨.hbm, 320, rfl⟩
abbrev main_call5_v8 : Ref sig .tc := ⟨.hbm, 321, rfl⟩
abbrev main_call5_cst_2 : Ref sig .tc := ⟨.hbm, 322, rfl⟩
abbrev main_call5_v9 : Ref sig .tc := ⟨.hbm, 323, rfl⟩
abbrev main_call5_v10 : Ref sig .tc := ⟨.hbm, 324, rfl⟩
abbrev main_call5_v11 : Ref sig .tc := ⟨.hbm, 325, rfl⟩
abbrev main_call5_cst_3 : Ref sig .tc := ⟨.hbm, 326, rfl⟩
abbrev main_call5_v12 : Ref sig .tc := ⟨.hbm, 327, rfl⟩
abbrev main_call5_cst_4 : Ref sig .tc := ⟨.hbm, 328, rfl⟩
abbrev main_call5_call0_v0 : Ref sig .tc := ⟨.hbm, 329, rfl⟩
abbrev main_call5_call0_v1 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_cst_40 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_v198 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_cst_41 : Ref sig .tc := ⟨.hbm, 348, rfl⟩
abbrev main_v204 : Ref sig .tc := ⟨.hbm, 349, rfl⟩
abbrev main_v205 : Ref sig .tc := ⟨.hbm, 350, rfl⟩
abbrev main_cst_42 : Ref sig .tc := ⟨.hbm, 351, rfl⟩
abbrev main_v206 : Ref sig .tc := ⟨.hbm, 352, rfl⟩
abbrev main_v207 : Ref sig .tc := ⟨.hbm, 353, rfl⟩
abbrev main_v208 : Ref sig .tc := ⟨.hbm, 354, rfl⟩
abbrev main_call7_cst : Ref sig .tc := ⟨.hbm, 355, rfl⟩
abbrev main_call7_v0 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_call8_cst : Ref sig .tc := ⟨.hbm, 362, rfl⟩
abbrev main_call8_v0 : Ref sig .tc := ⟨.hbm, 363, rfl⟩
abbrev main_v214 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3200x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x200_d1_w32 : S1x200.Iotas .tc 32 [1]
  broadcasts_S2000x1_S2000x200 : S2000x1.Broadcasts S2000x200
  broadcasts_S1x200_S2000x200 : S1x200.Broadcasts S2000x200
  natLt_1_32 : 1 < 32
  inb_S200x128_S200x128_0_0 : ∀ a, (![0, 0] : Fin 2 → Nat) a + S200x128.size a ≤ S200x128.size a
  h_S200x128 : 0 < S200x128.numel
  inb_S2000x128_S2000x128_0_0 : ∀ a, (![0, 0] : Fin 2 → Nat) a + S2000x128.size a ≤ S2000x128.size a
  h_S2000x128 : 0 < S2000x128.numel
  bcast_S16_S1x16_1 : S16.BroadcastsInDim S1x16 (![1] : Fin 1 → Fin S1x16.rank)
  bcast_S1x16_S20000x16_0_1 : S1x16.BroadcastsInDim S20000x16 (![0, 1] : Fin 2 → Fin S20000x16.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S20000_S20000x1_0 : S20000.BroadcastsInDim S20000x1 (![0] : Fin 1 → Fin S20000x1.rank)
  bcast_S20000x1_S20000x16_0_1 : S20000x1.BroadcastsInDim S20000x16 (![0, 1] : Fin 2 → Fin S20000x16.rank)
  inb_S3200x8_S3200x8_0_0 : ∀ a, (![0, 0] : Fin 2 → Nat) a + S3200x8.size a ≤ S3200x8.size a
  h_S3200x8 : 0 < S3200x8.numel
  shapeCasts_S3200x8_S3200x8 : S3200x8.ShapeCasts S3200x8
  inb_S3200x16_S3200x16_0_0 : ∀ a, (![0, 0] : Fin 2 → Nat) a + S3200x16.size a ≤ S3200x16.size a
  h_S3200x16 : 0 < S3200x16.numel
  shapeCasts_S3200x16_S3200x16 : S3200x16.ShapeCasts S3200x16
  slices_S3200x8_o0_0_S3200x1 : S3200x8.Slices ![0, 0] S3200x1
  broadcasts_S3200x1_S3200x16 : S3200x1.Broadcasts S3200x16
  slices_S3200x8_o0_1_S3200x1 : S3200x8.Slices ![0, 1] S3200x1
  slices_S3200x8_o0_2_S3200x1 : S3200x8.Slices ![0, 2] S3200x1
  slices_S3200x8_o0_3_S3200x1 : S3200x8.Slices ![0, 3] S3200x1
  slices_S3200x8_o0_4_S3200x1 : S3200x8.Slices ![0, 4] S3200x1
  slices_S3200x8_o0_5_S3200x1 : S3200x8.Slices ![0, 5] S3200x1
  slices_S3200x8_o0_6_S3200x1 : S3200x8.Slices ![0, 6] S3200x1
  slices_S3200x8_o0_7_S3200x1 : S3200x8.Slices ![0, 7] S3200x1
  concatenates_S3200x16_S3200x16_S3200x16_S3200x16_S3200x16_S3200x16_S3200x16_S3200x16_S3200x128_d1 : Shape.Concatenates [S3200x16, S3200x16, S3200x16, S3200x16, S3200x16, S3200x16, S3200x16, S3200x16] S3200x128 1
  inb_S3200x128_S3200x128_0_0 : ∀ a, (![0, 0] : Fin 2 → Nat) a + S3200x128.size a ≤ S3200x128.size a
  h_S3200x128 : 0 < S3200x128.numel
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  reducesTo_S20000x128_S128_d0 : S20000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S20000x128_0_1 : S1x128.BroadcastsInDim S20000x128 (![0, 1] : Fin 2 → Fin S20000x128.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S20000x1_S20000x32_0_1 : S20000x1.BroadcastsInDim S20000x32 (![0, 1] : Fin 2 → Fin S20000x32.rank)
  inb_S3200x4_S3200x4_0_0 : ∀ a, (![0, 0] : Fin 2 → Nat) a + S3200x4.size a ≤ S3200x4.size a
  h_S3200x4 : 0 < S3200x4.numel
  shapeCasts_S3200x4_S3200x4 : S3200x4.ShapeCasts S3200x4
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  slices_S3200x4_o0_0_S3200x1 : S3200x4.Slices ![0, 0] S3200x1
  broadcasts_S3200x1_S3200x32 : S3200x1.Broadcasts S3200x32
  slices_S3200x4_o0_1_S3200x1 : S3200x4.Slices ![0, 1] S3200x1
  slices_S3200x4_o0_2_S3200x1 : S3200x4.Slices ![0, 2] S3200x1
  slices_S3200x4_o0_3_S3200x1 : S3200x4.Slices ![0, 3] S3200x1
  concatenates_S3200x32_S3200x32_S3200x32_S3200x32_S3200x128_d1 : Shape.Concatenates [S3200x32, S3200x32, S3200x32, S3200x32] S3200x128 1
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  scatter_S20000_S640000x1_S640000_n_0_0_1_wf : ScatterDims.WF S20000 S640000x1 S640000 [] [0] [0] 1
  dot_S2000x200_S200x128_S2000x128_1_0_0_1_n_n_wf : DotDims.WF S2000x200 S200x128 S2000x128 [1] [0] [0] [1] [] []
  dot_S20000x128_S128x16_S20000x16_1_0_0_1_n_n_wf : DotDims.WF S20000x128 S128x16 S20000x16 [1] [0] [0] [1] [] []
  dot_S20000x16_S16x8_S20000x8_1_0_0_1_n_n_wf : DotDims.WF S20000x16 S16x8 S20000x8 [1] [0] [0] [1] [] []
  gather_S20000x8_S640000x1_S640000x8_1_0_n_n_0_1_18_wf : GatherDims.WF S20000x8 S640000x1 S640000x8 [1] [0] [] [0] [] 1 ![1, 8]
  gather_S20000x16_S640000x1_S640000x16_1_0_n_n_0_1_116_wf : GatherDims.WF S20000x16 S640000x1 S640000x16 [1] [0] [] [0] [] 1 ![1, 16]
  scatter_S20000x128_S640000x1_S640000x128_1_0_0_1_wf : ScatterDims.WF S20000x128 S640000x1 S640000x128 [1] [0] [0] 1
  dot_S20000x128_S128x32_S20000x32_1_0_0_1_n_n_wf : DotDims.WF S20000x128 S128x32 S20000x32 [1] [0] [0] [1] [] []
  dot_S20000x32_S32x4_S20000x4_1_0_0_1_n_n_wf : DotDims.WF S20000x32 S32x4 S20000x4 [1] [0] [0] [1] [] []
  gather_S20000x4_S640000x1_S640000x4_1_0_n_n_0_1_14_wf : GatherDims.WF S20000x4 S640000x1 S640000x4 [1] [0] [] [0] [] 1 ![1, 4]
  gather_S20000x32_S640000x1_S640000x32_1_0_n_n_0_1_132_wf : GatherDims.WF S20000x32 S640000x1 S640000x32 [1] [0] [] [0] [] 1 ![1, 32]
  dot_S20000x128_S128x64_S20000x64_1_0_0_1_n_n_wf : DotDims.WF S20000x128 S128x64 S20000x64 [1] [0] [0] [1] [] []
  dot_S20000x64_S64x2_S20000x2_1_0_0_1_n_n_wf : DotDims.WF S20000x64 S64x2 S20000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S20000x1.size a
  hwx0_0 : ∀ i : grid0.Coords, EltTy.bits .i32 = 32 ∨ (Rect.block (s := S20000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x8.size a ≤ S640000x8.size a
  hwx1_0 : ∀ i : grid1.Coords, EltTy.bits .f32 = 32 ∨ (Rect.block (s := S640000x8) S3200x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x8.size a ≤ S640000x8.size a
  hwx1_1 : ∀ i : grid1.Coords, EltTy.bits .f32 = 32 ∨ (Rect.block (s := S640000x8) S3200x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x16.size a ≤ S640000x16.size a
  hwx1_2 : ∀ i : grid1.Coords, EltTy.bits .f32 = 32 ∨ (Rect.block (s := S640000x16) S3200x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S640000x128.size a
  hwx1_3 : ∀ i : grid1.Coords, EltTy.bits .f32 = 32 ∨ (Rect.block (s := S640000x128) S3200x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x4.size a ≤ S640000x4.size a
  hwx2_0 : ∀ i : grid2.Coords, EltTy.bits .f32 = 32 ∨ (Rect.block (s := S640000x4) S3200x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x4.size a ≤ S640000x4.size a
  hwx2_1 : ∀ i : grid2.Coords, EltTy.bits .f32 = 32 ∨ (Rect.block (s := S640000x4) S3200x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x32.size a ≤ S640000x32.size a
  hwx2_2 : ∀ i : grid2.Coords, EltTy.bits .f32 = 32 ∨ (Rect.block (s := S640000x32) S3200x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x128.size a ≤ S640000x128.size a
  hwx2_3 : ∀ i : grid2.Coords, EltTy.bits .f32 = 32 ∨ (Rect.block (s := S640000x128) S3200x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x4.size a ≤ S640000x4.size a
  hwx3_0 : ∀ i : grid3.Coords, EltTy.bits .f32 = 32 ∨ (Rect.block (s := S640000x4) S3200x4.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x4.size a ≤ S640000x4.size a
  hwx3_1 : ∀ i : grid3.Coords, EltTy.bits .f32 = 32 ∨ (Rect.block (s := S640000x4) S3200x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3200x32.size a ≤ S640000x32.size a
  hwx3_2 : ∀ i : grid3.Coords, EltTy.bits .f32 = 32 ∨ (Rect.block (s := S640000x32) S3200x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3200x128.size a ≤ S640000x128.size a
  hwx3_3 : ∀ i : grid3.Coords, EltTy.bits .f32 = 32 ∨ (Rect.block (s := S640000x128) S3200x128.size (cc3_transform_3 i) (hinb3_3 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x200_S200x128_S2000x128_1_0_0_1_n_n : DotDims S2000x200 S200x128 S2000x128 where
  lhsContracting := [1]
  rhsContracting := [0]
  lhsNonContracting := [0]
  rhsNonContracting := [1]
  lhsBatch := []
  rhsBatch := []
  wf := dot_S2000x200_S200x128_S2000x128_1_0_0_1_n_n_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def gather_S20000x8_S640000x1_S640000x8_1_0_n_n_0_1_18 : GatherDims S20000x8 S640000x1 S640000x8 where
  offsetDims := [1]
  collapsedSliceDims := [0]
  operandBatchingDims := []
  startIndicesBatchingDims := []
  startIndexMap := [0]
  indexVectorDim := 1
  sliceSizes := ![1, 8]
  wf := gather_S20000x8_S640000x1_S640000x8_1_0_n_n_0_1_18_wf
def gather_S20000x16_S640000x1_S640000x16_1_0_n_n_0_1_116 : GatherDims S20000x16 S640000x1 S640000x16 where
  offsetDims := [1]
  collapsedSliceDims := [0]
  operandBatchingDims := []
  startIndicesBatchingDims := []
  startIndexMap := [0]
  indexVectorDim := 1
  sliceSizes := ![1, 16]
  wf := gather_S20000x16_S640000x1_S640000x16_1_0_n_n_0_1_116_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def dot_S20000x32_S32x4_S20000x4_1_0_0_1_n_n : DotDims S20000x32 S32x4 S20000x4 where
  lhsContracting := [1]
  rhsContracting := [0]
  lhsNonContracting := [0]
  rhsNonContracting := [1]
  lhsBatch := []
  rhsBatch := []
  wf := dot_S20000x32_S32x4_S20000x4_1_0_0_1_n_n_wf
def gather_S20000x4_S640000x1_S640000x4_1_0_n_n_0_1_14 : GatherDims S20000x4 S640000x1 S640000x4 where
  offsetDims := [1]
  collapsedSliceDims := [0]
  operandBatchingDims := []
  startIndicesBatchingDims := []
  startIndexMap := [0]
  indexVectorDim := 1
  sliceSizes := ![1, 4]
  wf := gather_S20000x4_S640000x1_S640000x4_1_0_n_n_0_1_14_wf
def gather_S20000x32_S640000x1_S640000x32_1_0_n_n_0_1_132 : GatherDims S20000x32 S640000x1 S640000x32 where
  offsetDims := [1]
  collapsedSliceDims := [0]
  operandBatchingDims := []
  startIndicesBatchingDims := []
  startIndexMap := [0]
  indexVectorDim := 1
  sliceSizes := ![1, 32]
  wf := gather_S20000x32_S640000x1_S640000x32_1_0_n_n_0_1_132_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x2_S20000x2_1_0_0_1_n_n : DotDims S20000x64 S64x2 S20000x2 where
  lhsContracting := [1]
  rhsContracting := [0]
  lhsNonContracting := [0]
  rhsNonContracting := [1]
  lhsBatch := []
  rhsBatch := []
  wf := dot_S20000x64_S64x2_S20000x2_1_0_0_1_n_n_wf

abbrev win0_0 : Pipeline.Window sig grid0 :=
  Pipeline.Window.ofSpec (Memref.whole main_v9) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S3200x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S3200x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S3200x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S3200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v98) S3200x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v105) S3200x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112) S3200x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v113) S3200x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v164) S3200x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v171) S3200x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v178) S3200x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v179) S3200x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000 : Shape := ⟨1, ![20000]⟩
abbrev S640000 : Shape := ⟨1, ![640000]⟩
abbrev S20000x1 : Shape := ⟨2, ![20000, 1]⟩
abbrev S200x128 : Shape := ⟨2, ![200, 128]⟩
abbrev S128x16 : Shape := ⟨2, ![128, 16]⟩
abbrev S16 : Shape := ⟨1, ![16]⟩
abbrev S16x8 : Shape := ⟨2, ![16, 8]⟩
abbrev S8 : Shape := ⟨1, ![8]⟩
abbrev S128 : Shape := ⟨1, ![128]⟩
abbrev S128x32 : Shape := ⟨2, ![128, 32]⟩
abbrev S32 : Shape := ⟨1, ![32]⟩
abbrev S32x4 : Shape := ⟨2, ![32, 4]⟩
abbrev S4 : Shape := ⟨1, ![4]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S20000x128 : Shape := ⟨2, ![20000, 128]⟩
abbrev S20000x16 : Shape := ⟨2, ![20000, 16]⟩
abbrev S1x16 : Shape := ⟨2, ![1, 16]⟩
abbrev S20000x8 : Shape := ⟨2, ![20000, 8]⟩
abbrev S1x8 : Shape := ⟨2, ![1, 8]⟩
abbrev S640000x1 : Shape := ⟨2, ![640000, 1]⟩
abbrev S640000x8 : Shape := ⟨2, ![640000, 8]⟩
abbrev S640000x16 : Shape := ⟨2, ![640000, 16]⟩
abbrev S640000x1x16 : Shape := ⟨3, ![640000, 1, 16]⟩
abbrev S640000x8x1 : Shape := ⟨3, ![640000, 8, 1]⟩
abbrev S640000x8x16 : Shape := ⟨3, ![640000, 8, 16]⟩
abbrev S20000x8x16 : Shape := ⟨3, ![20000, 8, 16]⟩
abbrev S1x128 : Shape := ⟨2, ![1, 128]⟩
abbrev S20000x32 : Shape := ⟨2, ![20000, 32]⟩
abbrev S1x32 : Shape := ⟨2, ![1, 32]⟩
abbrev S20000x4 : Shape := ⟨2, ![20000, 4]⟩
abbrev S1x4 : Shape := ⟨2, ![1, 4]⟩
abbrev S640000x4 : Shape := ⟨2, ![640000, 4]⟩
abbrev S640000x32 : Shape := ⟨2, ![640000, 32]⟩
abbrev S640000x1x32 : Shape := ⟨3, ![640000, 1, 32]⟩
abbrev S640000x4x1 : Shape := ⟨3, ![640000, 4, 1]⟩
abbrev S640000x4x32 : Shape := ⟨3, ![640000, 4, 32]⟩
abbrev S20000x4x32 : Shape := ⟨3, ![20000, 4, 32]⟩
abbrev S20000x64 : Shape := ⟨2, ![20000, 64]⟩
abbrev S1x64 : Shape := ⟨2, ![1, 64]⟩
abbrev S20000x2 : Shape := ⟨2, ![20000, 2]⟩
abbrev S1x2 : Shape := ⟨2, ![1, 2]⟩

abbrev nBuf : Space → Nat
  | .hbm => 446
  | .vmem => 0
  | .smem => 0
  | _ => 0

abbrev hbmTy0_0 (i : Nat) : BufTy := match i % 128 with
  | 0 => ⟨S20000, .i32⟩
  | 1 => ⟨S640000, .i32⟩
  | 2 => ⟨S640000, .i32⟩
  | 3 => ⟨S20000x1, .f32⟩
  | 4 => ⟨S200x128, .f32⟩
  | 5 => ⟨S128x16, .f32⟩
  | 6 => ⟨S16, .f32⟩
  | 7 => ⟨S16x8, .f32⟩
  | 8 => ⟨S8, .f32⟩
  | 9 => ⟨S16x8, .f32⟩
  | 10 => ⟨S8, .f32⟩
  | 11 => ⟨S128, .f32⟩
  | 12 => ⟨S128, .f32⟩
  | 13 => ⟨S128x32, .f32⟩
  | 14 => ⟨S32, .f32⟩
  | 15 => ⟨S32x4, .f32⟩
  | 16 => ⟨S4, .f32⟩
  | 17 => ⟨S32x4, .f32⟩
  | 18 => ⟨S4, .f32⟩
  | 19 => ⟨S128, .f32⟩
  | 20 => ⟨S128, .f32⟩
  | 21 => ⟨S128x32, .f32⟩
  | 22 => ⟨S32, .f32⟩
  | 23 => ⟨S32x4, .f32⟩
  | 24 => ⟨S4, .f32⟩
  | 25 => ⟨S32x4, .f32⟩
  | 26 => ⟨S4, .f32⟩
  | 27 => ⟨S128, .f32⟩
  | 28 => ⟨S128, .f32⟩
  | 29 => ⟨S128x64, .f32⟩
  | 30 => ⟨S64, .f32⟩
  | 31 => ⟨S64x2, .f32⟩
  | 32 => ⟨S2, .f32⟩
  | 33 => ⟨S_, .i32⟩
  | 34 => ⟨S20000, .i32⟩
  | 35 => ⟨S20000, .i1⟩
  | 36 => ⟨S_, .i32⟩
  | 37 => ⟨S20000, .i32⟩
  | 38 => ⟨S20000, .i32⟩
  | 39 => ⟨S20000, .i32⟩
  | 40 => ⟨S20000x1, .i32⟩
  | 41 => ⟨S20000x128, .f32⟩
  | 42 => ⟨S20000x16, .f32⟩
  | 43 => ⟨S1x16, .f32⟩
  | 44 => ⟨S20000x16, .f32⟩
  | 45 => ⟨S20000x16, .f32⟩
  | 46 => ⟨S20000x8, .f32⟩
  | 47 => ⟨S1x8, .f32⟩
  | 48 => ⟨S20000x8, .f32⟩
  | 49 => ⟨S20000x8, .f32⟩
  | 50 => ⟨S20000x8, .f32⟩
  | 51 => ⟨S1x8, .f32⟩
  | 52 => ⟨S20000x8, .f32⟩
  | 53 => ⟨S20000x8, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x8, .f32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000x8, .f32⟩
  | 72 => ⟨S640000x8, .f32⟩
  | 73 => ⟨S_, .f32⟩
  | 74 => ⟨S640000x8, .f32⟩
  | 75 => ⟨S640000x8, .f32⟩
  | 76 => ⟨S640000x8, .f32⟩
  | 77 => ⟨S640000x8, .f32⟩
  | 78 => ⟨S_, .f32⟩
  | 79 => ⟨S640000x8, .f32⟩
  | 80 => ⟨S640000x8, .f32⟩
  | 81 => ⟨S_, .f32⟩
  | 82 => ⟨S640000x8, .f32⟩
  | 83 => ⟨S640000x8, .f32⟩
  | 84 => ⟨S_, .f32⟩
  | 85 => ⟨S640000, .f32⟩
  | 86 => ⟨S_, .f32⟩
  | 87 => ⟨S20000, .f32⟩
  | 88 => ⟨S640000x1, .i32⟩
  | 89 => ⟨S20000, .f32⟩
  | 90 => ⟨S_, .f32⟩
  | 91 => ⟨S_, .f32⟩
  | 92 => ⟨S20000, .f32⟩
  | 93 => ⟨S20000, .f32⟩
  | 94 => ⟨S_, .f32⟩
  | 95 => ⟨S20000, .f32⟩
  | 96 => ⟨S20000, .f32⟩
  | 97 => ⟨S20000x1, .f32⟩
  | 98 => ⟨S20000x16, .f32⟩
  | 99 => ⟨S20000x16, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x16, .f32⟩
  | 109 => ⟨S640000x1x16, .f32⟩
  | 110 => ⟨S640000x8x1, .f32⟩
  | 111 => ⟨S640000x8x16, .f32⟩
  | 112 => ⟨S640000x8x16, .f32⟩
  | 113 => ⟨S640000x8x16, .f32⟩
  | 114 => ⟨S_, .f32⟩
  | 115 => ⟨S20000x8x16, .f32⟩
  | 116 => ⟨S640000x1, .i32⟩
  | 117 => ⟨S20000x8x16, .f32⟩
  | 118 => ⟨S20000x128, .f32⟩
  | 119 => ⟨S20000x128, .f32⟩
  | 120 => ⟨S20000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S20000, .i32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S20000x128, .f32⟩
  | 6 => ⟨S20000x128, .f32⟩
  | 7 => ⟨S20000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S20000x128, .f32⟩
  | 23 => ⟨S20000x128, .f32⟩
  | 24 => ⟨S_, .f32⟩
  | 25 => ⟨S128, .f32⟩
  | 26 => ⟨S128, .f32⟩
  | 27 => ⟨S128, .f32⟩
  | 28 => ⟨S1x128, .f32⟩
  | 29 => ⟨S20000x128, .f32⟩
  | 30 => ⟨S20000x128, .f32⟩
  | 31 => ⟨S1x128, .f32⟩
  | 32 => ⟨S20000x128, .f32⟩
  | 33 => ⟨S20000x128, .f32⟩
  | 34 => ⟨S1x128, .f32⟩
  | 35 => ⟨S20000x128, .f32⟩
  | 36 => ⟨S20000x128, .f32⟩
  | 37 => ⟨S_, .f32⟩
  | 38 => ⟨S20000x128, .f32⟩
  | 39 => ⟨S20000x128, .i1⟩
  | 40 => ⟨S_, .f32⟩
  | 41 => ⟨S20000x128, .f32⟩
  | 42 => ⟨S20000x128, .f32⟩
  | 43 => ⟨S20000x128, .f32⟩
  | 44 => ⟨S20000x32, .f32⟩
  | 45 => ⟨S1x32, .f32⟩
  | 46 => ⟨S20000x32, .f32⟩
  | 47 => ⟨S20000x32, .f32⟩
  | 48 => ⟨S20000x4, .f32⟩
  | 49 => ⟨S1x4, .f32⟩
  | 50 => ⟨S20000x4, .f32⟩
  | 51 => ⟨S20000x4, .f32⟩
  | 52 => ⟨S20000x4, .f32⟩
  | 53 => ⟨S1x4, .f32⟩
  | 54 => ⟨S20000x4, .f32⟩
  | 55 => ⟨S20000x4, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x4, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x4, .f32⟩
  | 74 => ⟨S640000x4, .f32⟩
  | 75 => ⟨S_, .f32⟩
  | 76 => ⟨S640000x4, .f32⟩
  | 77 => ⟨S640000x4, .f32⟩
  | 78 => ⟨S640000x4, .f32⟩
  | 79 => ⟨S640000x4, .f32⟩
  | 80 => ⟨S_, .f32⟩
  | 81 => ⟨S640000x4, .f32⟩
  | 82 => ⟨S640000x4, .f32⟩
  | 83 => ⟨S_, .f32⟩
  | 84 => ⟨S640000x4, .f32⟩
  | 85 => ⟨S640000x4, .f32⟩
  | 86 => ⟨S_, .f32⟩
  | 87 => ⟨S640000, .f32⟩
  | 88 => ⟨S_, .f32⟩
  | 89 => ⟨S20000, .f32⟩
  | 90 => ⟨S640000x1, .i32⟩
  | 91 => ⟨S20000, .f32⟩
  | 92 => ⟨S_, .f32⟩
  | 93 => ⟨S_, .f32⟩
  | 94 => ⟨S20000, .f32⟩
  | 95 => ⟨S20000, .f32⟩
  | 96 => ⟨S_, .f32⟩
  | 97 => ⟨S20000, .f32⟩
  | 98 => ⟨S20000, .f32⟩
  | 99 => ⟨S20000x1, .f32⟩
  | 100 => ⟨S20000x32, .f32⟩
  | 101 => ⟨S20000x32, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x32, .f32⟩
  | 111 => ⟨S640000x1x32, .f32⟩
  | 112 => ⟨S640000x4x1, .f32⟩
  | 113 => ⟨S640000x4x32, .f32⟩
  | 114 => ⟨S640000x4x32, .f32⟩
  | 115 => ⟨S640000x4x32, .f32⟩
  | 116 => ⟨S_, .f32⟩
  | 117 => ⟨S20000x4x32, .f32⟩
  | 118 => ⟨S640000x1, .i32⟩
  | 119 => ⟨S20000x4x32, .f32⟩
  | 120 => ⟨S20000x128, .f32⟩
  | 121 => ⟨S20000x128, .f32⟩
  | 122 => ⟨S20000x128, .f32⟩
  | 123 => ⟨S_, .f32⟩
  | 124 => ⟨S128, .f32⟩
  | 125 => ⟨S_, .f32⟩
  | 126 => ⟨S128, .f32⟩
  | 127 => ⟨S128, .f32⟩
  | _ => ⟨S20000, .i32⟩

abbrev hbmTy0_2 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S20000x128, .f32⟩
  | 8 => ⟨S20000x128, .f32⟩
  | 9 => ⟨S20000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S20000x128, .f32⟩
  | 25 => ⟨S20000x128, .f32⟩
  | 26 => ⟨S_, .f32⟩
  | 27 => ⟨S128, .f32⟩
  | 28 => ⟨S128, .f32⟩
  | 29 => ⟨S128, .f32⟩
  | 30 => ⟨S1x128, .f32⟩
  | 31 => ⟨S20000x128, .f32⟩
  | 32 => ⟨S20000x128, .f32⟩
  | 33 => ⟨S1x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S_, .f32⟩
  | 40 => ⟨S20000x128, .f32⟩
  | 41 => ⟨S20000x128, .i1⟩
  | 42 => ⟨S_, .f32⟩
  | 43 => ⟨S20000x128, .f32⟩
  | 44 => ⟨S20000x128, .f32⟩
  | 45 => ⟨S20000x128, .f32⟩
  | 46 => ⟨S20000x32, .f32⟩
  | 47 => ⟨S1x32, .f32⟩
  | 48 => ⟨S20000x32, .f32⟩
  | 49 => ⟨S20000x32, .f32⟩
  | 50 => ⟨S20000x4, .f32⟩
  | 51 => ⟨S1x4, .f32⟩
  | 52 => ⟨S20000x4, .f32⟩
  | 53 => ⟨S20000x4, .f32⟩
  | 54 => ⟨S20000x4, .f32⟩
  | 55 => ⟨S1x4, .f32⟩
  | 56 => ⟨S20000x4, .f32⟩
  | 57 => ⟨S20000x4, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000x4, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x4, .f32⟩
  | 76 => ⟨S640000x4, .f32⟩
  | 77 => ⟨S_, .f32⟩
  | 78 => ⟨S640000x4, .f32⟩
  | 79 => ⟨S640000x4, .f32⟩
  | 80 => ⟨S640000x4, .f32⟩
  | 81 => ⟨S640000x4, .f32⟩
  | 82 => ⟨S_, .f32⟩
  | 83 => ⟨S640000x4, .f32⟩
  | 84 => ⟨S640000x4, .f32⟩
  | 85 => ⟨S_, .f32⟩
  | 86 => ⟨S640000x4, .f32⟩
  | 87 => ⟨S640000x4, .f32⟩
  | 88 => ⟨S_, .f32⟩
  | 89 => ⟨S640000, .f32⟩
  | 90 => ⟨S_, .f32⟩
  | 91 => ⟨S20000, .f32⟩
  | 92 => ⟨S640000x1, .i32⟩
  | 93 => ⟨S20000, .f32⟩
  | 94 => ⟨S_, .f32⟩
  | 95 => ⟨S_, .f32⟩
  | 96 => ⟨S20000, .f32⟩
  | 97 => ⟨S20000, .f32⟩
  | 98 => ⟨S_, .f32⟩
  | 99 => ⟨S20000, .f32⟩
  | 100 => ⟨S20000, .f32⟩
  | 101 => ⟨S20000x1, .f32⟩
  | 102 => ⟨S20000x32, .f32⟩
  | 103 => ⟨S20000x32, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x32, .f32⟩
  | 113 => ⟨S640000x1x32, .f32⟩
  | 114 => ⟨S640000x4x1, .f32⟩
  | 115 => ⟨S640000x4x32, .f32⟩
  | 116 => ⟨S640000x4x32, .f32⟩
  | 117 => ⟨S640000x4x32, .f32⟩
  | 118 => ⟨S_, .f32⟩
  | 119 => ⟨S20000x4x32, .f32⟩
  | 120 => ⟨S640000x1, .i32⟩
  | 121 => ⟨S20000x4x32, .f32⟩
  | 122 => ⟨S20000x128, .f32⟩
  | 123 => ⟨S20000x128, .f32⟩
  | 124 => ⟨S20000x128, .f32⟩
  | 125 => ⟨S_, .f32⟩
  | 126 => ⟨S128, .f32⟩
  | 127 => ⟨S_, .f32⟩
  | _ => ⟨S20000, .i32⟩

abbrev hbmTy0_3 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S20000x128, .f32⟩
  | 10 => ⟨S20000x128, .f32⟩
  | 11 => ⟨S20000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S20000x128, .f32⟩
  | 27 => ⟨S20000x128, .f32⟩
  | 28 => ⟨S_, .f32⟩
  | 29 => ⟨S128, .f32⟩
  | 30 => ⟨S128, .f32⟩
  | 31 => ⟨S128, .f32⟩
  | 32 => ⟨S1x128, .f32⟩
  | 33 => ⟨S20000x128, .f32⟩
  | 34 => ⟨S20000x128, .f32⟩
  | 35 => ⟨S1x128, .f32⟩
  | 36 => ⟨S20000x128, .f32⟩
  | 37 => ⟨S20000x128, .f32⟩
  | 38 => ⟨S1x128, .f32⟩
  | 39 => ⟨S20000x128, .f32⟩
  | 40 => ⟨S20000x128, .f32⟩
  | 41 => ⟨S_, .f32⟩
  | 42 => ⟨S20000x128, .f32⟩
  | 43 => ⟨S20000x128, .i1⟩
  | 44 => ⟨S_, .f32⟩
  | 45 => ⟨S20000x128, .f32⟩
  | 46 => ⟨S20000x128, .f32⟩
  | 47 => ⟨S20000x128, .f32⟩
  | 48 => ⟨S_, .f32⟩
  | 49 => ⟨S20000x128, .f32⟩
  | 50 => ⟨S20000x128, .f32⟩
  | 51 => ⟨S20000x64, .f32⟩
  | 52 => ⟨S1x64, .f32⟩
  | 53 => ⟨S20000x64, .f32⟩
  | 54 => ⟨S20000x64, .f32⟩
  | 55 => ⟨S_, .f32⟩
  | 56 => ⟨S20000x64, .f32⟩
  | 57 => ⟨S20000x64, .f32⟩
  | 58 => ⟨S20000x2, .f32⟩
  | 59 => ⟨S1x2, .f32⟩
  | 60 => ⟨S20000x2, .f32⟩
  | 61 => ⟨S20000x2, .f32⟩
  | _ => ⟨S20000, .i32⟩

abbrev hbmTy (i : Nat) : BufTy := match i / 128 with
  | 0 => hbmTy0_0 i
  | 1 => hbmTy0_1 i
  | 2 => hbmTy0_2 i
  | 3 => hbmTy0_3 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_c : Ref sig .tc := ⟨.hbm, 33, rfl⟩
abbrev main_v0 : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_3 : Ref sig .tc := ⟨.hbm, 63, rfl⟩
abbrev main_v26 : Ref sig .tc := ⟨.hbm, 64, rfl⟩
abbrev main_v27 : Ref sig .tc := ⟨.hbm, 65, rfl⟩
abbrev main_c_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_cst_7 : Ref sig .tc := ⟨.hbm, 84, rfl⟩
abbrev main_v42 : Ref sig .tc := ⟨.hbm, 85, rfl⟩
abbrev main_cst_8 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_9 : Ref sig .tc := ⟨.hbm, 90, rfl⟩
abbrev main_call0_v0 : Ref sig .tc := ⟨.hbm, 91, rfl⟩
abbrev main_call0_v1 : Ref sig .tc := ⟨.hbm, 92, rfl⟩
abbrev main_v46 : Ref sig .tc := ⟨.hbm, 93, rfl⟩
abbrev main_cst_10 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_c_11 : Ref sig .tc := ⟨.hbm, 100, rfl⟩
abbrev main_v52 : Ref sig .tc := ⟨.hbm, 101, rfl⟩
abbrev main_v53 : Ref sig .tc := ⟨.hbm, 102, rfl⟩
abbrev main_c_12 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_13 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_cst_15 : Ref sig .tc := ⟨.hbm, 123, rfl⟩
abbrev main_v71 : Ref sig .tc := ⟨.hbm, 124, rfl⟩
abbrev main_v72 : Ref sig .tc := ⟨.hbm, 125, rfl⟩
abbrev main_c_16 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_cst_3 : Ref sig .tc := ⟨.hbm, 143, rfl⟩
abbrev main_call1_v12 : Ref sig .tc := ⟨.hbm, 144, rfl⟩
abbrev main_call1_cst_4 : Ref sig .tc := ⟨.hbm, 145, rfl⟩
abbrev main_call1_call0_v0 : Ref sig .tc := ⟨.hbm, 146, rfl⟩
abbrev main_call1_call0_v1 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_17 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_cst_18 : Ref sig .tc := ⟨.hbm, 165, rfl⟩
abbrev main_v89 : Ref sig .tc := ⟨.hbm, 166, rfl⟩
abbrev main_v90 : Ref sig .tc := ⟨.hbm, 167, rfl⟩
abbrev main_cst_19 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_c_20 : Ref sig .tc := ⟨.hbm, 184, rfl⟩
abbrev main_v106 : Ref sig .tc := ⟨.hbm, 185, rfl⟩
abbrev main_v107 : Ref sig .tc := ⟨.hbm, 186, rfl⟩
abbrev main_c_21 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_c_22 : Ref sig .tc := ⟨.hbm, 193, rfl⟩
abbrev main_v113 : Ref sig .tc := ⟨.hbm, 194, rfl⟩
abbrev main_v114 : Ref sig .tc := ⟨.hbm, 195, rfl⟩
abbrev main_c_23 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_24 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_25 : Ref sig .tc := ⟨.hbm, 208, rfl⟩
abbrev main_v125 : Ref sig .tc := ⟨.hbm, 209, rfl⟩
abbrev main_v126 : Ref sig .tc := ⟨.hbm, 210, rfl⟩
abbrev main_cst_26 : Ref sig .tc := ⟨.hbm, 211, rfl⟩
abbrev main_v127 : Ref sig .tc := ⟨.hbm, 212, rfl⟩
abbrev main_v128 : Ref sig .tc := ⟨.hbm, 213, rfl⟩
abbrev main_cst_27 : Ref sig .tc := ⟨.hbm, 214, rfl⟩
abbrev main_v129 : Ref sig .tc := ⟨.hbm, 215, rfl⟩
abbrev main_cst_28 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_29 : Ref sig .tc := ⟨.hbm, 220, rfl⟩
abbrev main_call3_v0 : Ref sig .tc := ⟨.hbm, 221, rfl⟩
abbrev main_call3_v1 : Ref sig .tc := ⟨.hbm, 222, rfl⟩
abbrev main_v133 : Ref sig .tc := ⟨.hbm, 223, rfl⟩
abbrev main_cst_30 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_c_31 : Ref sig .tc := ⟨.hbm, 230, rfl⟩
abbrev main_v139 : Ref sig .tc := ⟨.hbm, 231, rfl⟩
abbrev main_v140 : Ref sig .tc := ⟨.hbm, 232, rfl⟩
abbrev main_c_32 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_cst_33 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_cst_34 : Ref sig .tc := ⟨.hbm, 251, rfl⟩
abbrev main_v157 : Ref sig .tc := ⟨.hbm, 252, rfl⟩
abbrev main_cst_35 : Ref sig .tc := ⟨.hbm, 253, rfl⟩
abbrev main_v158 : Ref sig .tc := ⟨.hbm, 254, rfl⟩
abbrev main_v159 : Ref sig .tc := ⟨.hbm, 255, rfl⟩
abbrev main_c_36 : Ref sig .tc := ⟨.hbm, 256, rfl⟩
abbrev main_call4_cst : Ref sig .tc := ⟨.hbm, 257, rfl⟩
abbrev main_call4_v0 : Ref sig .tc := ⟨.hbm, 258, rfl⟩
abbrev main_call4_v1 : Ref sig .tc := ⟨.hbm, 259, rfl⟩
abbrev main_call4_cst_0 : Ref sig .tc := ⟨.hbm, 260, rfl⟩
abbrev main_call4_v2 : Ref sig .tc := ⟨.hbm, 261, rfl⟩
abbrev main_call4_v3 : Ref sig .tc := ⟨.hbm, 262, rfl⟩
abbrev main_call4_v4 : Ref sig .tc := ⟨.hbm, 263, rfl⟩
abbrev main_call4_v5 : Ref sig .tc := ⟨.hbm, 264, rfl⟩
abbrev main_call4_v6 : Ref sig .tc := ⟨.hbm, 265, rfl⟩
abbrev main_call4_v7 : Ref sig .tc := ⟨.hbm, 266, rfl⟩
abbrev main_call4_cst_1 : Ref sig .tc := ⟨.hbm, 267, rfl⟩
abbrev main_call4_v8 : Ref sig .tc := ⟨.hbm, 268, rfl⟩
abbrev main_call4_cst_2 : Ref sig .tc := ⟨.hbm, 269, rfl⟩
abbrev main_call4_v9 : Ref sig .tc := ⟨.hbm, 270, rfl⟩
abbrev main_call4_v10 : Ref sig .tc := ⟨.hbm, 271, rfl⟩
abbrev main_call4_v11 : Ref sig .tc := ⟨.hbm, 272, rfl⟩
abbrev main_call4_cst_3 : Ref sig .tc := ⟨.hbm, 273, rfl⟩
abbrev main_call4_v12 : Ref sig .tc := ⟨.hbm, 274, rfl⟩
abbrev main_call4_cst_4 : Ref sig .tc := ⟨.hbm, 275, rfl⟩
abbrev main_call4_call0_v0 : Ref sig .tc := ⟨.hbm, 276, rfl⟩
abbrev main_call4_call0_v1 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_cst_37 : Ref sig .tc := ⟨.hbm, 282, rfl⟩
abbrev main_v164 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_cst_38 : Ref sig .tc := ⟨.hbm, 295, rfl⟩
abbrev main_v176 : Ref sig .tc := ⟨.hbm, 296, rfl⟩
abbrev main_v177 : Ref sig .tc := ⟨.hbm, 297, rfl⟩
abbrev main_cst_39 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_c_40 : Ref sig .tc := ⟨.hbm, 314, rfl⟩
abbrev main_v193 : Ref sig .tc := ⟨.hbm, 315, rfl⟩
abbrev main_v194 : Ref sig .tc := ⟨.hbm, 316, rfl⟩
abbrev main_c_41 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_c_42 : Ref sig .tc := ⟨.hbm, 323, rfl⟩
abbrev main_v200 : Ref sig .tc := ⟨.hbm, 324, rfl⟩
abbrev main_v201 : Ref sig .tc := ⟨.hbm, 325, rfl⟩
abbrev main_c_43 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_cst_44 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_cst_45 : Ref sig .tc := ⟨.hbm, 338, rfl⟩
abbrev main_v212 : Ref sig .tc := ⟨.hbm, 339, rfl⟩
abbrev main_v213 : Ref sig .tc := ⟨.hbm, 340, rfl⟩
abbrev main_cst_46 : Ref sig .tc := ⟨.hbm, 341, rfl⟩
abbrev main_v214 : Ref sig .tc := ⟨.hbm, 342, rfl⟩
abbrev main_v215 : Ref sig .tc := ⟨.hbm, 343, rfl⟩
abbrev main_cst_47 : Ref sig .tc := ⟨.hbm, 344, rfl⟩
abbrev main_v216 : Ref sig .tc := ⟨.hbm, 345, rfl⟩
abbrev main_cst_48 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_cst_49 : Ref sig .tc := ⟨.hbm, 350, rfl⟩
abbrev main_call6_v0 : Ref sig .tc := ⟨.hbm, 351, rfl⟩
abbrev main_call6_v1 : Ref sig .tc := ⟨.hbm, 352, rfl⟩
abbrev main_v220 : Ref sig .tc := ⟨.hbm, 353, rfl⟩
abbrev main_cst_50 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_c_51 : Ref sig .tc := ⟨.hbm, 360, rfl⟩
abbrev main_v226 : Ref sig .tc := ⟨.hbm, 361, rfl⟩
abbrev main_v227 : Ref sig .tc := ⟨.hbm, 362, rfl⟩
abbrev main_c_52 : Ref sig .tc := ⟨.hbm, 363, rfl⟩
abbrev main_v228 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_cst_53 : Ref sig .tc := ⟨.hbm, 374, rfl⟩
abbrev main_v238 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_cst_54 : Ref sig .tc := ⟨.hbm, 381, rfl⟩
abbrev main_v244 : Ref sig .tc := ⟨.hbm, 382, rfl⟩
abbrev main_cst_55 : Ref sig .tc := ⟨.hbm, 383, rfl⟩
abbrev main_v245 : Ref sig .tc := ⟨.hbm, 384, rfl⟩
abbrev main_v246 : Ref sig .tc := ⟨.hbm, 385, rfl⟩
abbrev main_c_56 : Ref sig .tc := ⟨.hbm, 386, rfl⟩
abbrev main_call7_cst : Ref sig .tc := ⟨.hbm, 387, rfl⟩
abbrev main_call7_v0 : Ref sig .tc := ⟨.hbm, 388, rfl⟩
abbrev main_call7_v1 : Ref sig .tc := ⟨.hbm, 389, rfl⟩
abbrev main_call7_cst_0 : Ref sig .tc := ⟨.hbm, 390, rfl⟩
abbrev main_call7_v2 : Ref sig .tc := ⟨.hbm, 391, rfl⟩
abbrev main_call7_v3 : Ref sig .tc := ⟨.hbm, 392, rfl⟩
abbrev main_call7_v4 : Ref sig .tc := ⟨.hbm, 393, rfl⟩
abbrev main_call7_v5 : Ref sig .tc := ⟨.hbm, 394, rfl⟩
abbrev main_call7_v6 : Ref sig .tc := ⟨.hbm, 395, rfl⟩
abbrev main_call7_v7 : Ref sig .tc := ⟨.hbm, 396, rfl⟩
abbrev main_call7_cst_1 : Ref sig .tc := ⟨.hbm, 397, rfl⟩
abbrev main_call7_v8 : Ref sig .tc := ⟨.hbm, 398, rfl⟩
abbrev main_call7_cst_2 : Ref sig .tc := ⟨.hbm, 399, rfl⟩
abbrev main_call7_v9 : Ref sig .tc := ⟨.hbm, 400, rfl⟩
abbrev main_call7_v10 : Ref sig .tc := ⟨.hbm, 401, rfl⟩
abbrev main_call7_v11 : Ref sig .tc := ⟨.hbm, 402, rfl⟩
abbrev main_call7_cst_3 : Ref sig .tc := ⟨.hbm, 403, rfl⟩
abbrev main_call7_v12 : Ref sig .tc := ⟨.hbm, 404, rfl⟩
abbrev main_call7_cst_4 : Ref sig .tc := ⟨.hbm, 405, rfl⟩
abbrev main_call7_call0_v0 : Ref sig .tc := ⟨.hbm, 406, rfl⟩
abbrev main_call7_call0_v1 : Ref sig .tc := ⟨.hbm, 407, rfl⟩
abbrev main_v247 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩
abbrev main_cst_57 : Ref sig .tc := ⟨.hbm, 412, rfl⟩
abbrev main_v251 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_cst_58 : Ref sig .tc := ⟨.hbm, 425, rfl⟩
abbrev main_v263 : Ref sig .tc := ⟨.hbm, 426, rfl⟩
abbrev main_v264 : Ref sig .tc := ⟨.hbm, 427, rfl⟩
abbrev main_cst_59 : Ref sig .tc := ⟨.hbm, 428, rfl⟩
abbrev main_v265 : Ref sig .tc := ⟨.hbm, 429, rfl⟩
abbrev main_v266 : Ref sig .tc := ⟨.hbm, 430, rfl⟩
abbrev main_v267 : Ref sig .tc := ⟨.hbm, 431, rfl⟩
abbrev main_call9_cst : Ref sig .tc := ⟨.hbm, 432, rfl⟩
abbrev main_call9_v0 : Ref sig .tc := ⟨.hbm, 433, rfl⟩
abbrev main_v268 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_v272 : Ref sig .tc := ⟨.hbm, 438, rfl⟩
abbrev main_call10_cst : Ref sig .tc := ⟨.hbm, 439, rfl⟩
abbrev main_call10_v0 : Ref sig .tc := ⟨.hbm, 440, rfl⟩
abbrev main_v273 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev main_v277 : Ref sig .tc := ⟨.hbm, 445, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S16_S1x16_1 : S16.BroadcastsInDim S1x16 (![1] : Fin 1 → Fin S1x16.rank)
  bcast_S1x16_S20000x16_0_1 : S1x16.BroadcastsInDim S20000x16 (![0, 1] : Fin 2 → Fin S20000x16.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x8 : S_.BroadcastsInDim S640000x8 (![] : Fin 0 → Fin S640000x8.rank)
  bcast_S20000x1_S20000x16_0_1 : S20000x1.BroadcastsInDim S20000x16 (![0, 1] : Fin 2 → Fin S20000x16.rank)
  bcast_S640000x16_S640000x1x16_0_2 : S640000x16.BroadcastsInDim S640000x1x16 (![0, 2] : Fin 2 → Fin S640000x1x16.rank)
  bcast_S640000x8_S640000x8x1_0_1 : S640000x8.BroadcastsInDim S640000x8x1 (![0, 1] : Fin 2 → Fin S640000x8x1.rank)
  bcast_S640000x1x16_S640000x8x16_0_1_2 : S640000x1x16.BroadcastsInDim S640000x8x16 (![0, 1, 2] : Fin 3 → Fin S640000x8x16.rank)
  bcast_S640000x8x1_S640000x8x16_0_1_2 : S640000x8x1.BroadcastsInDim S640000x8x16 (![0, 1, 2] : Fin 3 → Fin S640000x8x16.rank)
  bcast_S_S20000x8x16 : S_.BroadcastsInDim S20000x8x16 (![] : Fin 0 → Fin S20000x8x16.rank)
  shapeCasts_S20000x8x16_S20000x128 : S20000x8x16.ShapeCasts S20000x128
  bcast_S20000x1_S20000x128_0_1 : S20000x1.BroadcastsInDim S20000x128 (![0, 1] : Fin 2 → Fin S20000x128.rank)
  reducesTo_S20000x128_S128_d0 : S20000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S_S640000x4 : S_.BroadcastsInDim S640000x4 (![] : Fin 0 → Fin S640000x4.rank)
  bcast_S20000x1_S20000x32_0_1 : S20000x1.BroadcastsInDim S20000x32 (![0, 1] : Fin 2 → Fin S20000x32.rank)
  bcast_S640000x32_S640000x1x32_0_2 : S640000x32.BroadcastsInDim S640000x1x32 (![0, 2] : Fin 2 → Fin S640000x1x32.rank)
  bcast_S640000x4_S640000x4x1_0_1 : S640000x4.BroadcastsInDim S640000x4x1 (![0, 1] : Fin 2 → Fin S640000x4x1.rank)
  bcast_S640000x1x32_S640000x4x32_0_1_2 : S640000x1x32.BroadcastsInDim S640000x4x32 (![0, 1, 2] : Fin 3 → Fin S640000x4x32.rank)
  bcast_S640000x4x1_S640000x4x32_0_1_2 : S640000x4x1.BroadcastsInDim S640000x4x32 (![0, 1, 2] : Fin 3 → Fin S640000x4x32.rank)
  bcast_S_S20000x4x32 : S_.BroadcastsInDim S20000x4x32 (![] : Fin 0 → Fin S20000x4x32.rank)
  shapeCasts_S20000x4x32_S20000x128 : S20000x4x32.ShapeCasts S20000x128
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  gather_S200x128_S20000x1_S20000x128_1_0_n_n_0_1_1128_wf : GatherDims.WF S200x128 S20000x1 S20000x128 [1] [0] [] [0] [] 1 ![1, 128]
  dot_S20000x128_S128x16_S20000x16_1_0_0_1_n_n_wf : DotDims.WF S20000x128 S128x16 S20000x16 [1] [0] [0] [1] [] []
  dot_S20000x16_S16x8_S20000x8_1_0_0_1_n_n_wf : DotDims.WF S20000x16 S16x8 S20000x8 [1] [0] [0] [1] [] []
  gather_S20000x8_S640000x1_S640000x8_1_0_n_n_0_1_18_wf : GatherDims.WF S20000x8 S640000x1 S640000x8 [1] [0] [] [0] [] 1 ![1, 8]
  scatter_S20000_S640000x1_S640000_n_0_0_1_wf : ScatterDims.WF S20000 S640000x1 S640000 [] [0] [0] 1
  gather_S20000x16_S640000x1_S640000x16_1_0_n_n_0_1_116_wf : GatherDims.WF S20000x16 S640000x1 S640000x16 [1] [0] [] [0] [] 1 ![1, 16]
  scatter_S20000x8x16_S640000x1_S640000x8x16_12_0_0_1_wf : ScatterDims.WF S20000x8x16 S640000x1 S640000x8x16 [1, 2] [0] [0] 1
  dot_S20000x128_S128x32_S20000x32_1_0_0_1_n_n_wf : DotDims.WF S20000x128 S128x32 S20000x32 [1] [0] [0] [1] [] []
  dot_S20000x32_S32x4_S20000x4_1_0_0_1_n_n_wf : DotDims.WF S20000x32 S32x4 S20000x4 [1] [0] [0] [1] [] []
  gather_S20000x4_S640000x1_S640000x4_1_0_n_n_0_1_14_wf : GatherDims.WF S20000x4 S640000x1 S640000x4 [1] [0] [] [0] [] 1 ![1, 4]
  gather_S20000x32_S640000x1_S640000x32_1_0_n_n_0_1_132_wf : GatherDims.WF S20000x32 S640000x1 S640000x32 [1] [0] [] [0] [] 1 ![1, 32]
  scatter_S20000x4x32_S640000x1_S640000x4x32_12_0_0_1_wf : ScatterDims.WF S20000x4x32 S640000x1 S640000x4x32 [1, 2] [0] [0] 1
  dot_S20000x128_S128x64_S20000x64_1_0_0_1_n_n_wf : DotDims.WF S20000x128 S128x64 S20000x64 [1] [0] [0] [1] [] []
  dot_S20000x64_S64x2_S20000x2_1_0_0_1_n_n_wf : DotDims.WF S20000x64 S64x2 S20000x2 [1] [0] [0] [1] [] []

variable [Facts₀]

def gather_S200x128_S20000x1_S20000x128_1_0_n_n_0_1_1128 : GatherDims S200x128 S20000x1 S20000x128 where
  offsetDims := [1]
  collapsedSliceDims := [0]
  operandBatchingDims := []
  startIndicesBatchingDims := []
  startIndexMap := [0]
  indexVectorDim := 1
  sliceSizes := ![1, 128]
  wf := gather_S200x128_S20000x1_S20000x128_1_0_n_n_0_1_1128_wf
def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf
def dot_S20000x16_S16x8_S20000x8_1_0_0_1_n_n : DotDims S20000x16 S16x8 S20000x8 where
  lhsContracting := [1]
  rhsContracting := [0]
  lhsNonContracting := [0]
  rhsNonContracting := [1]
  lhsBatch := []
  rhsBatch := []
  wf := dot_S20000x16_S16x8_S20000x8_1_0_0_1_n_n_wf
def gather_S20000x8_S640000x1_S640000x8_1_0_n_n_0_1_18 : GatherDims S20000x8 S640000x1 S640000x8 where
  offsetDims := [1]
  collapsedSliceDims := [0]
  operandBatchingDims := []
  startIndicesBatchingDims := []
  startIndexMap := [0]
  indexVectorDim := 1
  sliceSizes := ![1, 8]
  wf := gather_S20000x8_S640000x1_S640000x8_1_0_n_n_0_1_18_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x16_S640000x1_S640000x16_1_0_n_n_0_1_116 : GatherDims S20000x16 S640000x1 S640000x16 where
  offsetDims := [1]
  collapsedSliceDims := [0]
  operandBatchingDims := []
  startIndicesBatchingDims := []
  startIndexMap := [0]
  indexVectorDim := 1
  sliceSizes := ![1, 16]
  wf := gather_S20000x16_S640000x1_S640000x16_1_0_n_n_0_1_116_wf
def scatter_S20000x8x16_S640000x1_S640000x8x16_12_0_0_1 : ScatterDims S20000x8x16 S640000x1 S640000x8x16 where
  updateWindowDims := [1, 2]
  insertedWindowDims := [0]
  scatterDimsToOperandDims := [0]
  indexVectorDim := 1
  wf := scatter_S20000x8x16_S640000x1_S640000x8x16_12_0_0_1_wf
def dot_S20000x128_S128x32_S20000x32_1_0_0_1_n_n : DotDims S20000x128 S128x32 S20000x32 where
  lhsContracting := [1]
  rhsContracting := [0]
  lhsNonContracting := [0]
  rhsNonContracting := [1]
  lhsBatch := []
  rhsBatch := []
  wf := dot_S20000x128_S128x32_S20000x32_1_0_0_1_n_n_wf
def dot_S20000x32_S32x4_S20000x4_1_0_0_1_n_n : DotDims S20000x32 S32x4 S20000x4 where
  lhsContracting := [1]
  rhsContracting := [0]
  lhsNonContracting := [0]
  rhsNonContracting := [1]
  lhsBatch := []
  rhsBatch := []
  wf := dot_S20000x32_S32x4_S20000x4_1_0_0_1_n_n_wf
def gather_S20000x4_S640000x1_S640000x4_1_0_n_n_0_1_14 : GatherDims S20000x4 S640000x1 S640000x4 where
  offsetDims := [1]
  collapsedSliceDims := [0]
  operandBatchingDims := []
  startIndicesBatchingDims := []
  startIndexMap := [0]
  indexVectorDim := 1
  sliceSizes := ![1, 4]
  wf := gather_S20000x4_S640000x1_S640000x4_1_0_n_n_0_1_14_wf
def gather_S20000x32_S640000x1_S640000x32_1_0_n_n_0_1_132 : GatherDims S20000x32 S640000x1 S640000x32 where
  offsetDims := [1]
  collapsedSliceDims := [0]
  operandBatchingDims := []
  startIndicesBatchingDims := []
  startIndexMap := [0]
  indexVectorDim := 1
  sliceSizes := ![1, 32]
  wf := gather_S20000x32_S640000x1_S640000x32_1_0_n_n_0_1_132_wf
def scatter_S20000x4x32_S640000x1_S640000x4x32_12_0_0_1 : ScatterDims S20000x4x32 S640000x1 S640000x4x32 where
  updateWindowDims := [1, 2]
  insertedWindowDims := [0]
  scatterDimsToOperandDims := [0]
  indexVectorDim := 1
  wf := scatter_S20000x4x32_S640000x1_S640000x4x32_12_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x2_S20000x2_1_0_0_1_n_n : DotDims S20000x64 S64x2 S20000x2 where
  lhsContracting := [1]
  rhsContracting := [0]
  lhsNonContracting := [0]
  rhsNonContracting := [1]
  lhsBatch := []
  rhsBatch := []
  wf := dot_S20000x64_S64x2_S20000x2_1_0_0_1_n_n_wf

class Facts : Prop extends Facts₀ where

variable [Facts]
-- ==== Proof.RefLine.lean ====
import proofs.«428890_j15479062135603_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A line of host operations that touches TensorCore buffers only, allocates none, and whose operations write, one
    each and in order, the buffers of `W`. -/
structure Line (l : List (HloOp τ sig (Elt F))) (W : List (Ref sig .tc)) : Prop where
  sub : l.Forall fun op => op.bufs ⊆ tcRefs τ sig
  fresh : l.Forall fun op => op.fresh = ∅
  writes : l.map (·.writes) = W.map fun y => {Proc.devRef (τ := τ) .tc y}

namespace Line

variable {l l₁ l₂ : List (HloOp τ sig (Elt F))} {W W₁ W₂ : List (Ref sig .tc)}

theorem append (h₁ : Line l₁ W₁) (h₂ : Line l₂ W₂) : Line (l₁ ++ l₂) (W₁ ++ W₂) where
  sub := List.forall_append.2 ⟨h₁.sub, h₂.sub⟩
  fresh := List.forall_append.2 ⟨h₁.fresh, h₂.fresh⟩
  writes := by rw [List.map_append, List.map_append, h₁.writes, h₂.writes]

/-- A buffer outside `W` keeps its contents through the line. -/
theorem keep (h : Line l W) (V : Valuation τ sig (Elt F)) {r : Ref sig .tc} (hr : r ∉ W) :
    after l V (Proc.devRef .tc r) = V (Proc.devRef .tc r) :=
  after_of_writes_sub l V (List.forall_iff_forall_mem.2 fun op hop => by
    have hw := List.mem_map_of_mem (f := (·.writes)) hop
    rw [h.writes] at hw
    obtain ⟨y, hy, e⟩ := List.mem_map.1 hw
    rw [← e, Finset.singleton_subset_iff, List.mem_toFinset]
    exact List.mem_map_of_mem hy) hr

end Line

end Cert.ReferenceIdeal.RefRun

end
-- ==== Proof.RefOps1.lean ====
import proofs.«428890_j15479062135603_3_alg».proof.Proof.RefLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ StableHlo.nullary main_c (constantI S_ 32 0#32),
    StableHlo.unary main_c main_v0 (broadcastInDim S20000 ![] bcast_S_S20000),
    StableHlo.binary main_arg0 main_v0 main_v1 (cmpi .slt),
    StableHlo.nullary main_c_0 (constantI S_ 32 200#32),
    StableHlo.unary main_c_0 main_v2 (broadcastInDim S20000 ![] bcast_S_S20000),
    StableHlo.binary main_arg0 main_v2 main_v3 (addi),
    StableHlo.ternary main_v1 main_v3 main_arg0 main_v4 (select),
    StableHlo.unary main_v4 main_v5 (broadcastInDim S20000x1 ![0] bcast_S20000_S20000x1_0),
    StableHlo.binary main_arg4 main_v5 main_v6 ((fun x i => Host.gather gather_S200x128_S20000x1_S20000x128_1_0_n_n_0_1_1128 x i)) ]

def writtenA : List (Ref sig .tc) :=
  [main_c, main_v0, main_v1, main_c_0, main_v2, main_v3, main_v4, main_v5,
   main_v6]

theorem lineA : Line (F := F) opsA writtenA where
  sub := by
    simp only [List.Forall, nullary_bufs_sub, unary_bufs_sub, binary_bufs_sub, ternary_bufs_sub, reshape_bufs_sub, and_self]
  fresh := by simp only [List.Forall]; repeat' constructor
  writes := rfl

abbrev opsB1 : List (HloOp τ sig (Elt F)) :=
  ( StableHlo.binary main_v6 main_arg5 main_v7 ((fun l r => Host.dotGeneral dot_S20000x128_S128x16_S20000x16_1_0_0_1_n_n none l r))
  :: StableHlo.unary main_arg6 main_v8 (broadcastInDim S1x16 ![1] bcast_S16_S1x16_1)
  :: StableHlo.unary main_v8 main_v9 (broadcastInDim S20000x16 ![0, 1] bcast_S1x16_S20000x16_0_1)
  :: StableHlo.binary main_v7 main_v9 main_v10 (addf)
  :: StableHlo.binary main_v10 main_arg7 main_v11 ((fun l r => Host.dotGeneral dot_S20000x16_S16x8_S20000x8_1_0_0_1_n_n none l r))
  :: StableHlo.unary main_arg8 main_v12 (broadcastInDim S1x8 ![1] bcast_S8_S1x8_1)
  :: StableHlo.unary main_v12 main_v13 (broadcastInDim S20000x8 ![0, 1] bcast_S1x8_S20000x8_0_1)
  :: StableHlo.binary main_v11 main_v13 main_v14 (addf)
  :: StableHlo.binary main_v10 main_arg9 main_v15 ((fun l r => Host.dotGeneral dot_S20000x16_S16x8_S20000x8_1_0_0_1_n_n none l r))
  :: StableHlo.unary main_arg10 main_v16 (broadcastInDim S1x8 ![1] bcast_S8_S1x8_1)
  :: StableHlo.unary main_v16 main_v17 (broadcastInDim S20000x8 ![0, 1] bcast_S1x8_S20000x8_0_1)
  :: StableHlo.binary main_v15 main_v17 main_v18 (addf)
  :: StableHlo.nullary main_c_1 (constantI S_ 32 0#32)
  :: StableHlo.unary main_c_1 main_v19 (broadcastInDim S640000 ![] bcast_S_S640000)
  :: StableHlo.binary main_arg1 main_v19 main_v20 (cmpi .slt)
  :: StableHlo.nullary main_c_2 (constantI S_ 32 20000#32)
  :: StableHlo.unary main_c_2 main_v21 (broadcastInDim S640000 ![] bcast_S_S640000)
  :: StableHlo.binary main_arg1 main_v21 main_v22 (addi)
  :: StableHlo.ternary main_v20 main_v22 main_arg1 main_v23 (select)
  :: StableHlo.unary main_v23 main_v24 (broadcastInDim S640000x1 ![0] bcast_S640000_S640000x1_0)
  :: StableHlo.binary main_v14 main_v24 main_v25 ((fun x i => Host.gather gather_S20000x8_S640000x1_S640000x8_1_0_n_n_0_1_18 x i))
  :: StableHlo.nullary main_c_3 (constantI S_ 32 0#32)
  :: StableHlo.unary main_c_3 main_v26 (broadcastInDim S640000 ![] bcast_S_S640000)
  :: StableHlo.binary main_arg2 main_v26 main_v27 (cmpi .slt)
  :: StableHlo.nullary main_c_4 (constantI S_ 32 20000#32)
  :: StableHlo.unary main_c_4 main_v28 (broadcastInDim S640000 ![] bcast_S_S640000)
  :: StableHlo.binary main_arg2 main_v28 main_v29 (addi)
  :: StableHlo.ternary main_v27 main_v29 main_arg2 main_v30 (select)
  :: StableHlo.unary main_v30 main_v31 (broadcastInDim S640000x1 ![0] bcast_S640000_S640000x1_0)
  :: StableHlo.binary main_v18 main_v31 main_v32 ((fun x i => Host.gather gather_S20000x8_S640000x1_S640000x8_1_0_n_n_0_1_18 x i))
  :: StableHlo.binary main_v25 main_v32 main_v33 (addf)
  :: StableHlo.nullary main_cst (constant S_ .f32 0x40C00000#32)
  :: StableHlo.unary main_cst main_v34 (broadcastInDim S640000x8 ![] bcast_S_S640000x8)
  :: StableHlo.binary main_v34 main_v33 main_v35 (mulf)
  :: StableHlo.unary main_v35 main_v36 (Host.negf)
  :: StableHlo.unary main_v36 main_v37 (Host.exp)
  :: StableHlo.nullary main_cst_5 (constant S_ .f32 0x3F800000#32)
  :: StableHlo.unary main_cst_5 main_v38 (broadcastInDim S640000x8 ![] bcast_S_S640000x8)
  :: StableHlo.binary main_v38 main_v37 main_v39 (addf)
  :: StableHlo.nullary main_cst_6 (constant S_ .f32 0x3F800000#32)
  :: StableHlo.unary main_cst_6 main_v40 (broadcastInDim S640000x8 ![] bcast_S_S640000x8)
  :: StableHlo.binary main_v40 main_v39 main_v41 (Host.divf)
  :: StableHlo.nullary main_cst_7 (constant S_ .f32 0x3F800000#32)
  :: StableHlo.unary main_cst_7 main_v42 (broadcastInDim S640000 ![] bcast_S_S640000)
  :: StableHlo.nullary main_cst_8 (constant S_ .f32 0x00000000#32)
  :: StableHlo.unary main_cst_8 main_v43 (broadcastInDim S20000 ![] bcast_S_S20000)
  :: StableHlo.unary main_arg2 main_v44 (broadcastInDim S640000x1 ![0] bcast_S640000_S640000x1_0)
  :: StableHlo.ternary main_v43 main_v44 main_v42 main_v45 ((fun x i u => Host.scatterAdd scatter_S20000_S640000x1_S640000_n_0_0_1 x i u))
  :: StableHlo.nullary main_cst_9 (constant S_ .f32 0x3F800000#32)
  :: StableHlo.TRef.unary (.of main_cst_9 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S20000, .f32⟩) (broadcastInDim S20000 ![] bcast_S_S20000)
  :: StableHlo.TRef.binary (.of main_call0_v1 : StableHlo.TRef sig ⟨S20000, .f32⟩) (.of main_v45 : StableHlo.TRef sig ⟨S20000, .f32⟩) (.of main_v46 : StableHlo.TRef sig ⟨S20000, .f32⟩) maximumf
  :: StableHlo.nullary main_cst_10 (constant S_ .f32 0xBF000000#32)
  :: StableHlo.unary main_cst_10 main_v47 (broadcastInDim S20000 ![] bcast_S_S20000)
  :: StableHlo.binary main_v46 main_v47 main_v48 (Host.powf)
  :: StableHlo.unary main_v48 main_v49 (broadcastInDim S20000x1 ![0] bcast_S20000_S20000x1_0)
  :: StableHlo.unary main_v49 main_v50 (broadcastInDim S20000x16 ![0, 1] bcast_S20000x1_S20000x16_0_1)
  :: StableHlo.binary main_v10 main_v50 main_v51 (mulf)
  :: StableHlo.nullary main_c_11 (constantI S_ 32 0#32)
  :: StableHlo.unary main_c_11 main_v52 (broadcastInDim S640000 ![] bcast_S_S640000)
  :: StableHlo.binary main_arg1 main_v52 main_v53 (cmpi .slt)
  :: StableHlo.nullary main_c_12 (constantI S_ 32 20000#32)
  :: StableHlo.unary main_c_12 main_v54 (broadcastInDim S640000 ![] bcast_S_S640000)
  :: StableHlo.binary main_arg1 main_v54 main_v55 (addi)
  :: StableHlo.ternary main_v53 main_v55 main_arg1 main_v56 (select)
  :: StableHlo.unary main_v56 main_v57 (broadcastInDim S640000x1 ![0] bcast_S640000_S640000x1_0)
  :: StableHlo.binary main_v51 main_v57 main_v58 ((fun x i => Host.gather gather_S20000x16_S640000x1_S640000x16_1_0_n_n_0_1_116 x i))
  :: [] )

def writtenB1 : List (Ref sig .tc) :=
  [main_v7, main_v8, main_v9, main_v10, main_v11, main_v12, main_v13, main_v14,
   main_v15, main_v16, main_v17, main_v18, main_c_1, main_v19, main_v20, main_c_2,
   main_v21, main_v22, main_v23, main_v24, main_v25, main_c_3, main_v26, main_v27,
   main_c_4, main_v28, main_v29, main_v30, main_v31, main_v32, main_v33, main_cst,
   main_v34, main_v35, main_v36, main_v37, main_cst_5, main_v38, main_v39, main_cst_6,
   main_v40, main_v41, main_cst_7, main_v42, main_cst_8, main_v43, main_v44, main_v45,
   main_cst_9, main_call0_v0, main_call0_v1, main_v46, main_cst_10, main_v47, main_v48, main_v49,
   main_v50, main_v51, main_c_11, main_v52, main_v53, main_c_12, main_v54, main_v55,
   main_v56, main_v57, main_v58]

theorem lineB1 : Line (F := F) opsB1 writtenB1 where
  sub := by
    simp only [List.Forall, nullary_bufs_sub, unary_bufs_sub, binary_bufs_sub, ternary_bufs_sub, reshape_bufs_sub, and_self]
  fresh := by simp only [List.Forall]; repeat' constructor
  writes := rfl

abbrev opsC1 : List (HloOp τ sig (Elt F)) :=
  [ StableHlo.unary main_v58 main_v59 (broadcastInDim S640000x1x16 ![0, 2] bcast_S640000x16_S640000x1x16_0_2),
    StableHlo.unary main_v41 main_v60 (broadcastInDim S640000x8x1 ![0, 1] bcast_S640000x8_S640000x8x1_0_1),
    StableHlo.unary main_v59 main_v61 (broadcastInDim S640000x8x16 ![0, 1, 2] bcast_S640000x1x16_S640000x8x16_0_1_2),
    StableHlo.unary main_v60 main_v62 (broadcastInDim S640000x8x16 ![0, 1, 2] bcast_S640000x8x1_S640000x8x16_0_1_2),
    StableHlo.binary main_v61 main_v62 main_v63 (mulf),
    StableHlo.nullary main_cst_13 (constant S_ .f32 0x00000000#32),
    StableHlo.unary main_cst_13 main_v64 (broadcastInDim S20000x8x16 ![] bcast_S_S20000x8x16),
    StableHlo.unary main_arg2 main_v65 (broadcastInDim S640000x1 ![0] bcast_S640000_S640000x1_0),
    StableHlo.ternary main_v64 main_v65 main_v63 main_v66 ((fun x i u => Host.scatterAdd scatter_S20000x8x16_S640000x1_S640000x8x16_12_0_0_1 x i u)),
    StableHlo.reshape main_v66 main_v67 rfl shapeCasts_S20000x8x16_S20000x128 ]

def writtenC1 : List (Ref sig .tc) :=
  [main_v59, main_v60, main_v61, main_v62, main_v63, main_cst_13, main_v64, main_v65,
   main_v66, main_v67]

theorem lineC1 : Line (F := F) opsC1 writtenC1 where
  sub := by
    simp only [List.Forall, nullary_bufs_sub, unary_bufs_sub, binary_bufs_sub, ternary_bufs_sub, reshape_bufs_sub, and_self]
  fresh := by simp only [List.Forall]; repeat' constructor
  writes := rfl

abbrev opsD1 : List (HloOp τ sig (Elt F)) :=
  ( StableHlo.unary main_arg3 main_v68 (broadcastInDim S20000x128 ![0, 1] bcast_S20000x1_S20000x128_0_1)
  :: StableHlo.binary main_v67 main_v68 main_v69 (mulf)
  :: StableHlo.nullary main_cst_14 (constant S_ .f32 0x00000000#32)
  :: StableHlo.binary main_v69 main_cst_14 main_v70 ((fun x v => Host.reduceAdd x v reducesTo_S20000x128_S128_d0 h_S_))
  :: StableHlo.nullary main_cst_15 (constant S_ .f32 0x469C4000#32)
  :: StableHlo.unary main_cst_15 main_v71 (broadcastInDim S128 ![] bcast_S_S128)
  :: StableHlo.binary main_v70 main_v71 main_v72 (Host.divf)
  :: StableHlo.nullary main_c_16 (constantI S_ 32 0#32)
  :: StableHlo.TRef.nullary (.of main_call1_cst : StableHlo.TRef sig ⟨S_, .f32⟩) (constant S_ .f32 0x00000000#32)
  :: StableHlo.TRef.binary (.of main_v69 : StableHlo.TRef sig ⟨S20000x128, .f32⟩) (.of main_call1_cst : StableHlo.TRef sig ⟨S_, .f32⟩) (.of main_call1_v0 : StableHlo.TRef sig ⟨S128, .f32⟩) (fun x v => Host.reduceAdd x v reducesTo_S20000x128_S128_d0 h_S_)
  :: StableHlo.TRef.unary (.of main_call1_v0 : StableHlo.TRef sig ⟨S128, .f32⟩) (.of main_call1_v1 : StableHlo.TRef sig ⟨S1x128, .f32⟩) (broadcastInDim S1x128 ![1] bcast_S128_S1x128_1)
  :: StableHlo.TRef.nullary (.of main_call1_cst_0 : StableHlo.TRef sig ⟨S_, .f32⟩) (constant S_ .f32 0x469C4000#32)
  :: StableHlo.TRef.unary (.of main_call1_cst_0 : StableHlo.TRef sig ⟨S_, .f32⟩) (.of main_call1_v2 : StableHlo.TRef sig ⟨S1x128, .f32⟩) (broadcastInDim S1x128 ![] bcast_S_S1x128)
  :: StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf
  :: StableHlo.TRef.unary (.of main_call1_v3 : StableHlo.TRef sig ⟨S1x128, .f32⟩) (.of main_call1_v4 : StableHlo.TRef sig ⟨S20000x128, .f32⟩) (broadcastInDim S20000x128 ![0, 1] bcast_S1x128_S20000x128_0_1)
  :: StableHlo.TRef.binary (.of main_v69 : StableHlo.TRef sig ⟨S20000x128, .f32⟩) (.of main_call1_v4 : StableHlo.TRef sig ⟨S20000x128, .f32⟩) (.of main_call1_v5 : StableHlo.TRef sig ⟨S20000x128, .f32⟩) subf
  :: StableHlo.TRef.binary (.of main_call1_v5 : StableHlo.TRef sig ⟨S20000x128, .f32⟩) (.of main_call1_v5 : StableHlo.TRef sig ⟨S20000x128, .f32⟩) (.of main_call1_v6 : StableHlo.TRef sig ⟨S20000x128, .f32⟩) mulf
  :: StableHlo.TRef.unary (.of main_c_16 : StableHlo.TRef sig ⟨S_, .i32⟩) (.of main_call1_v7 : StableHlo.TRef sig ⟨S_, .f32⟩) (sitofp .f32)
  :: StableHlo.TRef.nullary (.of main_call1_cst_1 : StableHlo.TRef sig ⟨S_, .f32⟩) (constant S_ .f32 0x469C4000#32)
  :: StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf
  :: StableHlo.TRef.nullary (.of main_call1_cst_2 : StableHlo.TRef sig ⟨S_, .f32⟩) (constant S_ .f32 0x00000000#32)
  :: StableHlo.TRef.binary (.of main_call1_v6 : StableHlo.TRef sig ⟨S20000x128, .f32⟩) (.of main_call1_cst_2 : StableHlo.TRef sig ⟨S_, .f32⟩) (.of main_call1_v9 : StableHlo.TRef sig ⟨S128, .f32⟩) (fun x v => Host.reduceAdd x v reducesTo_S20000x128_S128_d0 h_S_)
  :: StableHlo.TRef.unary (.of main_call1_v8 : StableHlo.TRef sig ⟨S_, .f32⟩) (.of main_call1_v10 : StableHlo.TRef sig ⟨S128, .f32⟩) (broadcastInDim S128 ![] bcast_S_S128)
  :: StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf
  :: StableHlo.TRef.nullary (.of main_call1_cst_3 : StableHlo.TRef sig ⟨S_, .f32⟩) (constant S_ .f32 0x00000000#32)
  :: StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt)
  :: StableHlo.TRef.nullary (.of main_call1_cst_4 : StableHlo.TRef sig ⟨S_, .f32⟩) (constant S_ .f32 0x7FC00000#32)
  :: StableHlo.TRef.unary (.of main_call1_cst_4 : StableHlo.TRef sig ⟨S_, .f32⟩) (.of main_call1_call0_v0 : StableHlo.TRef sig ⟨S_, .f32⟩) id
  :: StableHlo.TRef.unary (.of main_call1_call0_v0 : StableHlo.TRef sig ⟨S_, .f32⟩) (.of main_call1_call0_v1 : StableHlo.TRef sig ⟨S128, .f32⟩) (broadcastInDim S128 ![] bcast_S_S128)
  :: StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v73 : StableHlo.TRef sig ⟨S128, .f32⟩) (fun p a b => select (broadcastInDim S128 ![] bcast_S_S128 p) a b)
  :: StableHlo.unary main_v72 main_v74 (broadcastInDim S1x128 ![1] bcast_S128_S1x128_1)
  :: StableHlo.unary main_v74 main_v75 (broadcastInDim S20000x128 ![0, 1] bcast_S1x128_S20000x128_0_1)
  :: StableHlo.binary main_v69 main_v75 main_v76 (subf)
  :: StableHlo.nullary main_cst_17 (constant S_ .f32 0x3727C5AC#32)
  :: StableHlo.unary main_cst_17 main_v77 (broadcastInDim S128 ![] bcast_S_S128)
  :: StableHlo.binary main_v73 main_v77 main_v78 (addf)
  :: StableHlo.unary main_v78 main_v79 (Host.rsqrt)
  :: StableHlo.unary main_v79 main_v80 (broadcastInDim S1x128 ![1] bcast_S128_S1x128_1)
  :: StableHlo.unary main_v80 main_v81 (broadcastInDim S20000x128 ![0, 1] bcast_S1x128_S20000x128_0_1)
  :: StableHlo.binary main_v76 main_v81 main_v82 (mulf)
  :: StableHlo.unary main_arg11 main_v83 (broadcastInDim S1x128 ![1] bcast_S128_S1x128_1)
  :: StableHlo.unary main_v83 main_v84 (broadcastInDim S20000x128 ![0, 1] bcast_S1x128_S20000x128_0_1)
  :: StableHlo.binary main_v82 main_v84 main_v85 (mulf)
  :: StableHlo.unary main_arg12 main_v86 (broadcastInDim S1x128 ![1] bcast_S128_S1x128_1)
  :: StableHlo.unary main_v86 main_v87 (broadcastInDim S20000x128 ![0, 1] bcast_S1x128_S20000x128_0_1)
  :: StableHlo.binary main_v85 main_v87 main_v88 (addf)
  :: StableHlo.nullary main_cst_18 (constant S_ .f32 0x00000000#32)
  :: StableHlo.unary main_cst_18 main_v89 (broadcastInDim S20000x128 ![] bcast_S_S20000x128)
  :: StableHlo.binary main_v88 main_v89 main_v90 (cmpf .ogt)
  :: StableHlo.nullary main_cst_19 (constant S_ .f32 0x3E4CCCCD#32)
  :: StableHlo.unary main_cst_19 main_v91 (broadcastInDim S20000x128 ![] bcast_S_S20000x128)
  :: StableHlo.binary main_v91 main_v88 main_v92 (mulf)
  :: StableHlo.TRef.ternary (.of main_v90 : StableHlo.TRef sig ⟨S20000x128, .i1⟩) (.of main_v88 : StableHlo.TRef sig ⟨S20000x128, .f32⟩) (.of main_v92 : StableHlo.TRef sig ⟨S20000x128, .f32⟩) (.of main_v93 : StableHlo.TRef sig ⟨S20000x128, .f32⟩) select
  :: [] )

def writtenD1 : List (Ref sig .tc) :=
  [main_v68, main_v69, main_cst_14, main_v70, main_cst_15, main_v71, main_v72, main_c_16,
   main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_cst_3, main_call1_v12, main_call1_cst_4, main_call1_call0_v0, main_call1_call0_v1, main_v73, main_v74, main_v75,
   main_v76, main_cst_17, main_v77, main_v78, main_v79, main_v80, main_v81, main_v82,
   main_v83, main_v84, main_v85, main_v86, main_v87, main_v88, main_cst_18, main_v89,
   main_v90, main_cst_19, main_v91, main_v92, main_v93]

theorem lineD1 : Line (F := F) opsD1 writtenD1 where
  sub := by
    simp only [List.Forall, nullary_bufs_sub, unary_bufs_sub, binary_bufs_sub, ternary_bufs_sub, reshape_bufs_sub, and_self]
  fresh := by simp only [List.Forall]; repeat' constructor
  writes := rfl

end Cert.ReferenceIdeal.RefRun

end
-- ==== Proof.RefOps2.lean ====
import proofs.«428890_j15479062135603_3_alg».proof.Proof.RefLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsB2 : List (HloOp τ sig (Elt F)) :=
  ( StableHlo.binary main_v93 main_arg13 main_v94 ((fun l r => Host.dotGeneral dot_S20000x128_S128x32_S20000x32_1_0_0_1_n_n none l r))
  :: StableHlo.unary main_arg14 main_v95 (broadcastInDim S1x32 ![1] bcast_S32_S1x32_1)
  :: StableHlo.unary main_v95 main_v96 (broadcastInDim S20000x32 ![0, 1] bcast_S1x32_S20000x32_0_1)
  :: StableHlo.binary main_v94 main_v96 main_v97 (addf)
  :: StableHlo.binary main_v97 main_arg15 main_v98 ((fun l r => Host.dotGeneral dot_S20000x32_S32x4_S20000x4_1_0_0_1_n_n none l r))
  :: StableHlo.unary main_arg16 main_v99 (broadcastInDim S1x4 ![1] bcast_S4_S1x4_1)
  :: StableHlo.unary main_v99 main_v100 (broadcastInDim S20000x4 ![0, 1] bcast_S1x4_S20000x4_0_1)
  :: StableHlo.binary main_v98 main_v100 main_v101 (addf)
  :: StableHlo.binary main_v97 main_arg17 main_v102 ((fun l r => Host.dotGeneral dot_S20000x32_S32x4_S20000x4_1_0_0_1_n_n none l r))
  :: StableHlo.unary main_arg18 main_v103 (broadcastInDim S1x4 ![1] bcast_S4_S1x4_1)
  :: StableHlo.unary main_v103 main_v104 (broadcastInDim S20000x4 ![0, 1] bcast_S1x4_S20000x4_0_1)
  :: StableHlo.binary main_v102 main_v104 main_v105 (addf)
  :: StableHlo.nullary main_c_20 (constantI S_ 32 0#32)
  :: StableHlo.unary main_c_20 main_v106 (broadcastInDim S640000 ![] bcast_S_S640000)
  :: StableHlo.binary main_arg1 main_v106 main_v107 (cmpi .slt)
  :: StableHlo.nullary main_c_21 (constantI S_ 32 20000#32)
  :: StableHlo.unary main_c_21 main_v108 (broadcastInDim S640000 ![] bcast_S_S640000)
  :: StableHlo.binary main_arg1 main_v108 main_v109 (addi)
  :: StableHlo.ternary main_v107 main_v109 main_arg1 main_v110 (select)
  :: StableHlo.unary main_v110 main_v111 (broadcastInDim S640000x1 ![0] bcast_S640000_S640000x1_0)
  :: StableHlo.binary main_v101 main_v111 main_v112 ((fun x i => Host.gather gather_S20000x4_S640000x1_S640000x4_1_0_n_n_0_1_14 x i))
  :: StableHlo.nullary main_c_22 (constantI S_ 32 0#32)
  :: StableHlo.unary main_c_22 main_v113 (broadcastInDim S640000 ![] bcast_S_S640000)
  :: StableHlo.binary main_arg2 main_v113 main_v114 (cmpi .slt)
  :: StableHlo.nullary main_c_23 (constantI S_ 32 20000#32)
  :: StableHlo.unary main_c_23 main_v115 (broadcastInDim S640000 ![] bcast_S_S640000)
  :: StableHlo.binary main_arg2 main_v115 main_v116 (addi)
  :: StableHlo.ternary main_v114 main_v116 main_arg2 main_v117 (select)
  :: StableHlo.unary main_v117 main_v118 (broadcastInDim S640000x1 ![0] bcast_S640000_S640000x1_0)
  :: StableHlo.binary main_v105 main_v118 main_v119 ((fun x i => Host.gather gather_S20000x4_S640000x1_S640000x4_1_0_n_n_0_1_14 x i))
  :: StableHlo.binary main_v112 main_v119 main_v120 (addf)
  :: StableHlo.nullary main_cst_24 (constant S_ .f32 0x40C00000#32)
  :: StableHlo.unary main_cst_24 main_v121 (broadcastInDim S640000x4 ![] bcast_S_S640000x4)
  :: StableHlo.binary main_v121 main_v120 main_v122 (mulf)
  :: StableHlo.unary main_v122 main_v123 (Host.negf)
  :: StableHlo.unary main_v123 main_v124 (Host.exp)
  :: StableHlo.nullary main_cst_25 (constant S_ .f32 0x3F800000#32)
  :: StableHlo.unary main_cst_25 main_v125 (broadcastInDim S640000x4 ![] bcast_S_S640000x4)
  :: StableHlo.binary main_v125 main_v124 main_v126 (addf)
  :: StableHlo.nullary main_cst_26 (constant S_ .f32 0x3F800000#32)
  :: StableHlo.unary main_cst_26 main_v127 (broadcastInDim S640000x4 ![] bcast_S_S640000x4)
  :: StableHlo.binary main_v127 main_v126 main_v128 (Host.divf)
  :: StableHlo.nullary main_cst_27 (constant S_ .f32 0x3F800000#32)
  :: StableHlo.unary main_cst_27 main_v129 (broadcastInDim S640000 ![] bcast_S_S640000)
  :: StableHlo.nullary main_cst_28 (constant S_ .f32 0x00000000#32)
  :: StableHlo.unary main_cst_28 main_v130 (broadcastInDim S20000 ![] bcast_S_S20000)
  :: StableHlo.unary main_arg2 main_v131 (broadcastInDim S640000x1 ![0] bcast_S640000_S640000x1_0)
  :: StableHlo.ternary main_v130 main_v131 main_v129 main_v132 ((fun x i u => Host.scatterAdd scatter_S20000_S640000x1_S640000_n_0_0_1 x i u))
  :: StableHlo.nullary main_cst_29 (constant S_ .f32 0x3F800000#32)
  :: StableHlo.TRef.unary (.of main_cst_29 : StableHlo.TRef sig ⟨S_, .f32⟩) (.of main_call3_v0 : StableHlo.TRef sig ⟨S_, .f32⟩) id
  :: StableHlo.TRef.unary (.of main_call3_v0 : StableHlo.TRef sig ⟨S_, .f32⟩) (.of main_call3_v1 : StableHlo.TRef sig ⟨S20000, .f32⟩) (broadcastInDim S20000 ![] bcast_S_S20000)
  :: StableHlo.TRef.binary (.of main_call3_v1 : StableHlo.TRef sig ⟨S20000, .f32⟩) (.of main_v132 : StableHlo.TRef sig ⟨S20000, .f32⟩) (.of main_v133 : StableHlo.TRef sig ⟨S20000, .f32⟩) maximumf
  :: StableHlo.nullary main_cst_30 (constant S_ .f32 0xBF000000#32)
  :: StableHlo.unary main_cst_30 main_v134 (broadcastInDim S20000 ![] bcast_S_S20000)
  :: StableHlo.binary main_v133 main_v134 main_v135 (Host.powf)
  :: StableHlo.unary main_v135 main_v136 (broadcastInDim S20000x1 ![0] bcast_S20000_S20000x1_0)
  :: StableHlo.unary main_v136 main_v137 (broadcastInDim S20000x32 ![0, 1] bcast_S20000x1_S20000x32_0_1)
  :: StableHlo.binary main_v97 main_v137 main_v138 (mulf)
  :: StableHlo.nullary main_c_31 (constantI S_ 32 0#32)
  :: StableHlo.unary main_c_31 main_v139 (broadcastInDim S640000 ![] bcast_S_S640000)
  :: StableHlo.binary main_arg1 main_v139 main_v140 (cmpi .slt)
  :: StableHlo.nullary main_c_32 (constantI S_ 32 20000#32)
  :: StableHlo.unary main_c_32 main_v141 (broadcastInDim S640000 ![] bcast_S_S640000)
  :: StableHlo.binary main_arg1 main_v141 main_v142 (addi)
  :: StableHlo.ternary main_v140 main_v142 main_arg1 main_v143 (select)
  :: StableHlo.unary main_v143 main_v144 (broadcastInDim S640000x1 ![0] bcast_S640000_S640000x1_0)
  :: StableHlo.binary main_v138 main_v144 main_v145 ((fun x i => Host.gather gather_S20000x32_S640000x1_S640000x32_1_0_n_n_0_1_132 x i))
  :: [] )

def writtenB2 : List (Ref sig .tc) :=
  [main_v94, main_v95, main_v96, main_v97, main_v98, main_v99, main_v100, main_v101,
   main_v102, main_v103, main_v104, main_v105, main_c_20, main_v106, main_v107, main_c_21,
   main_v108, main_v109, main_v110, main_v111, main_v112, main_c_22, main_v113, main_v114,
   main_c_23, main_v115, main_v116, main_v117, main_v118, main_v119, main_v120, main_cst_24,
   main_v121, main_v122, main_v123, main_v124, main_cst_25, main_v125, main_v126, main_cst_26,
   main_v127, main_v128, main_cst_27, main_v129, main_cst_28, main_v130, main_v131, main_v132,
   main_cst_29, main_call3_v0, main_call3_v1, main_v133, main_cst_30, main_v134, main_v135, main_v136,
   main_v137, main_v138, main_c_31, main_v139, main_v140, main_c_32, main_v141, main_v142,
   main_v143, main_v144, main_v145]

theorem lineB2 : Line (F := F) opsB2 writtenB2 where
  sub := by
    simp only [List.Forall, nullary_bufs_sub, unary_bufs_sub, binary_bufs_sub, ternary_bufs_sub, reshape_bufs_sub, and_self]
  fresh := by simp only [List.Forall]; repeat' constructor
  writes := rfl

abbrev opsC2 : List (HloOp τ sig (Elt F)) :=
  [ StableHlo.unary main_v145 main_v146 (broadcastInDim S640000x1x32 ![0, 2] bcast_S640000x32_S640000x1x32_0_2),
    StableHlo.unary main_v128 main_v147 (broadcastInDim S640000x4x1 ![0, 1] bcast_S640000x4_S640000x4x1_0_1),
    StableHlo.unary main_v146 main_v148 (broadcastInDim S640000x4x32 ![0, 1, 2] bcast_S640000x1x32_S640000x4x32_0_1_2),
    StableHlo.unary main_v147 main_v149 (broadcastInDim S640000x4x32 ![0, 1, 2] bcast_S640000x4x1_S640000x4x32_0_1_2),
    StableHlo.binary main_v148 main_v149 main_v150 (mulf),
    StableHlo.nullary main_cst_33 (constant S_ .f32 0x00000000#32),
    StableHlo.unary main_cst_33 main_v151 (broadcastInDim S20000x4x32 ![] bcast_S_S20000x4x32),
    StableHlo.unary main_arg2 main_v152 (broadcastInDim S640000x1 ![0] bcast_S640000_S640000x1_0),
    StableHlo.ternary main_v151 main_v152 main_v150 main_v153 ((fun x i u => Host.scatterAdd scatter_S20000x4x32_S640000x1_S640000x4x32_12_0_0_1 x i u)),
    StableHlo.reshape main_v153 main_v154 rfl shapeCasts_S20000x4x32_S20000x128 ]

def writtenC2 : List (Ref sig .tc) :=
  [main_v146, main_v147, main_v148, main_v149, main_v150, main_cst_33, main_v151, main_v152,
   main_v153, main_v154]

theorem lineC2 : Line (F := F) opsC2 writtenC2 where
  sub := by
    simp only [List.Forall, nullary_bufs_sub, unary_bufs_sub, binary_bufs_sub, ternary_bufs_sub, reshape_bufs_sub, and_self]
  fresh := by simp only [List.Forall]; repeat' constructor
  writes := rfl

abbrev opsD2 : List (HloOp τ sig (Elt F)) :=
  ( StableHlo.unary main_arg3 main_v155 (broadcastInDim S20000x128 ![0, 1] bcast_S20000x1_S20000x128_0_1)
  :: StableHlo.binary main_v154 main_v155 main_v156 (mulf)
  :: StableHlo.nullary main_cst_34 (constant S_ .f32 0x00000000#32)
  :: StableHlo.binary main_v156 main_cst_34 main_v157 ((fun x v => Host.reduceAdd x v reducesTo_S20000x128_S128_d0 h_S_))
  :: StableHlo.nullary main_cst_35 (constant S_ .f32 0x469C4000#32)
  :: StableHlo.unary main_cst_35 main_v158 (broadcastInDim S128 ![] bcast_S_S128)
  :: StableHlo.binary main_v157 main_v158 main_v159 (Host.divf)
  :: StableHlo.nullary main_c_36 (constantI S_ 32 0#32)
  :: StableHlo.TRef.nullary (.of main_call4_cst : StableHlo.TRef sig ⟨S_, .f32⟩) (constant S_ .f32 0x00000000#32)
  :: StableHlo.TRef.binary (.of main_v156 : StableHlo.TRef sig ⟨S20000x128, .f32⟩) (.of main_call4_cst : StableHlo.TRef sig ⟨S_, .f32⟩) (.of main_call4_v0 : StableHlo.TRef sig ⟨S128, .f32⟩) (fun x v => Host.reduceAdd x v reducesTo_S20000x128_S128_d0 h_S_)
  :: StableHlo.TRef.unary (.of main_call4_v0 : StableHlo.TRef sig ⟨S128, .f32⟩) (.of main_call4_v1 : StableHlo.TRef sig ⟨S1x128, .f32⟩) (broadcastInDim S1x128 ![1] bcast_S128_S1x128_1)
  :: StableHlo.TRef.nullary (.of main_call4_cst_0 : StableHlo.TRef sig ⟨S_, .f32⟩) (constant S_ .f32 0x469C4000#32)
  :: StableHlo.TRef.unary (.of main_call4_cst_0 : StableHlo.TRef sig ⟨S_, .f32⟩) (.of main_call4_v2 : StableHlo.TRef sig ⟨S1x128, .f32⟩) (broadcastInDim S1x128 ![] bcast_S_S1x128)
  :: StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf
  :: StableHlo.TRef.unary (.of main_call4_v3 : StableHlo.TRef sig ⟨S1x128, .f32⟩) (.of main_call4_v4 : StableHlo.TRef sig ⟨S20000x128, .f32⟩) (broadcastInDim S20000x128 ![0, 1] bcast_S1x128_S20000x128_0_1)
  :: StableHlo.TRef.binary (.of main_v156 : StableHlo.TRef sig ⟨S20000x128, .f32⟩) (.of main_call4_v4 : StableHlo.TRef sig ⟨S20000x128, .f32⟩) (.of main_call4_v5 : StableHlo.TRef sig ⟨S20000x128, .f32⟩) subf
  :: StableHlo.TRef.binary (.of main_call4_v5 : StableHlo.TRef sig ⟨S20000x128, .f32⟩) (.of main_call4_v5 : StableHlo.TRef sig ⟨S20000x128, .f32⟩) (.of main_call4_v6 : StableHlo.TRef sig ⟨S20000x128, .f32⟩) mulf
  :: StableHlo.TRef.unary (.of main_c_36 : StableHlo.TRef sig ⟨S_, .i32⟩) (.of main_call4_v7 : StableHlo.TRef sig ⟨S_, .f32⟩) (sitofp .f32)
  :: StableHlo.TRef.nullary (.of main_call4_cst_1 : StableHlo.TRef sig ⟨S_, .f32⟩) (constant S_ .f32 0x469C4000#32)
  :: StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf
  :: StableHlo.TRef.nullary (.of main_call4_cst_2 : StableHlo.TRef sig ⟨S_, .f32⟩) (constant S_ .f32 0x00000000#32)
  :: StableHlo.TRef.binary (.of main_call4_v6 : StableHlo.TRef sig ⟨S20000x128, .f32⟩) (.of main_call4_cst_2 : StableHlo.TRef sig ⟨S_, .f32⟩) (.of main_call4_v9 : StableHlo.TRef sig ⟨S128, .f32⟩) (fun x v => Host.reduceAdd x v reducesTo_S20000x128_S128_d0 h_S_)
  :: StableHlo.TRef.unary (.of main_call4_v8 : StableHlo.TRef sig ⟨S_, .f32⟩) (.of main_call4_v10 : StableHlo.TRef sig ⟨S128, .f32⟩) (broadcastInDim S128 ![] bcast_S_S128)
  :: StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf
  :: StableHlo.TRef.nullary (.of main_call4_cst_3 : StableHlo.TRef sig ⟨S_, .f32⟩) (constant S_ .f32 0x00000000#32)
  :: StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt)
  :: StableHlo.TRef.nullary (.of main_call4_cst_4 : StableHlo.TRef sig ⟨S_, .f32⟩) (constant S_ .f32 0x7FC00000#32)
  :: StableHlo.TRef.unary (.of main_call4_cst_4 : StableHlo.TRef sig ⟨S_, .f32⟩) (.of main_call4_call0_v0 : StableHlo.TRef sig ⟨S_, .f32⟩) id
  :: StableHlo.TRef.unary (.of main_call4_call0_v0 : StableHlo.TRef sig ⟨S_, .f32⟩) (.of main_call4_call0_v1 : StableHlo.TRef sig ⟨S128, .f32⟩) (broadcastInDim S128 ![] bcast_S_S128)
  :: StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v160 : StableHlo.TRef sig ⟨S128, .f32⟩) (fun p a b => select (broadcastInDim S128 ![] bcast_S_S128 p) a b)
  :: StableHlo.unary main_v159 main_v161 (broadcastInDim S1x128 ![1] bcast_S128_S1x128_1)
  :: StableHlo.unary main_v161 main_v162 (broadcastInDim S20000x128 ![0, 1] bcast_S1x128_S20000x128_0_1)
  :: StableHlo.binary main_v156 main_v162 main_v163 (subf)
  :: StableHlo.nullary main_cst_37 (constant S_ .f32 0x3727C5AC#32)
  :: StableHlo.unary main_cst_37 main_v164 (broadcastInDim S128 ![] bcast_S_S128)
  :: StableHlo.binary main_v160 main_v164 main_v165 (addf)
  :: StableHlo.unary main_v165 main_v166 (Host.rsqrt)
  :: StableHlo.unary main_v166 main_v167 (broadcastInDim S1x128 ![1] bcast_S128_S1x128_1)
  :: StableHlo.unary main_v167 main_v168 (broadcastInDim S20000x128 ![0, 1] bcast_S1x128_S20000x128_0_1)
  :: StableHlo.binary main_v163 main_v168 main_v169 (mulf)
  :: StableHlo.unary main_arg19 main_v170 (broadcastInDim S1x128 ![1] bcast_S128_S1x128_1)
  :: StableHlo.unary main_v170 main_v171 (broadcastInDim S20000x128 ![0, 1] bcast_S1x128_S20000x128_0_1)
  :: StableHlo.binary main_v169 main_v171 main_v172 (mulf)
  :: StableHlo.unary main_arg20 main_v173 (broadcastInDim S1x128 ![1] bcast_S128_S1x128_1)
  :: StableHlo.unary main_v173 main_v174 (broadcastInDim S20000x128 ![0, 1] bcast_S1x128_S20000x128_0_1)
  :: StableHlo.binary main_v172 main_v174 main_v175 (addf)
  :: StableHlo.nullary main_cst_38 (constant S_ .f32 0x00000000#32)
  :: StableHlo.unary main_cst_38 main_v176 (broadcastInDim S20000x128 ![] bcast_S_S20000x128)
  :: StableHlo.binary main_v175 main_v176 main_v177 (cmpf .ogt)
  :: StableHlo.nullary main_cst_39 (constant S_ .f32 0x3E4CCCCD#32)
  :: StableHlo.unary main_cst_39 main_v178 (broadcastInDim S20000x128 ![] bcast_S_S20000x128)
  :: StableHlo.binary main_v178 main_v175 main_v179 (mulf)
  :: StableHlo.TRef.ternary (.of main_v177 : StableHlo.TRef sig ⟨S20000x128, .i1⟩) (.of main_v175 : StableHlo.TRef sig ⟨S20000x128, .f32⟩) (.of main_v179 : StableHlo.TRef sig ⟨S20000x128, .f32⟩) (.of main_v180 : StableHlo.TRef sig ⟨S20000x128, .f32⟩) select
  :: [] )

def writtenD2 : List (Ref sig .tc) :=
  [main_v155, main_v156, main_cst_34, main_v157, main_cst_35, main_v158, main_v159, main_c_36,
   main_call4_cst, main_call4_v0, main_call4_v1, main_call4_cst_0, main_call4_v2, main_call4_v3, main_call4_v4, main_call4_v5,
   main_call4_v6, main_call4_v7, main_call4_cst_1, main_call4_v8, main_call4_cst_2, main_call4_v9, main_call4_v10, main_call4_v11,
   main_call4_cst_3, main_call4_v12, main_call4_cst_4, main_call4_call0_v0, main_call4_call0_v1, main_v160, main_v161, main_v162,
   main_v163, main_cst_37, main_v164, main_v165, main_v166, main_v167, main_v168, main_v169,
   main_v170, main_v171, main_v172, main_v173, main_v174, main_v175, main_cst_38, main_v176,
   main_v177, main_cst_39, main_v178, main_v179, main_v180]

theorem lineD2 : Line (F := F) opsD2 writtenD2 where
  sub := by
    simp only [List.Forall, nullary_bufs_sub, unary_bufs_sub, binary_bufs_sub, ternary_bufs_sub, reshape_bufs_sub, and_self]
  fresh := by simp only [List.Forall]; repeat' constructor
  writes := rfl

end Cert.ReferenceIdeal.RefRun

end
-- ==== Proof.RefOps3.lean ====
import proofs.«428890_j15479062135603_3_alg».proof.Proof.RefLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsB3 : List (HloOp τ sig (Elt F)) :=
  ( StableHlo.binary main_v180 main_arg21 main_v181 ((fun l r => Host.dotGeneral dot_S20000x128_S128x32_S20000x32_1_0_0_1_n_n none l r))
  :: StableHlo.unary main_arg22 main_v182 (broadcastInDim S1x32 ![1] bcast_S32_S1x32_1)
  :: StableHlo.unary main_v182 main_v183 (broadcastInDim S20000x32 ![0, 1] bcast_S1x32_S20000x32_0_1)
  :: StableHlo.binary main_v181 main_v183 main_v184 (addf)
  :: StableHlo.binary main_v184 main_arg23 main_v185 ((fun l r => Host.dotGeneral dot_S20000x32_S32x4_S20000x4_1_0_0_1_n_n none l r))
  :: StableHlo.unary main_arg24 main_v186 (broadcastInDim S1x4 ![1] bcast_S4_S1x4_1)
  :: StableHlo.unary main_v186 main_v187 (broadcastInDim S20000x4 ![0, 1] bcast_S1x4_S20000x4_0_1)
  :: StableHlo.binary main_v185 main_v187 main_v188 (addf)
  :: StableHlo.binary main_v184 main_arg25 main_v189 ((fun l r => Host.dotGeneral dot_S20000x32_S32x4_S20000x4_1_0_0_1_n_n none l r))
  :: StableHlo.unary main_arg26 main_v190 (broadcastInDim S1x4 ![1] bcast_S4_S1x4_1)
  :: StableHlo.unary main_v190 main_v191 (broadcastInDim S20000x4 ![0, 1] bcast_S1x4_S20000x4_0_1)
  :: StableHlo.binary main_v189 main_v191 main_v192 (addf)
  :: StableHlo.nullary main_c_40 (constantI S_ 32 0#32)
  :: StableHlo.unary main_c_40 main_v193 (broadcastInDim S640000 ![] bcast_S_S640000)
  :: StableHlo.binary main_arg1 main_v193 main_v194 (cmpi .slt)
  :: StableHlo.nullary main_c_41 (constantI S_ 32 20000#32)
  :: StableHlo.unary main_c_41 main_v195 (broadcastInDim S640000 ![] bcast_S_S640000)
  :: StableHlo.binary main_arg1 main_v195 main_v196 (addi)
  :: StableHlo.ternary main_v194 main_v196 main_arg1 main_v197 (select)
  :: StableHlo.unary main_v197 main_v198 (broadcastInDim S640000x1 ![0] bcast_S640000_S640000x1_0)
  :: StableHlo.binary main_v188 main_v198 main_v199 ((fun x i => Host.gather gather_S20000x4_S640000x1_S640000x4_1_0_n_n_0_1_14 x i))
  :: StableHlo.nullary main_c_42 (constantI S_ 32 0#32)
  :: StableHlo.unary main_c_42 main_v200 (broadcastInDim S640000 ![] bcast_S_S640000)
  :: StableHlo.binary main_arg2 main_v200 main_v201 (cmpi .slt)
  :: StableHlo.nullary main_c_43 (constantI S_ 32 20000#32)
  :: StableHlo.unary main_c_43 main_v202 (broadcastInDim S640000 ![] bcast_S_S640000)
  :: StableHlo.binary main_arg2 main_v202 main_v203 (addi)
  :: StableHlo.ternary main_v201 main_v203 main_arg2 main_v204 (select)
  :: StableHlo.unary main_v204 main_v205 (broadcastInDim S640000x1 ![0] bcast_S640000_S640000x1_0)
  :: StableHlo.binary main_v192 main_v205 main_v206 ((fun x i => Host.gather gather_S20000x4_S640000x1_S640000x4_1_0_n_n_0_1_14 x i))
  :: StableHlo.binary main_v199 main_v206 main_v207 (addf)
  :: StableHlo.nullary main_cst_44 (constant S_ .f32 0x40C00000#32)
  :: StableHlo.unary main_cst_44 main_v208 (broadcastInDim S640000x4 ![] bcast_S_S640000x4)
  :: StableHlo.binary main_v208 main_v207 main_v209 (mulf)
  :: StableHlo.unary main_v209 main_v210 (Host.negf)
  :: StableHlo.unary main_v210 main_v211 (Host.exp)
  :: StableHlo.nullary main_cst_45 (constant S_ .f32 0x3F800000#32)
  :: StableHlo.unary main_cst_45 main_v212 (broadcastInDim S640000x4 ![] bcast_S_S640000x4)
  :: StableHlo.binary main_v212 main_v211 main_v213 (addf)
  :: StableHlo.nullary main_cst_46 (constant S_ .f32 0x3F800000#32)
  :: StableHlo.unary main_cst_46 main_v214 (broadcastInDim S640000x4 ![] bcast_S_S640000x4)
  :: StableHlo.binary main_v214 main_v213 main_v215 (Host.divf)
  :: StableHlo.nullary main_cst_47 (constant S_ .f32 0x3F800000#32)
  :: StableHlo.unary main_cst_47 main_v216 (broadcastInDim S640000 ![] bcast_S_S640000)
  :: StableHlo.nullary main_cst_48 (constant S_ .f32 0x00000000#32)
  :: StableHlo.unary main_cst_48 main_v217 (broadcastInDim S20000 ![] bcast_S_S20000)
  :: StableHlo.unary main_arg2 main_v218 (broadcastInDim S640000x1 ![0] bcast_S640000_S640000x1_0)
  :: StableHlo.ternary main_v217 main_v218 main_v216 main_v219 ((fun x i u => Host.scatterAdd scatter_S20000_S640000x1_S640000_n_0_0_1 x i u))
  :: StableHlo.nullary main_cst_49 (constant S_ .f32 0x3F800000#32)
  :: StableHlo.TRef.unary (.of main_cst_49 : StableHlo.TRef sig ⟨S_, .f32⟩) (.of main_call6_v0 : StableHlo.TRef sig ⟨S_, .f32⟩) id
  :: StableHlo.TRef.unary (.of main_call6_v0 : StableHlo.TRef sig ⟨S_, .f32⟩) (.of main_call6_v1 : StableHlo.TRef sig ⟨S20000, .f32⟩) (broadcastInDim S20000 ![] bcast_S_S20000)
  :: StableHlo.TRef.binary (.of main_call6_v1 : StableHlo.TRef sig ⟨S20000, .f32⟩) (.of main_v219 : StableHlo.TRef sig ⟨S20000, .f32⟩) (.of main_v220 : StableHlo.TRef sig ⟨S20000, .f32⟩) maximumf
  :: StableHlo.nullary main_cst_50 (constant S_ .f32 0xBF000000#32)
  :: StableHlo.unary main_cst_50 main_v221 (broadcastInDim S20000 ![] bcast_S_S20000)
  :: StableHlo.binary main_v220 main_v221 main_v222 (Host.powf)
  :: StableHlo.unary main_v222 main_v223 (broadcastInDim S20000x1 ![0] bcast_S20000_S20000x1_0)
  :: StableHlo.unary main_v223 main_v224 (broadcastInDim S20000x32 ![0, 1] bcast_S20000x1_S20000x32_0_1)
  :: StableHlo.binary main_v184 main_v224 main_v225 (mulf)
  :: StableHlo.nullary main_c_51 (constantI S_ 32 0#32)
  :: StableHlo.unary main_c_51 main_v226 (broadcastInDim S640000 ![] bcast_S_S640000)
  :: StableHlo.binary main_arg1 main_v226 main_v227 (cmpi .slt)
  :: StableHlo.nullary main_c_52 (constantI S_ 32 20000#32)
  :: StableHlo.unary main_c_52 main_v228 (broadcastInDim S640000 ![] bcast_S_S640000)
  :: StableHlo.binary main_arg1 main_v228 main_v229 (addi)
  :: StableHlo.ternary main_v227 main_v229 main_arg1 main_v230 (select)
  :: StableHlo.unary main_v230 main_v231 (broadcastInDim S640000x1 ![0] bcast_S640000_S640000x1_0)
  :: StableHlo.binary main_v225 main_v231 main_v232 ((fun x i => Host.gather gather_S20000x32_S640000x1_S640000x32_1_0_n_n_0_1_132 x i))
  :: [] )

def writtenB3 : List (Ref sig .tc) :=
  [main_v181, main_v182, main_v183, main_v184, main_v185, main_v186, main_v187, main_v188,
   main_v189, main_v190, main_v191, main_v192, main_c_40, main_v193, main_v194, main_c_41,
   main_v195, main_v196, main_v197, main_v198, main_v199, main_c_42, main_v200, main_v201,
   main_c_43, main_v202, main_v203, main_v204, main_v205, main_v206, main_v207, main_cst_44,
   main_v208, main_v209, main_v210, main_v211, main_cst_45, main_v212, main_v213, main_cst_46,
   main_v214, main_v215, main_cst_47, main_v216, main_cst_48, main_v217, main_v218, main_v219,
   main_cst_49, main_call6_v0, main_call6_v1, main_v220, main_cst_50, main_v221, main_v222, main_v223,
   main_v224, main_v225, main_c_51, main_v226, main_v227, main_c_52, main_v228, main_v229,
   main_v230, main_v231, main_v232]

theorem lineB3 : Line (F := F) opsB3 writtenB3 where
  sub := by
    simp only [List.Forall, nullary_bufs_sub, unary_bufs_sub, binary_bufs_sub, ternary_bufs_sub, reshape_bufs_sub, and_self]
  fresh := by simp only [List.Forall]; repeat' constructor
  writes := rfl

abbrev opsC3 : List (HloOp τ sig (Elt F)) :=
  [ StableHlo.unary main_v232 main_v233 (broadcastInDim S640000x1x32 ![0, 2] bcast_S640000x32_S640000x1x32_0_2),
    StableHlo.unary main_v215 main_v234 (broadcastInDim S640000x4x1 ![0, 1] bcast_S640000x4_S640000x4x1_0_1),
    StableHlo.unary main_v233 main_v235 (broadcastInDim S640000x4x32 ![0, 1, 2] bcast_S640000x1x32_S640000x4x32_0_1_2),
    StableHlo.unary main_v234 main_v236 (broadcastInDim S640000x4x32 ![0, 1, 2] bcast_S640000x4x1_S640000x4x32_0_1_2),
    StableHlo.binary main_v235 main_v236 main_v237 (mulf),
    StableHlo.nullary main_cst_53 (constant S_ .f32 0x00000000#32),
    StableHlo.unary main_cst_53 main_v238 (broadcastInDim S20000x4x32 ![] bcast_S_S20000x4x32),
    StableHlo.unary main_arg2 main_v239 (broadcastInDim S640000x1 ![0] bcast_S640000_S640000x1_0),
    StableHlo.ternary main_v238 main_v239 main_v237 main_v240 ((fun x i u => Host.scatterAdd scatter_S20000x4x32_S640000x1_S640000x4x32_12_0_0_1 x i u)),
    StableHlo.reshape main_v240 main_v241 rfl shapeCasts_S20000x4x32_S20000x128 ]

def writtenC3 : List (Ref sig .tc) :=
  [main_v233, main_v234, main_v235, main_v236, main_v237, main_cst_53, main_v238, main_v239,
   main_v240, main_v241]

theorem lineC3 : Line (F := F) opsC3 writtenC3 where
  sub := by
    simp only [List.Forall, nullary_bufs_sub, unary_bufs_sub, binary_bufs_sub, ternary_bufs_sub, reshape_bufs_sub, and_self]
  fresh := by simp only [List.Forall]; repeat' constructor
  writes := rfl

abbrev opsT : List (HloOp τ sig (Elt F)) :=
  ( StableHlo.unary main_arg3 main_v242 (broadcastInDim S20000x128 ![0, 1] bcast_S20000x1_S20000x128_0_1)
  :: StableHlo.binary main_v241 main_v242 main_v243 (mulf)
  :: StableHlo.nullary main_cst_54 (constant S_ .f32 0x00000000#32)
  :: StableHlo.binary main_v243 main_cst_54 main_v244 ((fun x v => Host.reduceAdd x v reducesTo_S20000x128_S128_d0 h_S_))
  :: StableHlo.nullary main_cst_55 (constant S_ .f32 0x469C4000#32)
  :: StableHlo.unary main_cst_55 main_v245 (broadcastInDim S128 ![] bcast_S_S128)
  :: StableHlo.binary main_v244 main_v245 main_v246 (Host.divf)
  :: StableHlo.nullary main_c_56 (constantI S_ 32 0#32)
  :: StableHlo.TRef.nullary (.of main_call7_cst : StableHlo.TRef sig ⟨S_, .f32⟩) (constant S_ .f32 0x00000000#32)
  :: StableHlo.TRef.binary (.of main_v243 : StableHlo.TRef sig ⟨S20000x128, .f32⟩) (.of main_call7_cst : StableHlo.TRef sig ⟨S_, .f32⟩) (.of main_call7_v0 : StableHlo.TRef sig ⟨S128, .f32⟩) (fun x v => Host.reduceAdd x v reducesTo_S20000x128_S128_d0 h_S_)
  :: StableHlo.TRef.unary (.of main_call7_v0 : StableHlo.TRef sig ⟨S128, .f32⟩) (.of main_call7_v1 : StableHlo.TRef sig ⟨S1x128, .f32⟩) (broadcastInDim S1x128 ![1] bcast_S128_S1x128_1)
  :: StableHlo.TRef.nullary (.of main_call7_cst_0 : StableHlo.TRef sig ⟨S_, .f32⟩) (constant S_ .f32 0x469C4000#32)
  :: StableHlo.TRef.unary (.of main_call7_cst_0 : StableHlo.TRef sig ⟨S_, .f32⟩) (.of main_call7_v2 : StableHlo.TRef sig ⟨S1x128, .f32⟩) (broadcastInDim S1x128 ![] bcast_S_S1x128)
  :: StableHlo.TRef.binary (.of main_call7_v1 : StableHlo.TRef sig ⟨S1x128, .f32⟩) (.of main_call7_v2 : StableHlo.TRef sig ⟨S1x128, .f32⟩) (.of main_call7_v3 : StableHlo.TRef sig ⟨S1x128, .f32⟩) Host.divf
  :: StableHlo.TRef.unary (.of main_call7_v3 : StableHlo.TRef sig ⟨S1x128, .f32⟩) (.of main_call7_v4 : StableHlo.TRef sig ⟨S20000x128, .f32⟩) (broadcastInDim S20000x128 ![0, 1] bcast_S1x128_S20000x128_0_1)
  :: StableHlo.TRef.binary (.of main_v243 : StableHlo.TRef sig ⟨S20000x128, .f32⟩) (.of main_call7_v4 : StableHlo.TRef sig ⟨S20000x128, .f32⟩) (.of main_call7_v5 : StableHlo.TRef sig ⟨S20000x128, .f32⟩) subf
  :: StableHlo.TRef.binary (.of main_call7_v5 : StableHlo.TRef sig ⟨S20000x128, .f32⟩) (.of main_call7_v5 : StableHlo.TRef sig ⟨S20000x128, .f32⟩) (.of main_call7_v6 : StableHlo.TRef sig ⟨S20000x128, .f32⟩) mulf
  :: StableHlo.TRef.unary (.of main_c_56 : StableHlo.TRef sig ⟨S_, .i32⟩) (.of main_call7_v7 : StableHlo.TRef sig ⟨S_, .f32⟩) (sitofp .f32)
  :: StableHlo.TRef.nullary (.of main_call7_cst_1 : StableHlo.TRef sig ⟨S_, .f32⟩) (constant S_ .f32 0x469C4000#32)
  :: StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf
  :: StableHlo.TRef.nullary (.of main_call7_cst_2 : StableHlo.TRef sig ⟨S_, .f32⟩) (constant S_ .f32 0x00000000#32)
  :: StableHlo.TRef.binary (.of main_call7_v6 : StableHlo.TRef sig ⟨S20000x128, .f32⟩) (.of main_call7_cst_2 : StableHlo.TRef sig ⟨S_, .f32⟩) (.of main_call7_v9 : StableHlo.TRef sig ⟨S128, .f32⟩) (fun x v => Host.reduceAdd x v reducesTo_S20000x128_S128_d0 h_S_)
  :: StableHlo.TRef.unary (.of main_call7_v8 : StableHlo.TRef sig ⟨S_, .f32⟩) (.of main_call7_v10 : StableHlo.TRef sig ⟨S128, .f32⟩) (broadcastInDim S128 ![] bcast_S_S128)
  :: StableHlo.TRef.binary (.of main_call7_v9 : StableHlo.TRef sig ⟨S128, .f32⟩) (.of main_call7_v10 : StableHlo.TRef sig ⟨S128, .f32⟩) (.of main_call7_v11 : StableHlo.TRef sig ⟨S128, .f32⟩) Host.divf
  :: StableHlo.TRef.nullary (.of main_call7_cst_3 : StableHlo.TRef sig ⟨S_, .f32⟩) (constant S_ .f32 0x00000000#32)
  :: StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt)
  :: StableHlo.TRef.nullary (.of main_call7_cst_4 : StableHlo.TRef sig ⟨S_, .f32⟩) (constant S_ .f32 0x7FC00000#32)
  :: StableHlo.TRef.unary (.of main_call7_cst_4 : StableHlo.TRef sig ⟨S_, .f32⟩) (.of main_call7_call0_v0 : StableHlo.TRef sig ⟨S_, .f32⟩) id
  :: StableHlo.TRef.unary (.of main_call7_call0_v0 : StableHlo.TRef sig ⟨S_, .f32⟩) (.of main_call7_call0_v1 : StableHlo.TRef sig ⟨S128, .f32⟩) (broadcastInDim S128 ![] bcast_S_S128)
  :: StableHlo.TRef.ternary (.of main_call7_v12 : StableHlo.TRef sig ⟨S_, .i1⟩) (.of main_call7_v11 : StableHlo.TRef sig ⟨S128, .f32⟩) (.of main_call7_call0_v1 : StableHlo.TRef sig ⟨S128, .f32⟩) (.of main_v247 : StableHlo.TRef sig ⟨S128, .f32⟩) (fun p a b => select (broadcastInDim S128 ![] bcast_S_S128 p) a b)
  :: StableHlo.unary main_v246 main_v248 (broadcastInDim S1x128 ![1] bcast_S128_S1x128_1)
  :: StableHlo.unary main_v248 main_v249 (broadcastInDim S20000x128 ![0, 1] bcast_S1x128_S20000x128_0_1)
  :: StableHlo.binary main_v243 main_v249 main_v250 (subf)
  :: StableHlo.nullary main_cst_57 (constant S_ .f32 0x3727C5AC#32)
  :: StableHlo.unary main_cst_57 main_v251 (broadcastInDim S128 ![] bcast_S_S128)
  :: StableHlo.binary main_v247 main_v251 main_v252 (addf)
  :: StableHlo.unary main_v252 main_v253 (Host.rsqrt)
  :: StableHlo.unary main_v253 main_v254 (broadcastInDim S1x128 ![1] bcast_S128_S1x128_1)
  :: StableHlo.unary main_v254 main_v255 (broadcastInDim S20000x128 ![0, 1] bcast_S1x128_S20000x128_0_1)
  :: StableHlo.binary main_v250 main_v255 main_v256 (mulf)
  :: StableHlo.unary main_arg27 main_v257 (broadcastInDim S1x128 ![1] bcast_S128_S1x128_1)
  :: StableHlo.unary main_v257 main_v258 (broadcastInDim S20000x128 ![0, 1] bcast_S1x128_S20000x128_0_1)
  :: StableHlo.binary main_v256 main_v258 main_v259 (mulf)
  :: StableHlo.unary main_arg28 main_v260 (broadcastInDim S1x128 ![1] bcast_S128_S1x128_1)
  :: StableHlo.unary main_v260 main_v261 (broadcastInDim S20000x128 ![0, 1] bcast_S1x128_S20000x128_0_1)
  :: StableHlo.binary main_v259 main_v261 main_v262 (addf)
  :: StableHlo.nullary main_cst_58 (constant S_ .f32 0x00000000#32)
  :: StableHlo.unary main_cst_58 main_v263 (broadcastInDim S20000x128 ![] bcast_S_S20000x128)
  :: StableHlo.binary main_v262 main_v263 main_v264 (cmpf .ogt)
  :: StableHlo.nullary main_cst_59 (constant S_ .f32 0x3E4CCCCD#32)
  :: StableHlo.unary main_cst_59 main_v265 (broadcastInDim S20000x128 ![] bcast_S_S20000x128)
  :: StableHlo.binary main_v265 main_v262 main_v266 (mulf)
  :: StableHlo.TRef.ternary (.of main_v264 : StableHlo.TRef sig ⟨S20000x128, .i1⟩) (.of main_v262 : StableHlo.TRef sig ⟨S20000x128, .f32⟩) (.of main_v266 : StableHlo.TRef sig ⟨S20000x128, .f32⟩) (.of main_v267 : StableHlo.TRef sig ⟨S20000x128, .f32⟩) select
  :: StableHlo.TRef.nullary (.of main_call9_cst : StableHlo.TRef sig ⟨S_, .f32⟩) (constant S_ .f32 0x00000000#32)
  :: StableHlo.TRef.unary (.of main_call9_cst : StableHlo.TRef sig ⟨S_, .f32⟩) (.of main_call9_v0 : StableHlo.TRef sig ⟨S20000x128, .f32⟩) (broadcastInDim S20000x128 ![] bcast_S_S20000x128)
  :: StableHlo.TRef.binary (.of main_v267 : StableHlo.TRef sig ⟨S20000x128, .f32⟩) (.of main_call9_v0 : StableHlo.TRef sig ⟨S20000x128, .f32⟩) (.of main_v268 : StableHlo.TRef sig ⟨S20000x128, .f32⟩) maximumf
  :: StableHlo.binary main_v268 main_arg29 main_v269 ((fun l r => Host.dotGeneral dot_S20000x128_S128x64_S20000x64_1_0_0_1_n_n none l r))
  :: StableHlo.unary main_arg30 main_v270 (broadcastInDim S1x64 ![1] bcast_S64_S1x64_1)
  :: StableHlo.unary main_v270 main_v271 (broadcastInDim S20000x64 ![0, 1] bcast_S1x64_S20000x64_0_1)
  :: StableHlo.binary main_v269 main_v271 main_v272 (addf)
  :: StableHlo.TRef.nullary (.of main_call10_cst : StableHlo.TRef sig ⟨S_, .f32⟩) (constant S_ .f32 0x00000000#32)
  :: StableHlo.TRef.unary (.of main_call10_cst : StableHlo.TRef sig ⟨S_, .f32⟩) (.of main_call10_v0 : StableHlo.TRef sig ⟨S20000x64, .f32⟩) (broadcastInDim S20000x64 ![] bcast_S_S20000x64)
  :: StableHlo.TRef.binary (.of main_v272 : StableHlo.TRef sig ⟨S20000x64, .f32⟩) (.of main_call10_v0 : StableHlo.TRef sig ⟨S20000x64, .f32⟩) (.of main_v273 : StableHlo.TRef sig ⟨S20000x64, .f32⟩) maximumf
  :: StableHlo.binary main_v273 main_arg31 main_v274 ((fun l r => Host.dotGeneral dot_S20000x64_S64x2_S20000x2_1_0_0_1_n_n none l r))
  :: StableHlo.unary main_arg32 main_v275 (broadcastInDim S1x2 ![1] bcast_S2_S1x2_1)
  :: StableHlo.unary main_v275 main_v276 (broadcastInDim S20000x2 ![0, 1] bcast_S1x2_S20000x2_0_1)
  :: StableHlo.binary main_v274 main_v276 main_v277 (addf)
  :: [] )

def writtenT : List (Ref sig .tc) :=
  [main_v242, main_v243, main_cst_54, main_v244, main_cst_55, main_v245, main_v246, main_c_56,
   main_call7_cst, main_call7_v0, main_call7_v1, main_call7_cst_0, main_call7_v2, main_call7_v3, main_call7_v4, main_call7_v5,
   main_call7_v6, main_call7_v7, main_call7_cst_1, main_call7_v8, main_call7_cst_2, main_call7_v9, main_call7_v10, main_call7_v11,
   main_call7_cst_3, main_call7_v12, main_call7_cst_4, main_call7_call0_v0, main_call7_call0_v1, main_v247, main_v248, main_v249,
   main_v250, main_cst_57, main_v251, main_v252, main_v253, main_v254, main_v255, main_v256,
   main_v257, main_v258, main_v259, main_v260, main_v261, main_v262, main_cst_58, main_v263,
   main_v264, main_cst_59, main_v265, main_v266, main_v267, main_call9_cst, main_call9_v0, main_v268,
   main_v269, main_v270, main_v271, main_v272, main_call10_cst, main_call10_v0, main_v273, main_v274,
   main_v275, main_v276, main_v277]

theorem lineT : Line (F := F) opsT writtenT where
  sub := by
    simp only [List.Forall, nullary_bufs_sub, unary_bufs_sub, binary_bufs_sub, ternary_bufs_sub, reshape_bufs_sub, and_self]
  fresh := by simp only [List.Forall]; repeat' constructor
  writes := rfl

end Cert.ReferenceIdeal.RefRun

end
-- ==== Proof.RefRun.lean ====
import proofs.«428890_j15479062135603_3_alg».proof.Proof.RefOps1
import proofs.«428890_j15479062135603_3_alg».proof.Proof.RefOps2
import proofs.«428890_j15479062135603_3_alg».proof.Proof.RefOps3
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 413 operations, in order: the ten stages one after the other. -/
abbrev allOps : List (HloOp τ sig (Elt F)) :=
  opsA ++ (opsB1 ++ (opsC1 ++ (opsD1 ++ (opsB2 ++ (opsC2 ++ (opsD2 ++ (opsB3 ++ (opsC3 ++ opsT))))))))

theorem after_all (V : Valuation τ sig (Elt F)) :
    after allOps V = after opsT (after opsC3 (after opsB3 (after opsD2 (after opsC2 (after opsB2 (after opsD1
      (after opsC1 (after opsB1 (after opsA V))))))))) := by
  simp only [allOps, after_append]

/-! Each part of @main is a run of whole stages, with a prefix or a suffix of a stage where the part's boundary falls
    inside one. -/

theorem part0_eq (c : Dev nD) : main_part0 (F := F) c = seq (opsA ++ opsB1.take 53) := by
  simp only [main_part0, fn_clip.body, opsA, opsB1, List.take_succ_cons, List.take_zero, List.cons_append, List.nil_append,
    seq, bind_assoc, pure_bind]
  rfl

theorem part1_eq (c : Dev nD) :
    main_part1 (F := F) c = seq (opsB1.drop 53 ++ (opsC1 ++ (opsD1 ++ opsB2.take 4))) := by
  simp only [main_part1, fn_var.body, fn_where.body, fn_where_0.body, opsB1, opsC1, opsD1, opsB2, List.drop_succ_cons,
    List.drop_zero, List.take_succ_cons, List.take_zero, List.cons_append, List.nil_append, seq, bind_assoc, pure_bind]
  rfl

theorem part2_eq (c : Dev nD) : main_part2 (F := F) c = seq ((opsB2.drop 4).take 62) := by
  simp only [main_part2, fn_clip.body, opsB2, List.drop_succ_cons, List.drop_zero, List.take_succ_cons, List.take_zero,
    seq, bind_assoc, pure_bind]
  rfl

theorem part3_eq (c : Dev nD) :
    main_part3 (F := F) c = seq ((opsB2.drop 4).drop 62 ++ (opsC2 ++ (opsD2 ++ opsB3.take 17))) := by
  simp only [main_part3, fn_var.body, fn_where.body, fn_where_0.body, opsB2, opsC2, opsD2, opsB3, List.drop_succ_cons,
    List.drop_zero, List.take_succ_cons, List.take_zero, List.cons_append, List.nil_append, seq, bind_assoc, pure_bind]
  rfl

theorem part4_eq (c : Dev nD) : main_part4 (F := F) c = seq (opsB3.drop 17 ++ (opsC3 ++ opsT.take 2)) := by
  simp only [main_part4, fn_clip.body, opsB3, opsC3, opsT, List.drop_succ_cons, List.drop_zero, List.take_succ_cons,
    List.take_zero, List.cons_append, List.nil_append, seq, bind_assoc, pure_bind]
  rfl

theorem part5_eq (c : Dev nD) : main_part5 (F := F) c = seq (opsT.drop 2) := by
  simp only [main_part5, fn_relu.body, fn_relu_1.body, fn_var.body, fn_where.body, fn_where_0.body, opsT,
    List.drop_succ_cons, List.drop_zero, seq, bind_assoc, pure_bind]
  rfl

theorem take_append_drop_append {α : Type _} (n : Nat) (l r : List α) : l.take n ++ (l.drop n ++ r) = l ++ r := by
  rw [← List.append_assoc, List.take_append_drop]

/-- @main runs its parts in order, and the parts' lists in order are the stages' lists in order. -/
theorem main_eq (c : Dev nD) : main (F := F) c = seq allOps := by
  have h : main (F := F) c = (main_part0 c >>= fun _ => main_part1 c >>= fun _ => main_part2 c >>= fun _ =>
      main_part3 c >>= fun _ => main_part4 c >>= fun _ => main_part5 c) := rfl
  rw [h, part0_eq, part1_eq, part2_eq, part3_eq, part4_eq, part5_eq, ← seq_append, ← seq_append, ← seq_append,
    ← seq_append, ← seq_append]
  simp only [allOps, List.append_assoc, take_append_drop_append, List.take_append_drop]

theorem scopedRefs_eq : (Finset.univ.filter fun b : Ref sig .tc => b.isScoped) = ∅ := by decide
theorem scopedSems_eq : (Finset.univ.filter fun sm : SemLoc sig => sm.isScoped .tc) = ∅ := by decide

def writtenAll : List (Ref sig .tc) :=
  writtenA ++ (writtenB1 ++ (writtenC1 ++ (writtenD1 ++ (writtenB2 ++ (writtenC2 ++ (writtenD2 ++ (writtenB3 ++
    (writtenC3 ++ writtenT))))))))

theorem lineAll : Line (F := F) allOps writtenAll :=
  lineA.append (lineB1.append (lineC1.append (lineD1.append (lineB2.append (lineC2.append (lineD2.append
    (lineB3.append (lineC3.append lineT))))))))

/-- From any memory with zero counters every weakly fair execution of @main terminates, each TensorCore buffer at the
    operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after allOps (StableHlo.launchContents m c) (Proc.devRef .tc b) :=
  run_seq scopedRefs_eq scopedSems_eq defs main (fun _ => allOps) main_eq (fun _ => lineAll.sub) m ρ
    (fun _ => List.forall_iff_forall_mem.1 lineAll.fresh)

/-- A buffer no operation writes ends the run as launched. -/
theorem kept {V : Valuation τ sig (Elt F)} {r : Ref sig .tc} {x}
    (h : x = after allOps V (Proc.devRef .tc r)) (hr : r ∉ writtenAll := by decide) : x = V (Proc.devRef .tc r) :=
  h.trans (lineAll.keep V hr)

end Cert.ReferenceIdeal.RefRun

end
-- ==== Proof.PreRange.lean ====
import proofs.«428890_j15479062135603_3_alg».proof.Defs
import Idealize.ShloMosaic.Lib.ReduceAll
import Idealize.ShloMosaic.Lib.ValueIdx

noncomputable section

namespace Cert.PreRange

open Idealize.ShloMosaic Idealize.ShloMosaic.ValueIdx Idealize.SL.Sem
open Cert.Pre_finite_inputs

instance : Subsingleton S_.Idx := ⟨fun a b => funext fun d => d.elim0⟩

variable [hPre : Cert.Pre_finite_inputs.Facts]

theorem x_range_fn {F : FTy → Type} [FloatOps F]
    (main_arg0 : IVec S20000 32)
    (main_arg1 : IVec S640000 32)
    (main_arg2 : IVec S640000 32)
    (main_arg3 : FVec F S20000x1 .f32)
    (main_arg4 : FVec F S200x128 .f32)
    (main_arg5 : FVec F S128x16 .f32)
    (main_arg6 : FVec F S16 .f32)
    (main_arg7 : FVec F S16x8 .f32)
    (main_arg8 : FVec F S8 .f32)
    (main_arg9 : FVec F S16x8 .f32)
    (main_arg10 : FVec F S8 .f32)
    (main_arg11 : FVec F S128 .f32)
    (main_arg12 : FVec F S128 .f32)
    (main_arg13 : FVec F S128x32 .f32)
    (main_arg14 : FVec F S32 .f32)
    (main_arg15 : FVec F S32x4 .f32)
    (main_arg16 : FVec F S4 .f32)
    (main_arg17 : FVec F S32x4 .f32)
    (main_arg18 : FVec F S4 .f32)
    (main_arg19 : FVec F S128 .f32)
    (main_arg20 : FVec F S128 .f32)
    (main_arg21 : FVec F S128x32 .f32)
    (main_arg22 : FVec F S32 .f32)
    (main_arg23 : FVec F S32x4 .f32)
    (main_arg24 : FVec F S4 .f32)
    (main_arg25 : FVec F S32x4 .f32)
    (main_arg26 : FVec F S4 .f32)
    (main_arg27 : FVec F S128 .f32)
    (main_arg28 : FVec F S128 .f32)
    (main_arg29 : FVec F S128x64 .f32)
    (main_arg30 : FVec F S64 .f32)
    (main_arg31 : FVec F S64x2 .f32)
    (main_arg32 : FVec F S2 .f32)
    (h : Cert.Pre_finite_inputs.fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 = (fun _ => 1#1))
    (n : Fin 20000) : 0 ≤ (main_arg0 (ix1 n)).toInt ∧ (main_arg0 (ix1 n)).toInt < 200 := by
  have e := congrFun h ix0
  dsimp only [Cert.Pre_finite_inputs.fn, fn_part1, fn_part2, fn_part3, fn_part4, fn_part5, fn_part6, fn_part7, fn_part8,
    fn_part9] at e

  change IntOp.andi _ _ = 1#1 at e
  obtain ⟨e1, hlt⟩ := IntOp.andi_eq_one.1 e
  change IntOp.andi _ _ = 1#1 at e1
  obtain ⟨-, hge⟩ := IntOp.andi_eq_one.1 e1

  have hlt' := Host.reduce_andi_all _ _ _ _ _ hlt (ix1 n)
  have hge' := Host.reduce_andi_all _ _ _ _ _ hge (ix1 n)
  change IntOp.cmpi .slt (main_arg0 (ix1 n)) 200#32 = 1#1 at hlt'
  change IntOp.cmpi .sge (main_arg0 (ix1 n)) 0#32 = 1#1 at hge'
  rw [IntOp.cmpi_slt, show (200#32 : BitVec 32).toInt = 200 from by decide] at hlt'
  rw [IntOp.cmpi_sge, show (0#32 : BitVec 32).toInt = 0 from by decide] at hge'
  exact ⟨hge', hlt'⟩

theorem x_range (m : (ℓ : Loc Cert.KernelIdeal.nD Cert.KernelIdeal.τ Cert.KernelIdeal.sig) → Buf (Elt Ideal) ℓ)
    (h : Cert.Pre_KernelIdeal m) (c : Dev Cert.KernelIdeal.nD) (n : Fin 20000) :
    0 ≤ ((m ((c.tc : Thread Cert.KernelIdeal.nD Cert.KernelIdeal.τ).loc Cert.KernelIdeal.main_arg0) : IVec S20000 32) (ix1 n)).toInt
      ∧ ((m ((c.tc : Thread Cert.KernelIdeal.nD Cert.KernelIdeal.τ).loc Cert.KernelIdeal.main_arg0) : IVec S20000 32) (ix1 n)).toInt < 200 :=
  x_range_fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28))
      (m ((c.tc : Thread Cert.KernelIdeal.nD Cert.KernelIdeal.τ).loc Cert.KernelIdeal.main_arg29))
      (m ((c.tc : Thread Cert.KernelIdeal.nD Cert.KernelIdeal.τ).loc Cert.KernelIdeal.main_arg30))
      (m ((c.tc : Thread Cert.KernelIdeal.nD Cert.KernelIdeal.τ).loc Cert.KernelIdeal.main_arg31))
      (m ((c.tc : Thread Cert.KernelIdeal.nD Cert.KernelIdeal.τ).loc Cert.KernelIdeal.main_arg32))
      (h c) n

end Cert.PreRange

end
-- ==== Proof.KKeptW.lean ====
import proofs.«428890_j15479062135603_3_alg».proof.KernelIdeal

noncomputable section

namespace Cert.KernelIdeal.KKept

open Idealize.ShloMosaic

def w0 : List (Ref sig .tc) :=
  [main_cst, main_v0, main_cst_0, main_v1, main_v2, main_v3, main_cst_1, main_v4, main_v5, main_cst_2, main_v6, main_v7, main_c, main_c_3]

def w0_1 : List (Ref sig .tc) :=
  [main_call0_v0, main_call0_v1, main_call0_v2, main_call0_v3, main_call0_v4, main_v8]

def w0_2 : List (Ref sig .tc) :=
  [main_v9]

def w1 : List (Ref sig .tc) :=
  [main_v11, main_v12, main_v13, main_v14, main_v15, main_v16, main_v17, main_v18, main_v19, main_v20, main_v21, main_v22, main_v23, main_v24, main_v25, main_c_4, main_v26, main_v27, main_c_5, main_v28, main_v29, main_v30, main_v31, main_v32, main_c_6, main_v33, main_v34, main_c_7, main_v35, main_v36, main_v37, main_v38, main_v39, main_c_8, main_v40, main_v41, main_c_9, main_v42, main_v43, main_v44, main_v45, main_v46]

def w2 : List (Ref sig .tc) :=
  [main_cst_10, main_v48, main_v49, main_v50, main_v51, main_v52, main_cst_11, main_v53, main_cst_12, main_v54, main_v55, main_c_13]

def w2_1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v56]

def w2_2 : List (Ref sig .tc) :=
  [main_v57, main_v58, main_v59, main_cst_14, main_v60, main_v61, main_v62, main_v63, main_v64, main_v65, main_v66, main_v67, main_v68, main_v69, main_v70, main_v71, main_cst_15, main_v72, main_v73, main_cst_16, main_v74, main_v75]

def w2_3 : List (Ref sig .tc) :=
  [main_v76]

def w2_4 : List (Ref sig .tc) :=
  [main_v77, main_v78, main_v79, main_v80, main_v81, main_v82, main_v83, main_v84, main_v85, main_v86, main_v87, main_v88, main_v89, main_v90, main_v91, main_c_17, main_v92, main_v93, main_c_18, main_v94, main_v95, main_v96, main_v97, main_v98, main_c_19, main_v99, main_v100, main_c_20, main_v101, main_v102, main_v103, main_v104, main_v105, main_c_21, main_v106, main_v107, main_c_22, main_v108, main_v109, main_v110, main_v111, main_v112]

def w3 : List (Ref sig .tc) :=
  [main_cst_23, main_v114, main_v115, main_v116, main_v117, main_v118, main_cst_24, main_v119, main_cst_25, main_v120, main_v121, main_c_26]

def w3_1 : List (Ref sig .tc) :=
  [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v122]

def w3_2 : List (Ref sig .tc) :=
  [main_v123, main_v124, main_v125, main_cst_27, main_v126, main_v127, main_v128, main_v129, main_v130, main_v131, main_v132, main_v133, main_v134, main_v135, main_v136, main_v137, main_cst_28, main_v138, main_v139, main_cst_29, main_v140, main_v141]

def w3_3 : List (Ref sig .tc) :=
  [main_v142]

def w3_4 : List (Ref sig .tc) :=
  [main_v143, main_v144, main_v145, main_v146, main_v147, main_v148, main_v149, main_v150, main_v151, main_v152, main_v153, main_v154, main_v155, main_v156, main_v157, main_c_30, main_v158, main_v159, main_c_31, main_v160, main_v161, main_v162, main_v163, main_v164, main_c_32, main_v165, main_v166, main_c_33, main_v167, main_v168, main_v169, main_v170, main_v171, main_c_34, main_v172, main_v173, main_c_35, main_v174, main_v175, main_v176, main_v177, main_v178]

end Cert.KernelIdeal.KKept
-- ==== Proof.KKept.lean ====
import proofs.«428890_j15479062135603_3_alg».proof.Proof.Gen.KernelIdeal.Frame
import proofs.«428890_j15479062135603_3_alg».proof.Proof.KKeptW
import Idealize.ShloMosaic.Lib.StableHlo.Run

set_option maxRecDepth 16384

noncomputable section

namespace Cert.KernelIdeal.KKept

open Idealize.ShloMosaic Idealize.ShloMosaic.TcCoe
open Cert.KernelIdeal.Gen

variable {F : FTy → Type} [FloatOps F]

macro "results_listed" : tactic => `(tactic| (
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

theorem writes0 : (hostOps0 (F := F)).Forall fun op => op.writes ⊆ ((w0.map (Proc.devRef (τ := τ) .tc)).toFinset) := by
  results_listed
theorem writes0_1 : (hostOps0_1 (F := F)).Forall fun op => op.writes ⊆ ((w0_1.map (Proc.devRef (τ := τ) .tc)).toFinset) := by
  results_listed
theorem writes0_2 : (hostOps0_2 (F := F)).Forall fun op => op.writes ⊆ ((w0_2.map (Proc.devRef (τ := τ) .tc)).toFinset) := by
  results_listed
theorem writes1 : (hostOps1 (F := F)).Forall fun op => op.writes ⊆ ((w1.map (Proc.devRef (τ := τ) .tc)).toFinset) := by
  results_listed
theorem writes2 : (hostOps2 (F := F)).Forall fun op => op.writes ⊆ ((w2.map (Proc.devRef (τ := τ) .tc)).toFinset) := by
  results_listed
theorem writes2_1 : (hostOps2_1 (F := F)).Forall fun op => op.writes ⊆ ((w2_1.map (Proc.devRef (τ := τ) .tc)).toFinset) := by
  results_listed
theorem writes2_2 : (hostOps2_2 (F := F)).Forall fun op => op.writes ⊆ ((w2_2.map (Proc.devRef (τ := τ) .tc)).toFinset) := by
  results_listed
theorem writes2_3 : (hostOps2_3 (F := F)).Forall fun op => op.writes ⊆ ((w2_3.map (Proc.devRef (τ := τ) .tc)).toFinset) := by
  results_listed
theorem writes2_4 : (hostOps2_4 (F := F)).Forall fun op => op.writes ⊆ ((w2_4.map (Proc.devRef (τ := τ) .tc)).toFinset) := by
  results_listed
theorem writes3 : (hostOps3 (F := F)).Forall fun op => op.writes ⊆ ((w3.map (Proc.devRef (τ := τ) .tc)).toFinset) := by
  results_listed
theorem writes3_1 : (hostOps3_1 (F := F)).Forall fun op => op.writes ⊆ ((w3_1.map (Proc.devRef (τ := τ) .tc)).toFinset) := by
  results_listed
theorem writes3_2 : (hostOps3_2 (F := F)).Forall fun op => op.writes ⊆ ((w3_2.map (Proc.devRef (τ := τ) .tc)).toFinset) := by
  results_listed
theorem writes3_3 : (hostOps3_3 (F := F)).Forall fun op => op.writes ⊆ ((w3_3.map (Proc.devRef (τ := τ) .tc)).toFinset) := by
  results_listed
theorem writes3_4 : (hostOps3_4 (F := F)).Forall fun op => op.writes ⊆ ((w3_4.map (Proc.devRef (τ := τ) .tc)).toFinset) := by
  results_listed

def arrs0 : List (Ref sig .tc) := [main_v9, main_arg4, main_v10]

def arrs1 : List (Ref sig .tc) := [main_v32, main_v39, main_v46, main_v47]

def arrs2 : List (Ref sig .tc) := [main_v98, main_v105, main_v112, main_v113]

def arrs3 : List (Ref sig .tc) := [main_v164, main_v171, main_v178, main_v179]

theorem arr_mem0 : ∀ w, Pipeline.arrRef spec0 w ∈ arrs0 := by decide
theorem arr_mem1 : ∀ w, Pipeline.arrRef spec1 w ∈ arrs1 := by decide
theorem arr_mem2 : ∀ w, Pipeline.arrRef spec2 w ∈ arrs2 := by decide
theorem arr_mem3 : ∀ w, Pipeline.arrRef spec3 w ∈ arrs3 := by decide

def regionArrays : List (Ref sig .tc) := arrs0 ++ arrs1 ++ arrs2 ++ arrs3

def earlyWritten : List (Ref sig .tc) := w0 ++ w0_1 ++ w0_2

def lateWritten : List (Ref sig .tc) :=
  w1 ++ w2 ++ w2_1 ++ w2_2 ++ w2_3 ++ w2_4 ++ w3 ++ w3_1 ++ w3_2 ++ w3_3 ++ w3_4

def hostWritten : List (Ref sig .tc) := earlyWritten ++ lateWritten

theorem not_mem_early {r : Ref sig .tc} (h : r ∉ hostWritten) : r ∉ earlyWritten :=
  fun h' => h (List.mem_append_left _ h')
theorem not_mem_late {r : Ref sig .tc} (h : r ∉ hostWritten) : r ∉ lateWritten :=
  fun h' => h (List.mem_append_right _ h')

variable (m : (ℓ : Loc nD τ sig) → Buf (Elt F) ℓ) (ρ : Dev nD → PrngReg)

theorem step0 (c : Dev nD) (r : Ref sig .tc) : W0 m ρ c (Proc.devRef .tc r) = m ((c : Thread nD τ).loc r) := rfl

theorem step1 (c : Dev nD) (r : Ref sig .tc) (h : r ∉ w0) : W1 m ρ c (Proc.devRef .tc r) = W0 m ρ c (Proc.devRef .tc r) :=
  StableHlo.after_of_writes_sub hostOps0 _ writes0 h
theorem step2 (c : Dev nD) (r : Ref sig .tc) (h : r ∉ w0_1) : W2 m ρ c (Proc.devRef .tc r) = W1 m ρ c (Proc.devRef .tc r) :=
  StableHlo.after_of_writes_sub hostOps0_1 _ writes0_1 h
theorem step3 (c : Dev nD) (r : Ref sig .tc) (h : r ∉ w0_2) : W3 m ρ c (Proc.devRef .tc r) = W2 m ρ c (Proc.devRef .tc r) :=
  StableHlo.after_of_writes_sub hostOps0_2 _ writes0_2 h
theorem step4 (c : Dev nD) (r : Ref sig .tc) (h : r ∉ arrs0) : W4 m ρ c (Proc.devRef .tc r) = W3 m ρ c (Proc.devRef .tc r) :=
  W4_of_ne m ρ c r fun w e => h (e ▸ arr_mem0 w)
theorem step5 (c : Dev nD) (r : Ref sig .tc) (h : r ∉ w1) : W5 m ρ c (Proc.devRef .tc r) = W4 m ρ c (Proc.devRef .tc r) :=
  StableHlo.after_of_writes_sub hostOps1 _ writes1 h
theorem step6 (c : Dev nD) (r : Ref sig .tc) (h : r ∉ arrs1) : W6 m ρ c (Proc.devRef .tc r) = W5 m ρ c (Proc.devRef .tc r) :=
  W6_of_ne m ρ c r fun w e => h (e ▸ arr_mem1 w)
theorem step7 (c : Dev nD) (r : Ref sig .tc) (h : r ∉ w2) : W7 m ρ c (Proc.devRef .tc r) = W6 m ρ c (Proc.devRef .tc r) :=
  StableHlo.after_of_writes_sub hostOps2 _ writes2 h
theorem step8 (c : Dev nD) (r : Ref sig .tc) (h : r ∉ w2_1) : W8 m ρ c (Proc.devRef .tc r) = W7 m ρ c (Proc.devRef .tc r) :=
  StableHlo.after_of_writes_sub hostOps2_1 _ writes2_1 h
theorem step9 (c : Dev nD) (r : Ref sig .tc) (h : r ∉ w2_2) : W9 m ρ c (Proc.devRef .tc r) = W8 m ρ c (Proc.devRef .tc r) :=
  StableHlo.after_of_writes_sub hostOps2_2 _ writes2_2 h
theorem step10 (c : Dev nD) (r : Ref sig .tc) (h : r ∉ w2_3) : W10 m ρ c (Proc.devRef .tc r) = W9 m ρ c (Proc.devRef .tc r) :=
  StableHlo.after_of_writes_sub hostOps2_3 _ writes2_3 h
theorem step11 (c : Dev nD) (r : Ref sig .tc) (h : r ∉ w2_4) : W11 m ρ c (Proc.devRef .tc r) = W10 m ρ c (Proc.devRef .tc r) :=
  StableHlo.after_of_writes_sub hostOps2_4 _ writes2_4 h
theorem step12 (c : Dev nD) (r : Ref sig .tc) (h : r ∉ arrs2) : W12 m ρ c (Proc.devRef .tc r) = W11 m ρ c (Proc.devRef .tc r) :=
  W12_of_ne m ρ c r fun w e => h (e ▸ arr_mem2 w)
theorem step13 (c : Dev nD) (r : Ref sig .tc) (h : r ∉ w3) : W13 m ρ c (Proc.devRef .tc r) = W12 m ρ c (Proc.devRef .tc r) :=
  StableHlo.after_of_writes_sub hostOps3 _ writes3 h
theorem step14 (c : Dev nD) (r : Ref sig .tc) (h : r ∉ w3_1) : W14 m ρ c (Proc.devRef .tc r) = W13 m ρ c (Proc.devRef .tc r) :=
  StableHlo.after_of_writes_sub hostOps3_1 _ writes3_1 h
theorem step15 (c : Dev nD) (r : Ref sig .tc) (h : r ∉ w3_2) : W15 m ρ c (Proc.devRef .tc r) = W14 m ρ c (Proc.devRef .tc r) :=
  StableHlo.after_of_writes_sub hostOps3_2 _ writes3_2 h
theorem step16 (c : Dev nD) (r : Ref sig .tc) (h : r ∉ w3_3) : W16 m ρ c (Proc.devRef .tc r) = W15 m ρ c (Proc.devRef .tc r) :=
  StableHlo.after_of_writes_sub hostOps3_3 _ writes3_3 h
theorem step17 (c : Dev nD) (r : Ref sig .tc) (h : r ∉ w3_4) : W17 m ρ c (Proc.devRef .tc r) = W16 m ρ c (Proc.devRef .tc r) :=
  StableHlo.after_of_writes_sub hostOps3_4 _ writes3_4 h
theorem step18 (c : Dev nD) (r : Ref sig .tc) (h : r ∉ arrs3) : W18 m ρ c (Proc.devRef .tc r) = W17 m ρ c (Proc.devRef .tc r) :=
  W18_of_ne m ρ c r fun w e => h (e ▸ arr_mem3 w)

structure Since3 (c : Dev nD) (r : Ref sig .tc) : Prop where
  e4 : W4 m ρ c (Proc.devRef .tc r) = W3 m ρ c (Proc.devRef .tc r)
  e6 : W6 m ρ c (Proc.devRef .tc r) = W3 m ρ c (Proc.devRef .tc r)
  e12 : W12 m ρ c (Proc.devRef .tc r) = W3 m ρ c (Proc.devRef .tc r)
  e18 : W18 m ρ c (Proc.devRef .tc r) = W3 m ρ c (Proc.devRef .tc r)

theorem since3 (c : Dev nD) (r : Ref sig .tc) (hr : r ∉ lateWritten) (hr' : r ∉ regionArrays) : Since3 m ρ c r := by
  simp only [lateWritten, List.mem_append, not_or, and_assoc] at hr
  simp only [regionArrays, List.mem_append, not_or, and_assoc] at hr'
  obtain ⟨h1, h2, h2_1, h2_2, h2_3, h2_4, h3, h3_1, h3_2, h3_3, h3_4⟩ := hr
  obtain ⟨a0, a1, a2, a3⟩ := hr'
  have e4 := step4 m ρ c r a0
  have e6 := (step6 m ρ c r a1).trans ((step5 m ρ c r h1).trans e4)
  have e12 := (step12 m ρ c r a2).trans ((step11 m ρ c r h2_4).trans ((step10 m ρ c r h2_3).trans ((step9 m ρ c r h2_2).trans
    ((step8 m ρ c r h2_1).trans ((step7 m ρ c r h2).trans e6)))))
  exact ⟨e4, e6, e12, (step18 m ρ c r a3).trans ((step17 m ρ c r h3_4).trans ((step16 m ρ c r h3_3).trans
    ((step15 m ρ c r h3_2).trans ((step14 m ρ c r h3_1).trans ((step13 m ρ c r h3).trans e12)))))⟩

theorem kept3_early (c : Dev nD) (r : Ref sig .tc) (h : r ∉ earlyWritten) :
    W3 m ρ c (Proc.devRef .tc r) = m ((c : Thread nD τ).loc r) := by
  simp only [earlyWritten, List.mem_append, not_or, and_assoc] at h
  obtain ⟨h0, h0_1, h0_2⟩ := h
  exact (step3 m ρ c r h0_2).trans ((step2 m ρ c r h0_1).trans ((step1 m ρ c r h0).trans (step0 m ρ c r)))

theorem kept3 (c : Dev nD) (r : Ref sig .tc) (hr : r ∉ hostWritten) :
    W3 m ρ c (Proc.devRef .tc r) = m ((c : Thread nD τ).loc r) :=
  kept3_early m ρ c r (not_mem_early hr)

theorem kept4 (c : Dev nD) (r : Ref sig .tc) (hr : r ∉ hostWritten) (hr' : r ∉ regionArrays) :
    W4 m ρ c (Proc.devRef .tc r) = m ((c : Thread nD τ).loc r) :=
  (since3 m ρ c r (not_mem_late hr) hr').e4.trans (kept3 m ρ c r hr)

theorem kept6 (c : Dev nD) (r : Ref sig .tc) (hr : r ∉ hostWritten) (hr' : r ∉ regionArrays) :
    W6 m ρ c (Proc.devRef .tc r) = m ((c : Thread nD τ).loc r) :=
  (since3 m ρ c r (not_mem_late hr) hr').e6.trans (kept3 m ρ c r hr)

theorem kept12 (c : Dev nD) (r : Ref sig .tc) (hr : r ∉ hostWritten) (hr' : r ∉ regionArrays) :
    W12 m ρ c (Proc.devRef .tc r) = m ((c : Thread nD τ).loc r) :=
  (since3 m ρ c r (not_mem_late hr) hr').e12.trans (kept3 m ρ c r hr)

theorem kept18 (c : Dev nD) (r : Ref sig .tc) (hr : r ∉ hostWritten) (hr' : r ∉ regionArrays) :
    W18 m ρ c (Proc.devRef .tc r) = m ((c : Thread nD τ).loc r) :=
  (since3 m ρ c r (not_mem_late hr) hr').e18.trans (kept3 m ρ c r hr)

theorem v7_since3 (c : Dev nD) : Since3 m ρ c main_v7 := since3 m ρ c main_v7 (by decide) (by decide)

theorem v7_kept (c : Dev nD) :
    W4 m ρ c (Proc.devRef .tc main_v7) = W3 m ρ c (Proc.devRef .tc main_v7)
      ∧ W6 m ρ c (Proc.devRef .tc main_v7) = W3 m ρ c (Proc.devRef .tc main_v7)
      ∧ W12 m ρ c (Proc.devRef .tc main_v7) = W3 m ρ c (Proc.devRef .tc main_v7) :=
  ⟨(v7_since3 m ρ c).e4, (v7_since3 m ρ c).e6, (v7_since3 m ρ c).e12⟩

end Cert.KernelIdeal.KKept
-- ==== Proof.EmbedSpec.lean ====
import Idealize.ShloMosaic.PureOps.Ideal
import Idealize.ShloMosaic.Lib.ValueIdx

noncomputable section

open Idealize.ShloMosaic Idealize.ShloMosaic.ValueIdx
open scoped BigOperators

namespace Cert.KernelIdeal.EmbedValue

def emb (x2 : (⟨2, ![20000, 1]⟩ : Shape).Idx → BitVec 32) (W : (⟨2, ![200, 128]⟩ : Shape).Idx → EReal) :
    (⟨2, ![20000, 128]⟩ : Shape).Idx → EReal :=
  fun i => ∑ v : Fin 200,
    (if x2 (ix2 (⟨(i 0).val, (i 0).isLt⟩ : Fin 20000) (0 : Fin 1)) = BitVec.ofNat 32 v.val then (1 : EReal) else 0)
      * W (ix2 v (⟨(i 1).val, (i 1).isLt⟩ : Fin 128))

theorem emb_apply (x2 : (⟨2, ![20000, 1]⟩ : Shape).Idx → BitVec 32) (W : (⟨2, ![200, 128]⟩ : Shape).Idx → EReal)
    (n : Fin 20000) (k : Fin 128) :
    emb x2 W (ix2 n k)
      = ∑ v : Fin 200, (if x2 (ix2 n (0 : Fin 1)) = BitVec.ofNat 32 v.val then (1 : EReal) else 0) * W (ix2 v k) := rfl

theorem emb_at (x2 : (⟨2, ![20000, 1]⟩ : Shape).Idx → BitVec 32) (W : (⟨2, ![200, 128]⟩ : Shape).Idx → EReal)
    (i : (⟨2, ![20000, 128]⟩ : Shape).Idx) (n : Fin 20000) (k : Fin 128) (h0 : (i 0).val = n.val) (h1 : (i 1).val = k.val) :
    emb x2 W i
      = ∑ v : Fin 200, (if x2 (ix2 n (0 : Fin 1)) = BitVec.ofNat 32 v.val then (1 : EReal) else 0) * W (ix2 v k) := by
  obtain rfl : i = ix2 n k := funext fun a => Fin.ext (by
    match a with
    | ⟨0, _⟩ => exact h0
    | ⟨1, _⟩ => exact h1)
  rfl

end Cert.KernelIdeal.EmbedValue

end
-- ==== Proof.EmbedValue.lean ====
import proofs.«428890_j15479062135603_3_alg».proof.Proof.Gen.KernelIdeal.Frame
import proofs.«428890_j15479062135603_3_alg».proof.Proof.EmbedSpec
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)
open scoped BigOperators

namespace Cert.KernelIdeal.EmbedValue

open Cert.KernelIdeal Cert.KernelIdeal.Gen

theorem toInt_widen_one : ((1#1 : BitVec 1).setWidth 32).toInt = 1 := by decide
theorem toInt_widen_zero : ((0#1 : BitVec 1).setWidth 32).toInt = 0 := by decide

theorem bcast_rows_apply (x : IVec S2000x1 32) (h : S2000x1.Broadcasts S2000x200) (r : Fin 2000) (v : Fin 200) :
    broadcastTo S2000x200 x h (ix2 r v) = x (ix2 r (0 : Fin 1)) :=
  broadcastTo_apply x h (ix2 r v) (ix2 r (0 : Fin 1)) (fun a => by
    match a with
    | ⟨0, _⟩ => rfl
    | ⟨1, _⟩ => rfl)

theorem bcast_iota_apply (h3 : S1x200.Iotas .tc 32 [1]) (h : S1x200.Broadcasts S2000x200) (r : Fin 2000) (v : Fin 200) :
    broadcastTo S2000x200 (iota .tc S1x200 32 [1] h3) h (ix2 r v) = BitVec.ofNat 32 v.val :=
  (broadcastTo_apply (iota .tc S1x200 32 [1] h3) h (ix2 r v) (ix2 (0 : Fin 1) v) (fun a => by
    match a with
    | ⟨0, _⟩ => rfl
    | ⟨1, _⟩ => rfl)).trans (iota_single_apply .tc S1x200 32 1 h3 (ix2 (0 : Fin 1) v))

theorem onehot_apply (x : IVec S2000x1 32) (h1 : S2000x1.ShapeCasts S2000x1) (h2 : S2000x1.Broadcasts S2000x200)
    (h3 : S1x200.Iotas .tc 32 [1]) (h4 : S1x200.Broadcasts S2000x200) (h5 : 1 < 32) (r : Fin 2000) (v : Fin 200) :
    (sitofp .f32 (extui 32 (cmpi .eq (broadcastTo S2000x200 (shapeCast S2000x1 x h1) h2)
        (broadcastTo S2000x200 (iota .tc S1x200 32 [1] h3) h4)) h5) : FVec Ideal S2000x200 .f32) (ix2 r v)
      = if x (ix2 r (0 : Fin 1)) = BitVec.ofNat 32 v.val then (1 : EReal) else 0 := by
  rw [shapeCast_self]
  show ((((IntOp.cmpi .eq (broadcastTo S2000x200 x h2 (ix2 r v))
      (broadcastTo S2000x200 (iota .tc S1x200 32 [1] h3) h4 (ix2 r v))).setWidth 32).toInt : ℝ) : EReal) = _
  rw [bcast_rows_apply, bcast_iota_apply]
  by_cases he : x (ix2 r (0 : Fin 1)) = BitVec.ofNat 32 v.val
  · rw [if_pos he, IntOp.cmpi_eq.mpr he, toInt_widen_one]
    norm_num
  · rw [if_neg he, eq_zero_of_ne_one (fun h => he (IntOp.cmpi_eq.mp h)), toInt_widen_zero]
    norm_num

theorem lhs_0 (i : S2000x128.Idx) (q : dot_S2000x200_S200x128_S2000x128_1_0_0_1_n_n.contr.Idx) :
    (dot_S2000x200_S200x128_S2000x128_1_0_0_1_n_n.lhsIdx i q 0).val = (i 0).val := by
  unfold DotDims.lhsIdx
  rw [dif_neg (show ¬(0 : Fin S2000x200.rank) ∈ dot_S2000x200_S200x128_S2000x128_1_0_0_1_n_n.lhsBatch by decide),
    dif_pos (show (0 : Fin S2000x200.rank) ∈ dot_S2000x200_S200x128_S2000x128_1_0_0_1_n_n.lhsNonContracting by decide)]
  rfl

theorem lhs_1 (i : S2000x128.Idx) (q : dot_S2000x200_S200x128_S2000x128_1_0_0_1_n_n.contr.Idx) :
    (dot_S2000x200_S200x128_S2000x128_1_0_0_1_n_n.lhsIdx i q 1).val = (q ⟨0, by decide⟩).val :=
  dot_S2000x200_S200x128_S2000x128_1_0_0_1_n_n.lhsIdx_val_of_single rfl i q

theorem rhs_0 (i : S2000x128.Idx) (q : dot_S2000x200_S200x128_S2000x128_1_0_0_1_n_n.contr.Idx) :
    (dot_S2000x200_S200x128_S2000x128_1_0_0_1_n_n.rhsIdx i q 0).val = (q ⟨0, by decide⟩).val :=
  dot_S2000x200_S200x128_S2000x128_1_0_0_1_n_n.rhsIdx_val_of_single rfl i q

theorem rhs_1 (i : S2000x128.Idx) (q : dot_S2000x200_S200x128_S2000x128_1_0_0_1_n_n.contr.Idx) :
    (dot_S2000x200_S200x128_S2000x128_1_0_0_1_n_n.rhsIdx i q 1).val = (i 1).val := by
  unfold DotDims.rhsIdx
  rw [dif_neg (show ¬(1 : Fin S200x128.rank) ∈ dot_S2000x200_S200x128_S2000x128_1_0_0_1_n_n.rhsBatch by decide),
    dif_pos (show (1 : Fin S200x128.rank) ∈ dot_S2000x200_S200x128_S2000x128_1_0_0_1_n_n.rhsNonContracting by decide)]
  rfl

theorem pay_apply (x : Vec Ideal S2000x1 .i32) (W : Vec Ideal S200x128 .f32) (r : Fin 2000) (k : Fin 128) :
    k0_pay1 (F := Ideal) x W (ix2 r k)
      = ∑ v : Fin 200, (if x (ix2 r (0 : Fin 1)) = BitVec.ofNat 32 v.val then (1 : EReal) else 0) * W (ix2 v k) := by
  unfold k0_pay1
  refine (Ideal.matmul_constant_zero_apply dot_S2000x200_S200x128_S2000x128_1_0_0_1_n_n (some .fp32) _ _ (ix2 r k)).trans ?_
  rw [← Equiv.sum_comp (contrEquiv1 dot_S2000x200_S200x128_S2000x128_1_0_0_1_n_n 200 rfl rfl).symm]
  refine Finset.sum_congr rfl fun v _ => ?_
  have hk := contrEquiv1_symm_val dot_S2000x200_S200x128_S2000x128_1_0_0_1_n_n 200 rfl rfl v
  have el : dot_S2000x200_S200x128_S2000x128_1_0_0_1_n_n.lhsIdx (ix2 r k)
      ((contrEquiv1 dot_S2000x200_S200x128_S2000x128_1_0_0_1_n_n 200 rfl rfl).symm v) = ix2 r v :=
    funext fun a => Fin.ext (by
      match a with
      | ⟨0, _⟩ => exact lhs_0 _ _
      | ⟨1, _⟩ => exact (lhs_1 _ _).trans hk)
  have er : dot_S2000x200_S200x128_S2000x128_1_0_0_1_n_n.rhsIdx (ix2 r k)
      ((contrEquiv1 dot_S2000x200_S200x128_S2000x128_1_0_0_1_n_n 200 rfl rfl).symm v) = ix2 v k :=
    funext fun a => Fin.ext (by
      match a with
      | ⟨0, _⟩ => exact (rhs_0 _ _).trans hk
      | ⟨1, _⟩ => exact rhs_1 _ _)
  rw [el, er]
  exact congrArg (· * W (ix2 v k)) (onehot_apply x _ _ _ _ _ r v)

section Blocks

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk_col_apply (c : Dev nD) (t : Fin cfg0.N) (r : Fin 2000) (n : Fin 20000) (hn : n.val = t.val * 2000 + r.val) :
    (iblk0 (F := Ideal) V c 0 t : Vec Ideal S2000x1 .i32) (ix2 r (0 : Fin 1))
      = (V c (Pipeline.arrRef spec0 0) : S20000x1.Idx → BitVec 32) (ix2 n (0 : Fin 1)) := by
  obtain ⟨e0, e1, -⟩ := idx_facts t
  unfold iblk0
  rw [View.read_apply]
  show (V c (Pipeline.arrRef spec0 0) : S20000x1.Idx → BitVec 32) (((cfg0.win 0).blk t).view.emb (ix2 r (0 : Fin 1))) = _
  refine congrArg (V c (Pipeline.arrRef spec0 0) : S20000x1.Idx → BitVec 32) (funext fun a => Fin.ext ?_)
  match a with
  | ⟨0, _⟩ => show win0_0.index t (0 : Fin 2) * 2000 + 1 * r.val = n.val; omega
  | ⟨1, _⟩ => show win0_0.index t (1 : Fin 2) * 1 + 1 * 0 = 0; omega

theorem iblk_tab_apply (c : Dev nD) (t : Fin cfg0.N) (v : Fin 200) (k : Fin 128) :
    (iblk0 (F := Ideal) V c 1 t : Vec Ideal S200x128 .f32) (ix2 v k)
      = (V c (Pipeline.arrRef spec0 1) : S200x128.Idx → EReal) (ix2 v k) := by
  obtain ⟨-, -, e2, e3, -⟩ := idx_facts t
  unfold iblk0
  rw [View.read_apply]
  show (V c (Pipeline.arrRef spec0 1) : S200x128.Idx → EReal) (((cfg0.win 1).blk t).view.emb (ix2 v k)) = _
  refine congrArg (V c (Pipeline.arrRef spec0 1) : S200x128.Idx → EReal) (funext fun a => Fin.ext ?_)
  match a with
  | ⟨0, _⟩ => show win0_1.index t (0 : Fin 2) * 200 + 1 * v.val = v.val; omega
  | ⟨1, _⟩ => show win0_1.index t (1 : Fin 2) * 128 + 1 * k.val = k.val; omega

theorem flushed_eq (c : Dev nD) (t : Fin cfg0.N) :
    (dat0 (F := Ideal) V c).flushed 2 t
      = ((cfg0.win 2).blk t).view.read (Elt Ideal) (emb (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x1) hz, View.ld_unit_zero (S := S200x128) hz]
  obtain ⟨-, -, -, -, e4, e5⟩ := idx_facts t
  have ht : t.val < 10 := t.isLt
  refine funext fun j => ?_
  obtain ⟨r, k, rfl⟩ : ∃ (r : Fin 2000) (k : Fin 128), j = ix2 r k := ⟨j 0, j 1, eq_ix2 (n0 := 2000) (n1 := 128) j⟩
  show k0_pay1 (F := Ideal) (iblk0 V c 0 t) (iblk0 V c 1 t) (ix2 r k)
    = emb (V c (Pipeline.arrRef spec0 0)) (V c (Pipeline.arrRef spec0 1)) (((cfg0.win 2).blk t).view.emb (ix2 r k))
  refine (pay_apply (iblk0 V c 0 t) (iblk0 V c 1 t) r k).trans ?_
  have hr : r.val < 2000 := r.isLt
  refine ((emb_at _ _ _ (⟨t.val * 2000 + r.val, by omega⟩ : Fin 20000) k ?_ ?_).trans ?_).symm
  · show win0_2.index t (0 : Fin 2) * 2000 + 1 * r.val = t.val * 2000 + r.val; omega
  · show win0_2.index t (1 : Fin 2) * 128 + 1 * k.val = k.val; omega
  · refine Finset.sum_congr rfl fun v _ => ?_
    rw [iblk_col_apply V c t r ⟨t.val * 2000 + r.val, by omega⟩ rfl, iblk_tab_apply V c t v k]

theorem mem_blk (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v10).slice (win0_2.rect t)).set ↔ _
  rw [View.set_slice_whole, Rect.mem_set_unit]
  exact Iff.rfl

theorem cover (i : S20000x128.Idx) :
    ∃ t : Fin cfg0.N, (cfg0.win 2).flush t = true ∧ i ∈ ((cfg0.win 2).blk t).view.set := by
  have hi0 : (i 0).val < 20000 := (i 0).isLt
  have hi1 : (i 1).val < 128 := (i 1).isLt
  let t : Fin cfg0.N := ⟨(i 0).val / 2000, by rw [show cfg0.N = 10 from N_0]; omega⟩
  obtain ⟨-, -, -, -, e4, e5⟩ := idx_facts t
  have htv : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

theorem final0 (c : Dev nD) :
    (dat0 (F := Ideal) V c).arrAt 2 cfg0.N = emb (V c (Pipeline.arrRef spec0 0)) (V c (Pipeline.arrRef spec0 1)) :=
  (dat0 (F := Ideal) V c).arrAt_eq_of_cover 2 (emb (V c (Pipeline.arrRef spec0 0)) (V c (Pipeline.arrRef spec0 1)))
    (fun t _ => flushed_eq V c t) cover

end Blocks

end Cert.KernelIdeal.EmbedValue

end
-- ==== Proof.LibGatherRows.lean ====
import Idealize.ShloMosaic.PureOps.Ideal
import Idealize.ShloMosaic.Lib.ValueIdx

noncomputable section

open Idealize.ShloMosaic Idealize.ShloMosaic.ValueIdx

namespace Cert.LibGatherRows

abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.EmbedMath.lean ====
import Idealize.ShloMosaic.PureOps.Ideal
import Idealize.ShloMosaic.Lib.ValueIdx
import proofs.«428890_j15479062135603_3_alg».proof.Proof.LibGatherRows

noncomputable section

open Idealize.ShloMosaic Idealize.ShloMosaic.ValueIdx
open scoped BigOperators

namespace Cert.EmbedMath

theorem toInt_eq_toNat_of_nonneg (s : BitVec 32) (h0 : 0 ≤ s.toInt) : s.toInt = (s.toNat : ℤ) := by
  have h := BitVec.toInt_eq_toNat_cond s
  have hlt := s.isLt
  rw [h] at h0 ⊢
  split at h0 <;> rename_i hc
  · rw [if_pos hc]
  · exfalso; omega

def row (s : BitVec 32) (h0 : 0 ≤ s.toInt) (h1 : s.toInt < 200) : Fin 200 := ⟨s.toInt.toNat, by omega⟩

theorem eq_ofNat_iff (s : BitVec 32) (h0 : 0 ≤ s.toInt) (h1 : s.toInt < 200) (v : Fin 200) :
    s = BitVec.ofNat 32 v.val ↔ v = row s h0 h1 := by
  have hn := toInt_eq_toNat_of_nonneg s h0
  have hv := v.isLt
  constructor
  · intro e
    refine Fin.ext ?_
    have ht := congrArg BitVec.toNat e
    rw [BitVec.toNat_ofNat, Nat.mod_eq_of_lt (by omega)] at ht
    show v.val = s.toInt.toNat
    omega
  · intro e
    subst e
    refine BitVec.eq_of_toNat_eq ?_
    rw [BitVec.toNat_ofNat]
    show s.toNat = s.toInt.toNat % 2 ^ 32
    have hlt := s.isLt
    omega

theorem onehot_row (s : BitVec 32) (h0 : 0 ≤ s.toInt) (h1 : s.toInt < 200) (W : Fin 200 → EReal) :
    ∑ v : Fin 200, (if s = BitVec.ofNat 32 v.val then (1 : EReal) else 0) * W v = W (row s h0 h1) := by
  have hterm : ∀ v : Fin 200, (if s = BitVec.ofNat 32 v.val then (1 : EReal) else 0) * W v
      = if v = row s h0 h1 then W v else 0 := by
    intro v
    by_cases hv : v = row s h0 h1
    · rw [if_pos ((eq_ofNat_iff s h0 h1 v).mpr hv), if_pos hv, one_mul]
    · rw [if_neg (fun e => hv ((eq_ofNat_iff s h0 h1 v).mp e)), if_neg hv, zero_mul]
  rw [Finset.sum_congr rfl (fun v _ => hterm v), Finset.sum_ite_eq' Finset.univ (row s h0 h1) W, if_pos (Finset.mem_univ _)]

theorem clip_word (s : BitVec 32) (h0 : 0 ≤ s.toInt) (h1 : s.toInt < 200) :
    IntOp.minsi 199#32 (IntOp.maxsi 0#32 s) = s := by
  have z : (0#32 : BitVec 32).toInt = 0 := by decide
  have t : (199#32 : BitVec 32).toInt = 199 := by decide
  have hmax : IntOp.maxsi 0#32 s = s := by
    unfold IntOp.maxsi
    rw [if_neg]
    simp only [BitVec.slt, z, decide_eq_true_eq]
    omega
  rw [hmax]
  unfold IntOp.minsi
  rw [if_neg]
  simp only [BitVec.slt, t, decide_eq_true_eq]
  omega

theorem wrap_word (s : BitVec 32) (h0 : 0 ≤ s.toInt) :
    Scalar.select (IntOp.cmpi .slt s 0#32) (IntOp.addi s 200#32) s = s := by
  have z : (0#32 : BitVec 32).toInt = 0 := by decide
  have hc : IntOp.cmpi .slt s 0#32 = 0#1 := by
    unfold IntOp.cmpi
    show BitVec.ofBool (s.slt 0#32) = 0#1
    have : s.slt 0#32 = false := by
      simp only [BitVec.slt, z, decide_eq_false_iff_not]
      omega
    rw [this]
    rfl
  rw [hc, select_zero]

theorem gather_row {α : Type} {K E : Nat}
    (wf : GatherDims.WF (⟨2, ![200, K]⟩ : Shape) (⟨2, ![E, 1]⟩ : Shape) (⟨2, ![E, K]⟩ : Shape) [1] [0] [] [0] [] 1 ![1, K])
    (W : (⟨2, ![200, K]⟩ : Shape).Idx → α) (idx : IVec (⟨2, ![E, 1]⟩ : Shape) 32) (e : Fin E) (k : Fin K)
    (h0 : 0 ≤ (idx (ix2 e (0 : Fin 1))).toInt) (h1 : (idx (ix2 e (0 : Fin 1))).toInt < 200) :
    Host.gather (Cert.LibGatherRows.rowsDims wf) W idx (ix2 e k) = W (ix2 (row (idx (ix2 e (0 : Fin 1))) h0 h1) k) := by
  rw [Cert.LibGatherRows.gather_rows_apply (by decide : 0 < 200) wf W idx e k]
  congr 2
  refine Fin.ext ?_
  show min (idx (ix2 e (0 : Fin 1))).toInt.toNat (200 - 1) = (idx (ix2 e (0 : Fin 1))).toInt.toNat
  omega

theorem onehot_eq_gather {K E : Nat}
    (wf : GatherDims.WF (⟨2, ![200, K]⟩ : Shape) (⟨2, ![E, 1]⟩ : Shape) (⟨2, ![E, K]⟩ : Shape) [1] [0] [] [0] [] 1 ![1, K])
    (W : (⟨2, ![200, K]⟩ : Shape).Idx → EReal) (idx : IVec (⟨2, ![E, 1]⟩ : Shape) 32) (e : Fin E) (k : Fin K)
    (h0 : 0 ≤ (idx (ix2 e (0 : Fin 1))).toInt) (h1 : (idx (ix2 e (0 : Fin 1))).toInt < 200) :
    ∑ v : Fin 200, (if idx (ix2 e (0 : Fin 1)) = BitVec.ofNat 32 v.val then (1 : EReal) else 0) * W (ix2 v k)
      = Host.gather (Cert.LibGatherRows.rowsDims wf) W idx (ix2 e k) := by
  rw [gather_row wf W idx e k h0 h1]
  exact onehot_row (idx (ix2 e (0 : Fin 1))) h0 h1 (fun v => W (ix2 v k))

end Cert.EmbedMath

end
-- ==== Proof.MEmbed.lean ====
import proofs.«428890_j15479062135603_3_alg».proof.KernelIdeal
import proofs.«428890_j15479062135603_3_alg».proof.ReferenceIdeal
import proofs.«428890_j15479062135603_3_alg».proof.Proof.Gen.KernelIdeal
import proofs.«428890_j15479062135603_3_alg».proof.Proof.Gen.ReferenceIdeal
import proofs.«428890_j15479062135603_3_alg».proof.Proof.EmbedMath
import proofs.«428890_j15479062135603_3_alg».proof.Proof.EmbedSpec
import Idealize.ShloMosaic.Lib.Pipeline.Value
import Idealize.ShloMosaic.Lib.ValueIdx

noncomputable section

open Idealize.ShloMosaic Idealize.ShloMosaic.ValueIdx
open scoped BigOperators

namespace Cert.MEmbed

theorem clip_col (x : (⟨Cert.KernelIdeal.S20000, .i32⟩ : BufTy).Contents (Elt Ideal))
    (hx : ∀ n : Fin 20000, 0 ≤ (x (ix1 n)).toInt ∧ (x (ix1 n)).toInt < 200) (n : Fin 20000) :
    shapeCast Cert.KernelIdeal.S20000x1
        (minsi (broadcastInDim Cert.KernelIdeal.S20000 ![] Cert.KernelIdeal.Gen.bcast_S_S20000 (constantI Cert.KernelIdeal.S_ 32 199#32))
          (maxsi (broadcastInDim Cert.KernelIdeal.S20000 ![] Cert.KernelIdeal.Gen.bcast_S_S20000 (constantI Cert.KernelIdeal.S_ 32 0#32)) x))
        Cert.KernelIdeal.Gen.shapeCasts_S20000_S20000x1 (ix2 n (0 : Fin 1))
      = x (ix1 n) := by
  refine (shapeCast_apply _ Cert.KernelIdeal.Gen.shapeCasts_S20000_S20000x1 (ix2 n (0 : Fin 1)) (ix1 n) ?_).trans ?_
  · rw [Shape.rowMajor_val_one, Shape.rowMajor_val_two]
    show n.val = n.val * 1 + 0
    omega
  · show IntOp.minsi 199#32 (IntOp.maxsi 0#32 (x (ix1 n))) = x (ix1 n)
    exact Cert.EmbedMath.clip_word _ (hx n).1 (hx n).2

theorem wrap_col (x : (⟨Cert.KernelIdeal.S20000, .i32⟩ : BufTy).Contents (Elt Ideal))
    (hx : ∀ n : Fin 20000, 0 ≤ (x (ix1 n)).toInt ∧ (x (ix1 n)).toInt < 200) (n : Fin 20000) :
    broadcastInDim Cert.ReferenceIdeal.S20000x1 ![0] Cert.ReferenceIdeal.Gen.bcast_S20000_S20000x1_0
        (select (cmpi .slt x (broadcastInDim Cert.ReferenceIdeal.S20000 ![] Cert.ReferenceIdeal.Gen.bcast_S_S20000 (constantI Cert.ReferenceIdeal.S_ 32 0#32)))
          (addi x (broadcastInDim Cert.ReferenceIdeal.S20000 ![] Cert.ReferenceIdeal.Gen.bcast_S_S20000 (constantI Cert.ReferenceIdeal.S_ 32 200#32))) x)
        (ix2 n (0 : Fin 1))
      = x (ix1 n) := by
  refine (broadcastInDim_apply _ Cert.ReferenceIdeal.Gen.bcast_S20000_S20000x1_0 _ (ix2 n (0 : Fin 1)) (ix1 n) (fun a => ?_)).trans ?_
  · match a with
    | ⟨0, _⟩ => rfl
  · show Scalar.select (IntOp.cmpi .slt (x (ix1 n)) 0#32) (IntOp.addi (x (ix1 n)) 200#32) (x (ix1 n)) = x (ix1 n)
    exact Cert.EmbedMath.wrap_word _ (hx n).1

theorem membed (x : (⟨Cert.KernelIdeal.S20000, .i32⟩ : BufTy).Contents (Elt Ideal))
    (W : (⟨Cert.KernelIdeal.S200x128, .f32⟩ : BufTy).Contents (Elt Ideal))
    (hx : ∀ n : Fin 20000, 0 ≤ (x (ix1 n)).toInt ∧ (x (ix1 n)).toInt < 200) :
    Cert.KernelIdeal.EmbedValue.emb
        (fun i => shapeCast Cert.KernelIdeal.S20000x1
          (minsi (broadcastInDim Cert.KernelIdeal.S20000 ![] Cert.KernelIdeal.Gen.bcast_S_S20000 (constantI Cert.KernelIdeal.S_ 32 199#32))
            (maxsi (broadcastInDim Cert.KernelIdeal.S20000 ![] Cert.KernelIdeal.Gen.bcast_S_S20000 (constantI Cert.KernelIdeal.S_ 32 0#32)) x))
          Cert.KernelIdeal.Gen.shapeCasts_S20000_S20000x1 i) W
      = Host.gather Cert.ReferenceIdeal.gather_S200x128_S20000x1_S20000x128_1_0_n_n_0_1_1128 W
          (broadcastInDim Cert.ReferenceIdeal.S20000x1 ![0] Cert.ReferenceIdeal.Gen.bcast_S20000_S20000x1_0
            (select (cmpi .slt x (broadcastInDim Cert.ReferenceIdeal.S20000 ![] Cert.ReferenceIdeal.Gen.bcast_S_S20000 (constantI Cert.ReferenceIdeal.S_ 32 0#32)))
              (addi x (broadcastInDim Cert.ReferenceIdeal.S20000 ![] Cert.ReferenceIdeal.Gen.bcast_S_S20000 (constantI Cert.ReferenceIdeal.S_ 32 200#32))) x)) := by
  funext i
  obtain ⟨n, k, rfl⟩ : ∃ (n : Fin 20000) (k : Fin 128), i = ix2 n k := ⟨i 0, i 1, eq_ix2 i⟩
  have hK := clip_col x hx n
  have hR := wrap_col x hx n
  rw [Cert.KernelIdeal.EmbedValue.emb_apply]
  dsimp only
  rw [hK]
  refine Eq.trans ?_ (Cert.EmbedMath.onehot_eq_gather
    Cert.ReferenceIdeal.Gen.gather_S200x128_S20000x1_S20000x128_1_0_n_n_0_1_1128_wf W _ n k
    (by rw [hR]; exact (hx n).1) (by rw [hR]; exact (hx n).2))
  rw [hR]

end Cert.MEmbed

end
-- ==== Proof.MsgSpec.lean ====
import Idealize.ShloMosaic.PureOps.Ideal
import Idealize.ShloMosaic.Lib.ValueIdx
import Idealize.ShloMosaic.Lib.ValueLayout
import Idealize.ShloMosaic.Lib.Pipeline.Value

noncomputable section

namespace Cert.MsgSpec

open Idealize.ShloMosaic Idealize.ShloMosaic.ValueIdx

theorem head_lt {L Fd : Nat} (hLF : L * Fd = 128) (j : Fin 128) : j.val / Fd < L :=
  Nat.div_lt_of_lt_mul (by rw [Nat.mul_comm, hLF]; exact j.isLt)

theorem feat_lt {L Fd : Nat} (hLF : L * Fd = 128) (j : Fin 128) : j.val % Fd < Fd :=
  Nat.mod_lt _ (Nat.pos_of_ne_zero (by rintro rfl; simp at hLF))

def msg {R L Fd : Nat} (hLF : L * Fd = 128)
    (al ar : (⟨2, ![R, L]⟩ : Shape).Idx → EReal) (h : (⟨2, ![R, Fd]⟩ : Shape).Idx → EReal) :
    (⟨2, ![R, 128]⟩ : Shape).Idx → EReal :=
  fun i => h (ix2 (i 0 : Fin R) ⟨(i 1 : Fin 128).val % Fd, feat_lt hLF (i 1)⟩)
    * Ideal.logistic (Ideal.ofBits .f32 0x40C00000#32
        * (al (ix2 (i 0 : Fin R) ⟨(i 1 : Fin 128).val / Fd, head_lt hLF (i 1)⟩)
          + ar (ix2 (i 0 : Fin R) ⟨(i 1 : Fin 128).val / Fd, head_lt hLF (i 1)⟩)))

abbrev msg16 (al ar : (⟨2, ![640000, 8]⟩ : Shape).Idx → EReal) (h : (⟨2, ![640000, 16]⟩ : Shape).Idx → EReal) :
    (⟨2, ![640000, 128]⟩ : Shape).Idx → EReal := msg (R := 640000) (L := 8) (Fd := 16) (by decide) al ar h

abbrev msg32 (al ar : (⟨2, ![640000, 4]⟩ : Shape).Idx → EReal) (h : (⟨2, ![640000, 32]⟩ : Shape).Idx → EReal) :
    (⟨2, ![640000, 128]⟩ : Shape).Idx → EReal := msg (R := 640000) (L := 4) (Fd := 32) (by decide) al ar h

theorem msg16_apply (al ar : (⟨2, ![640000, 8]⟩ : Shape).Idx → EReal) (h : (⟨2, ![640000, 16]⟩ : Shape).Idx → EReal)
    (e : Fin 640000) (j : Fin 128) :
    msg16 al ar h (ix2 e j) = h (ix2 e (⟨j.val % 16, by omega⟩ : Fin 16))
      * Ideal.logistic (Ideal.ofBits .f32 0x40C00000#32
          * (al (ix2 e (⟨j.val / 16, by omega⟩ : Fin 8)) + ar (ix2 e (⟨j.val / 16, by omega⟩ : Fin 8)))) := rfl

theorem msg32_apply (al ar : (⟨2, ![640000, 4]⟩ : Shape).Idx → EReal) (h : (⟨2, ![640000, 32]⟩ : Shape).Idx → EReal)
    (e : Fin 640000) (j : Fin 128) :
    msg32 al ar h (ix2 e j) = h (ix2 e (⟨j.val % 32, by omega⟩ : Fin 32))
      * Ideal.logistic (Ideal.ofBits .f32 0x40C00000#32
          * (al (ix2 e (⟨j.val / 32, by omega⟩ : Fin 4)) + ar (ix2 e (⟨j.val / 32, by omega⟩ : Fin 4)))) := rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem heads_apply {R L Fd : Nat} (hLF : L * Fd = 128)
    (E : FVec Ideal ⟨2, ![R, L]⟩ .f32) (H : FVec Ideal ⟨2, ![R, Fd]⟩ .f32)
    (hs : ∀ l : Fin L, (⟨2, ![R, L]⟩ : Shape).Slices ![0, l.val] ⟨2, ![R, 1]⟩)
    (hb : (⟨2, ![R, 1]⟩ : Shape).Broadcasts ⟨2, ![R, Fd]⟩)
    (hc : Shape.Concatenates ((List.ofFn fun l : Fin L => (⟨⟨2, ![R, Fd]⟩,
        mulf H (broadcastTo ⟨2, ![R, Fd]⟩ (extractStridedSlice ⟨2, ![R, 1]⟩ ![0, l.val] E (hs l)) hb)⟩ :
          (s : Shape) × (s.Idx → Ideal .f32))).map (·.1)) ⟨2, ![R, 128]⟩ 1)
    (p : Fin R) (q : Fin 128) :
    concatenate ⟨2, ![R, 128]⟩ 1 (List.ofFn fun l : Fin L => (⟨⟨2, ![R, Fd]⟩,
        mulf H (broadcastTo ⟨2, ![R, Fd]⟩ (extractStridedSlice ⟨2, ![R, 1]⟩ ![0, l.val] E (hs l)) hb)⟩ :
          (s : Shape) × (s.Idx → Ideal .f32))) hc (ix2 p q)
      = H (ix2 p ⟨q.val % Fd, feat_lt hLF q⟩) * E (ix2 p ⟨q.val / Fd, head_lt hLF q⟩) := by
  refine (concatenate_ofFn_apply (t := ⟨2, ![R, 128]⟩) (s₁ := ⟨2, ![R, Fd]⟩) (1 : Fin 2) _ hc rfl Fd rfl (ix2 p q)
    ⟨q.val / Fd, head_lt hLF q⟩ rfl (ix2 p ⟨q.val % Fd, feat_lt hLF q⟩) rfl ?_).trans ?_
  · intro b hb'
    match b with
    | ⟨0, _⟩ => rfl
    | ⟨1, _⟩ => exact absurd rfl hb'
  · show H _ * broadcastTo ⟨2, ![R, Fd]⟩ _ hb (ix2 p ⟨q.val % Fd, feat_lt hLF q⟩) = _
    rw [broadcastTo_a1_ab_apply]
    exact congrArg _ (slice2_axis1_apply _ E _ p (0 : Fin 1) ⟨q.val / Fd, head_lt hLF q⟩ (by simp))

end Cert.MsgSpec

end
-- ==== Proof.MsgValue1.lean ====
import proofs.«428890_j15479062135603_3_alg».proof.Proof.Gen.KernelIdeal.Frame
import proofs.«428890_j15479062135603_3_alg».proof.Proof.MsgSpec
import Idealize.ShloMosaic.Lib.Pipeline.Value
import Idealize.ShloMosaic.Lib.Tactic

noncomputable section

namespace Cert.KernelIdeal.MsgValue1

open Idealize.ShloMosaic Idealize.ShloMosaic.TcCoe Idealize.SL.Sem
open Idealize.ShloMosaic.Pipeline (Dat)
open Idealize.ShloMosaic.ValueIdx
open Cert.KernelIdeal Cert.KernelIdeal.Gen Cert.MsgSpec

theorem pay_apply (x0 x1 : Vec Ideal S3200x8 .f32) (x2 : Vec Ideal S3200x16 .f32) (p : Fin 3200) (q : Fin 128) :
    k1_pay1 (F := Ideal) x0 x1 x2 (ix2 p q)
      = x2 (ix2 p (⟨q.val % 16, by omega⟩ : Fin 16))
        * Ideal.logistic (Ideal.ofBits .f32 0x40C00000#32
            * (x0 (ix2 p (⟨q.val / 16, by omega⟩ : Fin 8)) + x1 (ix2 p (⟨q.val / 16, by omega⟩ : Fin 8)))) := by
  unfold k1_pay1
  simp only [shapeCast_self]
  exact heads_apply (R := 3200) (L := 8) (Fd := 16) (by decide)
    (logistic (mulf (broadcast S3200x8 (Scalar.ofBits .f32 0x40C00000#32)) (addf x0 x1))) x2
    (fun l => by fin_cases l <;> decide) broadcasts_S3200x1_S3200x16 _ p q

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

abbrev row (t : Fin cfg1.N) (p : Fin 3200) : Fin 640000 :=
  ⟨3200 * t.val + p.val, by have ht : t.val < 200 := t.isLt; have := p.isLt; omega⟩

variable (V : (c : Dev nD) → (b : Ref sig .tc) → Buf (Elt Ideal) ((c : Thread nD τ).loc b))

theorem iblk_0 (c : Dev nD) (t : Fin cfg1.N) (p : Fin 3200) (l : Fin 8) :
    (iblk1 (F := Ideal) V c 0 t : Vec Ideal S3200x8 .f32) (ix2 p l)
      = (V c (Pipeline.arrRef spec1 0) : S640000x8.Idx → EReal) (ix2 (row t p) l) := by
  obtain ⟨e0, e1, -⟩ := idx_facts t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 3200 + 1 * p.val = 3200 * t.val + p.val; omega
  | ⟨1, _⟩ => show win1_0.index t (1 : Fin 2) * 8 + 1 * l.val = l.val; omega

theorem iblk_1 (c : Dev nD) (t : Fin cfg1.N) (p : Fin 3200) (l : Fin 8) :
    (iblk1 (F := Ideal) V c 1 t : Vec Ideal S3200x8 .f32) (ix2 p l)
      = (V c (Pipeline.arrRef spec1 1) : S640000x8.Idx → EReal) (ix2 (row t p) l) := by
  obtain ⟨-, -, e0, e1, -⟩ := idx_facts t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 3200 + 1 * p.val = 3200 * t.val + p.val; omega
  | ⟨1, _⟩ => show win1_1.index t (1 : Fin 2) * 8 + 1 * l.val = l.val; omega

theorem iblk_2 (c : Dev nD) (t : Fin cfg1.N) (p : Fin 3200) (f : Fin 16) :
    (iblk1 (F := Ideal) V c 2 t : Vec Ideal S3200x16 .f32) (ix2 p f)
      = (V c (Pipeline.arrRef spec1 2) : S640000x16.Idx → EReal) (ix2 (row t p) f) := by
  obtain ⟨-, -, -, -, e0, e1, -⟩ := idx_facts t
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 3200 + 1 * p.val = 3200 * t.val + p.val; omega
  | ⟨1, _⟩ => show win1_2.index t (1 : Fin 2) * 16 + 1 * f.val = f.val; omega

theorem emb_3 (t : Fin cfg1.N) (p : Fin 3200) (q : Fin 128) :
    (((cfg1.win 3).blk t).view.emb (ix2 p q) : S640000x128.Idx) = ix2 (row t p) q := by
  obtain ⟨-, -, -, -, -, -, e0, e1⟩ := idx_facts t
  refine funext fun a => Fin.ext ?_
  match a with
  | ⟨0, _⟩ => show win1_3.index t (0 : Fin 2) * 3200 + 1 * p.val = 3200 * t.val + p.val; omega
  | ⟨1, _⟩ => show win1_3.index t (1 : Fin 2) * 128 + 1 * q.val = q.val; omega

theorem flushed_eq (c : Dev nD) (t : Fin cfg1.N) :
    (dat1 (F := Ideal) V c).flushed 3 t = ((cfg1.win 3).blk t).view.read (Elt Ideal)
      (msg16 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S3200x8) hz, View.ld_unit_zero (S := S3200x16) hz]
  funext j
  obtain ⟨p, q, rfl⟩ : ∃ (p : Fin 3200) (q : Fin 128), j = ix2 p q := ⟨j 0, j 1, eq_ix2 j⟩
  rw [View.read_apply]
  show k1_pay1 (F := Ideal) (iblk1 V c 0 t) (iblk1 V c 1 t) (iblk1 V c 2 t) (ix2 p q)
    = msg16 (V c (Pipeline.arrRef spec1 0)) (V c (Pipeline.arrRef spec1 1)) (V c (Pipeline.arrRef spec1 2))
        (((cfg1.win 3).blk t).view.emb (ix2 p q))
  refine (pay_apply (iblk1 V c 0 t) (iblk1 V c 1 t) (iblk1 V c 2 t) p q).trans ?_
  rw [emb_3, msg16_apply, iblk_0, iblk_1, iblk_2]

theorem cover (i : S640000x128.Idx) :
    ∃ t : Fin cfg1.N, (cfg1.win 3).flush t = true ∧ i ∈ ((cfg1.win 3).blk t).view.set := by
  have hi0 : (i 0).val < 640000 := (i 0).isLt
  have hi1 : (i 1).val < 128 := (i 1).isLt
  let t : Fin cfg1.N := ⟨(i 0).val / 3200, by show (i 0).val / 3200 < 200; omega⟩
  obtain ⟨-, -, -, -, -, -, e0, e1⟩ := idx_facts t
  have ht : t.val = (i 0).val / 3200 := rfl
  refine ⟨t, flush1_3 t, ?_⟩
  show i ∈ ((View.whole main_v47).slice (win1_3.rect t)).set
  rw [View.set_slice_whole, Rect.mem_set_unit]
  intro a
  match a with
  | ⟨0, _⟩ => show win1_3.index t (0 : Fin 2) * 3200 ≤ (i 0).val ∧ (i 0).val < win1_3.index t (0 : Fin 2) * 3200 + 3200; omega
  | ⟨1, _⟩ => show win1_3.index t (1 : Fin 2) * 128 ≤ (i 1).val ∧ (i 1).val < win1_3.index t (1 : Fin 2) * 128 + 128; omega

theorem final1 (c : Dev nD) :
    (dat1 (F := Ideal) V c).arrAt 3 cfg1.N
      = msg16 (V c (Pipeline.arrRef spec1 0)) (V c (Pipeline.arrRef spec1 1)) (V c (Pipeline.arrRef spec1 2)) :=
  (dat1 (F := Ideal) V c).arrAt_eq_of_cover 3 _ (fun t _ => flushed_eq V c t) cover

theorem arr_0 : Pipeline.arrRef spec1 0 = main_v32 := rfl
theorem arr_1 : Pipeline.arrRef spec1 1 = main_v39 := rfl
theorem arr_2 : Pipeline.arrRef spec1 2 = main_v46 := rfl
theorem arr_3 : Pipeline.arrRef spec1 3 = main_v47 := rfl

end Cert.KernelIdeal.MsgValue1

end
-- ==== Proof.LibScatterSum.lean ====
import Idealize.ShloMosaic.PureOps.Ideal
import Idealize.ShloMosaic.Lib.ValueIdx

noncomputable section

open Idealize.ShloMosaic Idealize.ShloMosaic.ValueIdx
open scoped BigOperators

namespace Cert.LibScatterSum

section Rows
variable {N K E w : Nat}
  (h : ScatterDims.WF (⟨2, ![N, K]⟩ : Shape) (⟨2, ![E, 1]⟩ : Shape) (⟨2, ![E, K]⟩ : Shape) [1] [0] [0] 1)

abbrev rowsDims : ScatterDims (⟨2, ![N, K]⟩ : Shape) (⟨2, ![E, 1]⟩ : Shape) (⟨2, ![E, K]⟩ : Shape) := ⟨[1], [0], [0], 1, h⟩

theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

end Cert.LibScatterSum

end
-- ==== Proof.LibScatterRows3.lean ====
import Idealize.ShloMosaic.PureOps.Ideal
import Idealize.ShloMosaic.Lib.ValueIdx

noncomputable section

open Idealize.ShloMosaic Idealize.ShloMosaic.ValueIdx
open scoped BigOperators

namespace Cert.LibScatterRows3

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem sum_sum_pin {M : Type*} [AddCommMonoid M] {n1 n2 : Nat} (l : Fin n1) (k : Fin n2) (f : Fin n1 → Fin n2 → M) :
    (∑ a : Fin n1, ∑ b : Fin n2, if a = l ∧ b = k then f a b else 0) = f l k := by
  rw [Finset.sum_eq_single l, Finset.sum_eq_single k]
  · rw [if_pos ⟨rfl, rfl⟩]
  · intro b _ hb; rw [if_neg (fun h => hb h.2)]
  · intro hk; exact absurd (Finset.mem_univ k) hk
  · intro a _ ha
    refine Finset.sum_eq_zero fun b _ => ?_
    rw [if_neg (fun h => ha h.1)]
  · intro hl; exact absurd (Finset.mem_univ l) hl

section Rows3
variable {N L K E w : Nat}
  (h : ScatterDims.WF (⟨3, ![N, L, K]⟩ : Shape) (⟨2, ![E, 1]⟩ : Shape) (⟨3, ![E, L, K]⟩ : Shape) [1, 2] [0] [0] 1)

abbrev rows3Dims : ScatterDims (⟨3, ![N, L, K]⟩ : Shape) (⟨2, ![E, 1]⟩ : Shape) (⟨3, ![E, L, K]⟩ : Shape) :=
  ⟨[1, 2], [0], [0], 1, h⟩

theorem rows3_siIdx (j : (⟨3, ![E, L, K]⟩ : Shape).Idx) (c : Fin (rows3Dims h).scatterDimsToOperandDims.length) :
    (rows3Dims h).siIdx j c = ix2 (j 0) (0 : Fin 1) := by
  funext b; refine Fin.ext ?_
  match b with
  | ⟨0, _⟩ => rfl
  | ⟨1, _⟩ =>
    show c.val = 0
    have : c.val < 1 := c.isLt
    omega

theorem rows3_start0 (j : (⟨3, ![E, L, K]⟩ : Shape).Idx) (idx : IVec (⟨2, ![E, 1]⟩ : Shape) w) (h0) :
    (rows3Dims h).start j idx ⟨0, h0⟩ = (idx (ix2 (j 0) (0 : Fin 1))).toInt := by
  have hm : (⟨0, h0⟩ : Fin (⟨3, ![N, L, K]⟩ : Shape).rank) ∈ (rows3Dims h).scatterDimsToOperandDims := by
    show (0 : Fin 3) ∈ ([0] : List (Fin 3)); decide
  unfold ScatterDims.start
  rw [dif_pos hm, rows3_siIdx h j]
  rfl

theorem rows3_start1 (j : (⟨3, ![E, L, K]⟩ : Shape).Idx) (idx : IVec (⟨2, ![E, 1]⟩ : Shape) w) (h1) :
    (rows3Dims h).start j idx ⟨1, h1⟩ = 0 := by
  have hm : (⟨1, h1⟩ : Fin (⟨3, ![N, L, K]⟩ : Shape).rank) ∉ (rows3Dims h).scatterDimsToOperandDims := by
    show (1 : Fin 3) ∉ ([0] : List (Fin 3)); decide
  unfold ScatterDims.start
  rw [dif_neg hm]

theorem rows3_start2 (j : (⟨3, ![E, L, K]⟩ : Shape).Idx) (idx : IVec (⟨2, ![E, 1]⟩ : Shape) w) (h2) :
    (rows3Dims h).start j idx ⟨2, h2⟩ = 0 := by
  have hm : (⟨2, h2⟩ : Fin (⟨3, ![N, L, K]⟩ : Shape).rank) ∉ (rows3Dims h).scatterDimsToOperandDims := by
    show (2 : Fin 3) ∉ ([0] : List (Fin 3)); decide
  unfold ScatterDims.start
  rw [dif_neg hm]

theorem rows3_window0 (j : (⟨3, ![E, L, K]⟩ : Shape).Idx) (h0) : (rows3Dims h).window j ⟨0, h0⟩ = 0 := by
  have hm : (⟨0, h0⟩ : Fin (⟨3, ![N, L, K]⟩ : Shape).rank) ∉ (rows3Dims h).sKept := by
    show (0 : Fin 3) ∉ (List.finRange 3).filter (· ∉ ([0] : List (Fin 3))); decide
  unfold ScatterDims.window
  rw [dif_neg hm]

theorem rows3_window1 (j : (⟨3, ![E, L, K]⟩ : Shape).Idx) (h1) : (rows3Dims h).window j ⟨1, h1⟩ = (j 1).val := by
  have hm : (⟨1, h1⟩ : Fin (⟨3, ![N, L, K]⟩ : Shape).rank) ∈ (rows3Dims h).sKept := by
    show (1 : Fin 3) ∈ (List.finRange 3).filter (· ∉ ([0] : List (Fin 3))); decide
  unfold ScatterDims.window
  rw [dif_pos hm]
  rfl

theorem rows3_window2 (j : (⟨3, ![E, L, K]⟩ : Shape).Idx) (h2) : (rows3Dims h).window j ⟨2, h2⟩ = (j 2).val := by
  have hm : (⟨2, h2⟩ : Fin (⟨3, ![N, L, K]⟩ : Shape).rank) ∈ (rows3Dims h).sKept := by
    show (2 : Fin 3) ∈ (List.finRange 3).filter (· ∉ ([0] : List (Fin 3))); decide
  unfold ScatterDims.window
  rw [dif_pos hm]
  rfl

theorem rows3_resultIdx_iff (j : (⟨3, ![E, L, K]⟩ : Shape).Idx) (idx : IVec (⟨2, ![E, 1]⟩ : Shape) w)
    (n : Fin N) (l : Fin L) (k : Fin K) :
    (rows3Dims h).resultIdx? j idx = some (ix3 n l k) ↔
      (idx (ix2 (j 0) (0 : Fin 1))).toInt = (n.val : ℤ) ∧ j 1 = l ∧ j 2 = k := by
  unfold ScatterDims.resultIdx?
  split
  · rename_i hb
    rw [Option.some.injEq]
    constructor
    · intro he
      have e0 := congrArg Fin.val (congrFun he ⟨0, show 0 < 3 by omega⟩)
      have e1 := congrArg Fin.val (congrFun he ⟨1, show 1 < 3 by omega⟩)
      have e2 := congrArg Fin.val (congrFun he ⟨2, show 2 < 3 by omega⟩)
      have b0 := (hb ⟨0, show 0 < 3 by omega⟩).1
      simp only [rows3_start0, rows3_start1, rows3_start2, rows3_window0, rows3_window1, rows3_window2] at e0 e1 e2 b0
      refine ⟨?_, Fin.ext ?_, Fin.ext ?_⟩
      · change _ = n.val at e0; omega
      · change _ = l.val at e1; omega
      · change _ = k.val at e2; omega
    · rintro ⟨hn, hl, hk⟩
      funext a; refine Fin.ext ?_
      match a with
      | ⟨0, h0⟩ =>
        show ((rows3Dims h).start j idx ⟨0, h0⟩ + ((rows3Dims h).window j ⟨0, h0⟩ : ℕ)).toNat = n.val
        rw [rows3_start0, rows3_window0, hn]; omega
      | ⟨1, h1⟩ =>
        show ((rows3Dims h).start j idx ⟨1, h1⟩ + ((rows3Dims h).window j ⟨1, h1⟩ : ℕ)).toNat = l.val
        rw [rows3_start1, rows3_window1, hl]; omega
      | ⟨2, h2⟩ =>
        show ((rows3Dims h).start j idx ⟨2, h2⟩ + ((rows3Dims h).window j ⟨2, h2⟩ : ℕ)).toNat = k.val
        rw [rows3_start2, rows3_window2, hk]; omega
  · rename_i hb
    constructor
    · intro he; cases he
    · rintro ⟨hn, hl, hk⟩
      exfalso; apply hb
      intro a
      match a with
      | ⟨0, _⟩ =>
        show 0 ≤ _ ∧ _ < ((N : ℕ) : ℤ)
        rw [rows3_start0, rows3_window0, hn]; have := n.isLt; omega
      | ⟨1, _⟩ =>
        show 0 ≤ _ ∧ _ < ((L : ℕ) : ℤ)
        rw [rows3_start1, rows3_window1, hl]; have := l.isLt; omega
      | ⟨2, _⟩ =>
        show 0 ≤ _ ∧ _ < ((K : ℕ) : ℤ)
        rw [rows3_start2, rows3_window2, hk]; have := k.isLt; omega

theorem rows3_sum (x : (⟨3, ![N, L, K]⟩ : Shape).Idx → EReal) (idx : IVec (⟨2, ![E, 1]⟩ : Shape) w)
    (upd : (⟨3, ![E, L, K]⟩ : Shape).Idx → EReal) (n : Fin N) (l : Fin L) (k : Fin K) :
    Ideal.hostScatterAdd (rows3Dims h) x idx upd (ix3 n l k)
      = x (ix3 n l k) + ∑ e ∈ Finset.univ.filter (fun e : Fin E => (idx (ix2 e (0 : Fin 1))).toInt = (n.val : ℤ)), upd (ix3 e l k) := by
  unfold Ideal.hostScatterAdd
  congr 1
  rw [Finset.sum_filter, Finset.sum_filter, sum_idx3]
  refine Finset.sum_congr rfl fun e _ => ?_
  have hiff : ∀ (a : Fin L) (b : Fin K), ((rows3Dims h).resultIdx? (ix3 e a b) idx = some (ix3 n l k)) ↔
      ((idx (ix2 e (0 : Fin 1))).toInt = (n.val : ℤ) ∧ a = l ∧ b = k) :=
    fun a b => rows3_resultIdx_iff h (ix3 e a b) idx n l k
  simp only [hiff]
  by_cases hp : (idx (ix2 e (0 : Fin 1))).toInt = (n.val : ℤ)
  · simp only [hp, true_and, if_true]
    exact sum_sum_pin l k fun a b => upd (ix3 e a b)
  · simp only [hp, false_and, if_false, Finset.sum_const_zero]
end Rows3

theorem scatterAdd_rows3 {N L K E w : Nat}
    (h : ScatterDims.WF (⟨3, ![N, L, K]⟩ : Shape) (⟨2, ![E, 1]⟩ : Shape) (⟨3, ![E, L, K]⟩ : Shape) [1, 2] [0] [0] 1)
    (x : (⟨3, ![N, L, K]⟩ : Shape).Idx → EReal) (idx : IVec (⟨2, ![E, 1]⟩ : Shape) w)
    (upd : (⟨3, ![E, L, K]⟩ : Shape).Idx → EReal) (n : Fin N) (l : Fin L) (k : Fin K) :
    Ideal.hostScatterAdd (⟨[1, 2], [0], [0], 1, h⟩ : ScatterDims (⟨3, ![N, L, K]⟩ : Shape) (⟨2, ![E, 1]⟩ : Shape) (⟨3, ![E, L, K]⟩ : Shape)) x idx upd (ix3 n l k)
      = x (ix3 n l k) + ∑ e ∈ Finset.univ.filter (fun e : Fin E => (idx (ix2 e (0 : Fin 1))).toInt = (n.val : ℤ)), upd (ix3 e l k) := by
  exact rows3_sum h x idx upd n l k

end Cert.LibScatterRows3

end
-- ==== Proof.LayerCore.lean ====
import Idealize.ShloMosaic.PureOps.Ideal
import Idealize.ShloMosaic.Lib.ValueIdx
import Idealize.ShloMosaic.Lib.Pipeline.Value
import proofs.«428890_j15479062135603_3_alg».proof.Proof.LibScatterSum
import proofs.«428890_j15479062135603_3_alg».proof.Proof.LibScatterRows3

noncomputable section

open Idealize.ShloMosaic Idealize.ShloMosaic.ValueIdx
open scoped BigOperators

namespace Cert.LayerCore

section Split
variable {L Fd H : Nat}

theorem div_lt (hH : L * Fd = H) (j : Fin H) : j.val / Fd < L := by
  have hj := j.isLt
  rcases Nat.eq_zero_or_pos Fd with h0 | hpos
  · subst h0; rw [Nat.mul_zero] at hH; omega
  · rw [Nat.div_lt_iff_lt_mul hpos, hH]; exact hj

theorem mod_lt (hH : L * Fd = H) (j : Fin H) : j.val % Fd < Fd := by
  have hj := j.isLt
  rcases Nat.eq_zero_or_pos Fd with h0 | hpos
  · subst h0; rw [Nat.mul_zero] at hH; omega
  · exact Nat.mod_lt _ hpos

abbrev hi (hH : L * Fd = H) (j : Fin H) : Fin L := ⟨j.val / Fd, div_lt hH j⟩

abbrev lo (hH : L * Fd = H) (j : Fin H) : Fin Fd := ⟨j.val % Fd, mod_lt hH j⟩

end Split

theorem reshape3_apply {α : Type} {N L Fd H : Nat} (hH : L * Fd = H)
    (y : (⟨3, ![N, L, Fd]⟩ : Shape).Idx → α)
    (hsc : (⟨3, ![N, L, Fd]⟩ : Shape).ShapeCasts (⟨2, ![N, H]⟩ : Shape)) (n : Fin N) (j : Fin H) :
    shapeCast (⟨2, ![N, H]⟩ : Shape) y hsc (ix2 n j) = y (ix3 n (hi hH j) (lo hH j)) := by
  refine shapeCast_apply y hsc (ix2 n j) (ix3 n (hi hH j) (lo hH j)) ?_
  rw [Shape.rowMajor_val_three, Shape.rowMajor_val_two]
  show (n.val * L + j.val / Fd) * Fd + j.val % Fd = n.val * H + j.val
  rw [Nat.add_mul, Nat.mul_assoc, hH, Nat.add_assoc, Nat.div_add_mod']

theorem core_of {N L Fd H E w : Nat} (hH : L * Fd = H)
    (hK : ScatterDims.WF (⟨2, ![N, H]⟩ : Shape) (⟨2, ![E, 1]⟩ : Shape) (⟨2, ![E, H]⟩ : Shape) [1] [0] [0] 1)
    (hR : ScatterDims.WF (⟨3, ![N, L, Fd]⟩ : Shape) (⟨2, ![E, 1]⟩ : Shape) (⟨3, ![E, L, Fd]⟩ : Shape) [1, 2] [0] [0] 1)
    (hsc : (⟨3, ![N, L, Fd]⟩ : Shape).ShapeCasts (⟨2, ![N, H]⟩ : Shape))
    (idx : IVec (⟨2, ![E, 1]⟩ : Shape) w)
    (zK : (⟨2, ![N, H]⟩ : Shape).Idx → EReal) (zR : (⟨3, ![N, L, Fd]⟩ : Shape).Idx → EReal)
    (hz : ∀ (n : Fin N) (j : Fin H), zK (ix2 n j) = zR (ix3 n (hi hH j) (lo hH j)))
    (updK : (⟨2, ![E, H]⟩ : Shape).Idx → EReal) (updR : (⟨3, ![E, L, Fd]⟩ : Shape).Idx → EReal)
    (hupd : ∀ (e : Fin E) (j : Fin H), updK (ix2 e j) = updR (ix3 e (hi hH j) (lo hH j))) :
    Ideal.hostScatterAdd (⟨[1], [0], [0], 1, hK⟩ : ScatterDims (⟨2, ![N, H]⟩ : Shape) (⟨2, ![E, 1]⟩ : Shape) (⟨2, ![E, H]⟩ : Shape)) zK idx updK
      = shapeCast (⟨2, ![N, H]⟩ : Shape)
          (Ideal.hostScatterAdd (⟨[1, 2], [0], [0], 1, hR⟩ : ScatterDims (⟨3, ![N, L, Fd]⟩ : Shape) (⟨2, ![E, 1]⟩ : Shape) (⟨3, ![E, L, Fd]⟩ : Shape)) zR idx updR)
          hsc := by
  funext i
  obtain ⟨n, j, rfl⟩ : ∃ n j, i = ix2 n j := ⟨i 0, i 1, eq_ix2 i⟩
  rw [reshape3_apply hH, LibScatterSum.scatterAdd_rows, LibScatterRows3.scatterAdd_rows3, hz n j]
  congr 1
  exact Finset.sum_congr rfl fun e _ => hupd e j

theorem core {N L Fd H E w : Nat} (hH : L * Fd = H)
    (hK : ScatterDims.WF (⟨2, ![N, H]⟩ : Shape) (⟨2, ![E, 1]⟩ : Shape) (⟨2, ![E, H]⟩ : Shape) [1] [0] [0] 1)
    (hR : ScatterDims.WF (⟨3, ![N, L, Fd]⟩ : Shape) (⟨2, ![E, 1]⟩ : Shape) (⟨3, ![E, L, Fd]⟩ : Shape) [1, 2] [0] [0] 1)
    (hsc : (⟨3, ![N, L, Fd]⟩ : Shape).ShapeCasts (⟨2, ![N, H]⟩ : Shape))
    (idx : IVec (⟨2, ![E, 1]⟩ : Shape) w)
    (zK : (⟨2, ![N, H]⟩ : Shape).Idx → EReal) (zR : (⟨3, ![N, L, Fd]⟩ : Shape).Idx → EReal)
    (hzK : ∀ i, zK i = 0) (hzR : ∀ i, zR i = 0)
    (updK : (⟨2, ![E, H]⟩ : Shape).Idx → EReal) (updR : (⟨3, ![E, L, Fd]⟩ : Shape).Idx → EReal)
    (hupd : ∀ (e : Fin E) (j : Fin H), updK (ix2 e j) = updR (ix3 e (hi hH j) (lo hH j))) :
    Ideal.hostScatterAdd (⟨[1], [0], [0], 1, hK⟩ : ScatterDims (⟨2, ![N, H]⟩ : Shape) (⟨2, ![E, 1]⟩ : Shape) (⟨2, ![E, H]⟩ : Shape)) zK idx updK
      = shapeCast (⟨2, ![N, H]⟩ : Shape)
          (Ideal.hostScatterAdd (⟨[1, 2], [0], [0], 1, hR⟩ : ScatterDims (⟨3, ![N, L, Fd]⟩ : Shape) (⟨2, ![E, 1]⟩ : Shape) (⟨3, ![E, L, Fd]⟩ : Shape)) zR idx updR)
          hsc :=
  core_of hH hK hR hsc idx zK zR (fun n j => (hzK _).trans (hzR _).symm) updK updR hupd

theorem core_host {N L Fd H E w : Nat} (hH : L * Fd = H)
    (hK : ScatterDims.WF (⟨2, ![N, H]⟩ : Shape) (⟨2, ![E, 1]⟩ : Shape) (⟨2, ![E, H]⟩ : Shape) [1] [0] [0] 1)
    (hR : ScatterDims.WF (⟨3, ![N, L, Fd]⟩ : Shape) (⟨2, ![E, 1]⟩ : Shape) (⟨3, ![E, L, Fd]⟩ : Shape) [1, 2] [0] [0] 1)
    (dK : ScatterDims (⟨2, ![N, H]⟩ : Shape) (⟨2, ![E, 1]⟩ : Shape) (⟨2, ![E, H]⟩ : Shape))
    (dR : ScatterDims (⟨3, ![N, L, Fd]⟩ : Shape) (⟨2, ![E, 1]⟩ : Shape) (⟨3, ![E, L, Fd]⟩ : Shape))
    (hdK : dK = ⟨[1], [0], [0], 1, hK⟩) (hdR : dR = ⟨[1, 2], [0], [0], 1, hR⟩)
    (hsc : (⟨3, ![N, L, Fd]⟩ : Shape).ShapeCasts (⟨2, ![N, H]⟩ : Shape))
    (idx : IVec (⟨2, ![E, 1]⟩ : Shape) w)
    (zK : (⟨2, ![N, H]⟩ : Shape).Idx → EReal) (zR : (⟨3, ![N, L, Fd]⟩ : Shape).Idx → EReal)
    (hzK : ∀ i, zK i = 0) (hzR : ∀ i, zR i = 0)
    (updK : (⟨2, ![E, H]⟩ : Shape).Idx → EReal) (updR : (⟨3, ![E, L, Fd]⟩ : Shape).Idx → EReal)
    (hupd : ∀ (e : Fin E) (j : Fin H), updK (ix2 e j) = updR (ix3 e (hi hH j) (lo hH j))) :
    Host.scatterAdd (F := Ideal) (φ := .f32) dK zK idx updK
      = shapeCast (⟨2, ![N, H]⟩ : Shape) (Host.scatterAdd (F := Ideal) (φ := .f32) dR zR idx updR) hsc := by
  subst hdK hdR
  exact core hH hK hR hsc idx zK zR hzK hzR updK updR hupd

theorem ofBits_one : Ideal.ofBits .f32 0x3F800000#32 = 1 := by
  simp [Ideal.ofBits, Ideal.ieee, -EReal.coe_mul]; norm_num

theorem sigmoid_apply {S : Shape}
    (hb : (⟨0, ![]⟩ : Shape).BroadcastsInDim S (![] : Fin 0 → Fin S.rank)) (z : S.Idx → EReal) (i : S.Idx) :
    Host.divf (F := Ideal) (φ := .f32)
        (broadcastInDim S ![] hb (constant (F := Ideal) (⟨0, ![]⟩ : Shape) .f32 0x3F800000#32))
        (addf (F := Ideal) (φ := .f32)
          (broadcastInDim S ![] hb (constant (F := Ideal) (⟨0, ![]⟩ : Shape) .f32 0x3F800000#32))
          (Host.exp (F := Ideal) (φ := .f32) (Host.negf (F := Ideal) (φ := .f32) z))) i
      = Ideal.logistic (z i) := by
  show Ideal.div (Ideal.ofBits .f32 0x3F800000#32) (Ideal.ofBits .f32 0x3F800000#32 + Ideal.exp (-(z i))) = _
  rw [ofBits_one]
  rfl

theorem msgR_apply {E L Fd : Nat}
    (h1 : (⟨3, ![E, 1, Fd]⟩ : Shape).BroadcastsInDim (⟨3, ![E, L, Fd]⟩ : Shape) ![0, 1, 2])
    (h2 : (⟨2, ![E, Fd]⟩ : Shape).BroadcastsInDim (⟨3, ![E, 1, Fd]⟩ : Shape) ![0, 2])
    (h3 : (⟨3, ![E, L, 1]⟩ : Shape).BroadcastsInDim (⟨3, ![E, L, Fd]⟩ : Shape) ![0, 1, 2])
    (h4 : (⟨2, ![E, L]⟩ : Shape).BroadcastsInDim (⟨3, ![E, L, 1]⟩ : Shape) ![0, 1])
    (hs : (⟨2, ![E, Fd]⟩ : Shape).Idx → EReal) (ev : (⟨2, ![E, L]⟩ : Shape).Idx → EReal)
    (e : Fin E) (l : Fin L) (f : Fin Fd) :
    mulf (F := Ideal) (φ := .f32)
        (broadcastInDim (⟨3, ![E, L, Fd]⟩ : Shape) ![0, 1, 2] h1 (broadcastInDim (⟨3, ![E, 1, Fd]⟩ : Shape) ![0, 2] h2 hs))
        (broadcastInDim (⟨3, ![E, L, Fd]⟩ : Shape) ![0, 1, 2] h3 (broadcastInDim (⟨3, ![E, L, 1]⟩ : Shape) ![0, 1] h4 ev))
        (ix3 e l f)
      = hs (ix2 e f) * ev (ix2 e l) := by
  have he := e.isLt
  have hl := l.isLt
  have hf := f.isLt
  rw [mulf_apply]
  congr 1
  · refine (broadcastInDim_apply _ h1 _ (ix3 e l f) (ix3 e (0 : Fin 1) f) fun a => ?_).trans
      (broadcastInDim_apply _ h2 hs (ix3 e (0 : Fin 1) f) (ix2 e f) fun a => ?_)
    · match a with
      | ⟨0, _⟩ => show e.val = if E = 1 then 0 else e.val; split <;> omega
      | ⟨1, _⟩ => show (0 : ℕ) = if (1 : ℕ) = 1 then 0 else l.val; rfl
      | ⟨2, _⟩ => show f.val = if Fd = 1 then 0 else f.val; split <;> omega
    · match a with
      | ⟨0, _⟩ => show e.val = if E = 1 then 0 else e.val; split <;> omega
      | ⟨1, _⟩ => show f.val = if Fd = 1 then 0 else f.val; split <;> omega
  · refine (broadcastInDim_apply _ h3 _ (ix3 e l f) (ix3 e l (0 : Fin 1)) fun a => ?_).trans
      (broadcastInDim_apply _ h4 ev (ix3 e l (0 : Fin 1)) (ix2 e l) fun a => ?_)
    · match a with
      | ⟨0, _⟩ => show e.val = if E = 1 then 0 else e.val; split <;> omega
      | ⟨1, _⟩ => show l.val = if L = 1 then 0 else l.val; split <;> omega
      | ⟨2, _⟩ => show (0 : ℕ) = if (1 : ℕ) = 1 then 0 else f.val; rfl
    · match a with
      | ⟨0, _⟩ => show e.val = if E = 1 then 0 else e.val; split <;> omega
      | ⟨1, _⟩ => show l.val = if L = 1 then 0 else l.val; split <;> omega

end Cert.LayerCore

end
-- ==== Proof.MCore.lean ====
import proofs.«428890_j15479062135603_3_alg».proof.Proof.LayerCore
import proofs.«428890_j15479062135603_3_alg».proof.Proof.MsgSpec

noncomputable section

open Idealize.ShloMosaic Idealize.ShloMosaic.ValueIdx

namespace Cert.MCore

theorem zero_f32 : Ideal.ofBits .f32 0#32 = 0 := by simp [Ideal.ofBits, Ideal.ieee]

theorem mcore {N E L Fd : Nat} (hLF : L * Fd = 128)
    (hK : ScatterDims.WF (⟨2, ![N, 128]⟩ : Shape) (⟨2, ![E, 1]⟩ : Shape) (⟨2, ![E, 128]⟩ : Shape) [1] [0] [0] 1)
    (hR : ScatterDims.WF (⟨3, ![N, L, Fd]⟩ : Shape) (⟨2, ![E, 1]⟩ : Shape) (⟨3, ![E, L, Fd]⟩ : Shape) [1, 2] [0] [0] 1)
    (dK : ScatterDims (⟨2, ![N, 128]⟩ : Shape) (⟨2, ![E, 1]⟩ : Shape) (⟨2, ![E, 128]⟩ : Shape))
    (dR : ScatterDims (⟨3, ![N, L, Fd]⟩ : Shape) (⟨2, ![E, 1]⟩ : Shape) (⟨3, ![E, L, Fd]⟩ : Shape))
    (hdK : dK = ⟨[1], [0], [0], 1, hK⟩) (hdR : dR = ⟨[1, 2], [0], [0], 1, hR⟩)
    (hsc : (⟨3, ![N, L, Fd]⟩ : Shape).ShapeCasts (⟨2, ![N, 128]⟩ : Shape))
    (hzK : (⟨0, ![]⟩ : Shape).BroadcastsInDim (⟨2, ![N, 128]⟩ : Shape) ![])
    (hzR : (⟨0, ![]⟩ : Shape).BroadcastsInDim (⟨3, ![N, L, Fd]⟩ : Shape) ![])
    (hi1 : (⟨1, ![E]⟩ : Shape).BroadcastsInDim (⟨2, ![E, 1]⟩ : Shape) ![0])
    (h1 : (⟨3, ![E, 1, Fd]⟩ : Shape).BroadcastsInDim (⟨3, ![E, L, Fd]⟩ : Shape) ![0, 1, 2])
    (h2 : (⟨2, ![E, Fd]⟩ : Shape).BroadcastsInDim (⟨3, ![E, 1, Fd]⟩ : Shape) ![0, 2])
    (h3 : (⟨3, ![E, L, 1]⟩ : Shape).BroadcastsInDim (⟨3, ![E, L, Fd]⟩ : Shape) ![0, 1, 2])
    (h4 : (⟨2, ![E, L]⟩ : Shape).BroadcastsInDim (⟨3, ![E, L, 1]⟩ : Shape) ![0, 1])
    (hb : (⟨0, ![]⟩ : Shape).BroadcastsInDim (⟨2, ![E, L]⟩ : Shape) ![])
    (al ar : (⟨2, ![E, L]⟩ : Shape).Idx → EReal) (h : (⟨2, ![E, Fd]⟩ : Shape).Idx → EReal)
    (idx : (⟨1, ![E]⟩ : Shape).Idx → BitVec 32) :
    Host.scatterAdd (F := Ideal) (φ := .f32) dK
        (broadcastInDim (⟨2, ![N, 128]⟩ : Shape) ![] hzK (constant (F := Ideal) (⟨0, ![]⟩ : Shape) .f32 0#32))
        (broadcastInDim (⟨2, ![E, 1]⟩ : Shape) ![0] hi1 idx)
        (Cert.MsgSpec.msg hLF al ar h)
      = fun i => shapeCast (⟨2, ![N, 128]⟩ : Shape)
          (Host.scatterAdd (F := Ideal) (φ := .f32) dR
            (broadcastInDim (⟨3, ![N, L, Fd]⟩ : Shape) ![] hzR (constant (F := Ideal) (⟨0, ![]⟩ : Shape) .f32 0#32))
            (broadcastInDim (⟨2, ![E, 1]⟩ : Shape) ![0] hi1 idx)
            (mulf (F := Ideal) (φ := .f32)
              (broadcastInDim (⟨3, ![E, L, Fd]⟩ : Shape) ![0, 1, 2] h1
                (broadcastInDim (⟨3, ![E, 1, Fd]⟩ : Shape) ![0, 2] h2 h))
              (broadcastInDim (⟨3, ![E, L, Fd]⟩ : Shape) ![0, 1, 2] h3
                (broadcastInDim (⟨3, ![E, L, 1]⟩ : Shape) ![0, 1] h4
                  (Host.divf (F := Ideal) (φ := .f32)
                    (broadcastInDim (⟨2, ![E, L]⟩ : Shape) ![] hb (constant (F := Ideal) (⟨0, ![]⟩ : Shape) .f32 0x3F800000#32))
                    (addf (F := Ideal) (φ := .f32)
                      (broadcastInDim (⟨2, ![E, L]⟩ : Shape) ![] hb (constant (F := Ideal) (⟨0, ![]⟩ : Shape) .f32 0x3F800000#32))
                      (Host.exp (F := Ideal) (φ := .f32) (Host.negf (F := Ideal) (φ := .f32)
                        (mulf (F := Ideal) (φ := .f32)
                          (broadcastInDim (⟨2, ![E, L]⟩ : Shape) ![] hb (constant (F := Ideal) (⟨0, ![]⟩ : Shape) .f32 0x40C00000#32))
                          (addf (F := Ideal) (φ := .f32) al ar))))))))))
          hsc i := by
  refine LayerCore.core_host (L := L) (Fd := Fd) hLF hK hR dK dR hdK hdR hsc _ _ _
    (fun _ => zero_f32) (fun _ => zero_f32) _ _ ?_
  intro e j
  rw [LayerCore.msgR_apply, LayerCore.sigmoid_apply]
  rfl

end Cert.MCore

end
-- ==== Proof.MsgValue2.lean ====
import proofs.«428890_j15479062135603_3_alg».proof.Proof.Gen.KernelIdeal.Frame
import proofs.«428890_j15479062135603_3_alg».proof.Proof.MsgSpec
import Idealize.ShloMosaic.Lib.Pipeline.Value
import Idealize.ShloMosaic.Lib.Tactic

noncomputable section

namespace Cert.KernelIdeal.MsgValue2

open Idealize.ShloMosaic Idealize.ShloMosaic.TcCoe Idealize.SL.Sem
open Idealize.ShloMosaic.Pipeline (Dat)
open Idealize.ShloMosaic.ValueIdx
open Cert.KernelIdeal Cert.KernelIdeal.Gen Cert.MsgSpec

theorem pay_apply (x0 x1 : Vec Ideal S3200x4 .f32) (x2 : Vec Ideal S3200x32 .f32) (p : Fin 3200) (q : Fin 128) :
    k2_pay1 (F := Ideal) x0 x1 x2 (ix2 p q)
      = x2 (ix2 p (⟨q.val % 32, by omega⟩ : Fin 32))
        * Ideal.logistic (Ideal.ofBits .f32 0x40C00000#32
            * (x0 (ix2 p (⟨q.val / 32, by omega⟩ : Fin 4)) + x1 (ix2 p (⟨q.val / 32, by omega⟩ : Fin 4)))) := by
  unfold k2_pay1
  simp only [shapeCast_self]
  exact heads_apply (R := 3200) (L := 4) (Fd := 32) (by decide)
    (logistic (mulf (broadcast S3200x4 (Scalar.ofBits .f32 0x40C00000#32)) (addf x0 x1))) x2
    (fun l => by fin_cases l <;> decide) broadcasts_S3200x1_S3200x32 _ p q

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

abbrev row (t : Fin cfg2.N) (p : Fin 3200) : Fin 640000 :=
  ⟨3200 * t.val + p.val, by have ht : t.val < 200 := t.isLt; have := p.isLt; omega⟩

variable (V : (c : Dev nD) → (b : Ref sig .tc) → Buf (Elt Ideal) ((c : Thread nD τ).loc b))

theorem iblk_0 (c : Dev nD) (t : Fin cfg2.N) (p : Fin 3200) (l : Fin 4) :
    (iblk2 (F := Ideal) V c 0 t : Vec Ideal S3200x4 .f32) (ix2 p l)
      = (V c (Pipeline.arrRef spec2 0) : S640000x4.Idx → EReal) (ix2 (row t p) l) := by
  obtain ⟨e0, e1, -⟩ := idx_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 3200 + 1 * p.val = 3200 * t.val + p.val; omega
  | ⟨1, _⟩ => show win2_0.index t (1 : Fin 2) * 4 + 1 * l.val = l.val; omega

theorem iblk_1 (c : Dev nD) (t : Fin cfg2.N) (p : Fin 3200) (l : Fin 4) :
    (iblk2 (F := Ideal) V c 1 t : Vec Ideal S3200x4 .f32) (ix2 p l)
      = (V c (Pipeline.arrRef spec2 1) : S640000x4.Idx → EReal) (ix2 (row t p) l) := by
  obtain ⟨-, -, e0, e1, -⟩ := idx_facts t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 3200 + 1 * p.val = 3200 * t.val + p.val; omega
  | ⟨1, _⟩ => show win2_1.index t (1 : Fin 2) * 4 + 1 * l.val = l.val; omega

theorem iblk_2 (c : Dev nD) (t : Fin cfg2.N) (p : Fin 3200) (f : Fin 32) :
    (iblk2 (F := Ideal) V c 2 t : Vec Ideal S3200x32 .f32) (ix2 p f)
      = (V c (Pipeline.arrRef spec2 2) : S640000x32.Idx → EReal) (ix2 (row t p) f) := by
  obtain ⟨-, -, -, -, e0, e1, -⟩ := idx_facts t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 3200 + 1 * p.val = 3200 * t.val + p.val; omega
  | ⟨1, _⟩ => show win2_2.index t (1 : Fin 2) * 32 + 1 * f.val = f.val; omega

theorem emb_3 (t : Fin cfg2.N) (p : Fin 3200) (q : Fin 128) :
    (((cfg2.win 3).blk t).view.emb (ix2 p q) : S640000x128.Idx) = ix2 (row t p) q := by
  obtain ⟨-, -, -, -, -, -, e0, e1⟩ := idx_facts t
  refine funext fun a => Fin.ext ?_
  match a with
  | ⟨0, _⟩ => show win2_3.index t (0 : Fin 2) * 3200 + 1 * p.val = 3200 * t.val + p.val; omega
  | ⟨1, _⟩ => show win2_3.index t (1 : Fin 2) * 128 + 1 * q.val = q.val; omega

theorem flushed_eq (c : Dev nD) (t : Fin cfg2.N) :
    (dat2 (F := Ideal) V c).flushed 3 t = ((cfg2.win 3).blk t).view.read (Elt Ideal)
      (msg32 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S3200x4) hz, View.ld_unit_zero (S := S3200x32) hz]
  funext j
  obtain ⟨p, q, rfl⟩ : ∃ (p : Fin 3200) (q : Fin 128), j = ix2 p q := ⟨j 0, j 1, eq_ix2 j⟩
  rw [View.read_apply]
  show k2_pay1 (F := Ideal) (iblk2 V c 0 t) (iblk2 V c 1 t) (iblk2 V c 2 t) (ix2 p q)
    = msg32 (V c (Pipeline.arrRef spec2 0)) (V c (Pipeline.arrRef spec2 1)) (V c (Pipeline.arrRef spec2 2))
        (((cfg2.win 3).blk t).view.emb (ix2 p q))
  refine (pay_apply (iblk2 V c 0 t) (iblk2 V c 1 t) (iblk2 V c 2 t) p q).trans ?_
  rw [emb_3, msg32_apply, iblk_0, iblk_1, iblk_2]

theorem cover (i : S640000x128.Idx) :
    ∃ t : Fin cfg2.N, (cfg2.win 3).flush t = true ∧ i ∈ ((cfg2.win 3).blk t).view.set := by
  have hi0 : (i 0).val < 640000 := (i 0).isLt
  have hi1 : (i 1).val < 128 := (i 1).isLt
  let t : Fin cfg2.N := ⟨(i 0).val / 3200, by show (i 0).val / 3200 < 200; omega⟩
  obtain ⟨-, -, -, -, -, -, e0, e1⟩ := idx_facts t
  have ht : t.val = (i 0).val / 3200 := rfl
  refine ⟨t, flush2_3 t, ?_⟩
  show i ∈ ((View.whole main_v113).slice (win2_3.rect t)).set
  rw [View.set_slice_whole, Rect.mem_set_unit]
  intro a
  match a with
  | ⟨0, _⟩ => show win2_3.index t (0 : Fin 2) * 3200 ≤ (i 0).val ∧ (i 0).val < win2_3.index t (0 : Fin 2) * 3200 + 3200; omega
  | ⟨1, _⟩ => show win2_3.index t (1 : Fin 2) * 128 ≤ (i 1).val ∧ (i 1).val < win2_3.index t (1 : Fin 2) * 128 + 128; omega

theorem final2 (c : Dev nD) :
    (dat2 (F := Ideal) V c).arrAt 3 cfg2.N
      = msg32 (V c (Pipeline.arrRef spec2 0)) (V c (Pipeline.arrRef spec2 1)) (V c (Pipeline.arrRef spec2 2)) :=
  (dat2 (F := Ideal) V c).arrAt_eq_of_cover 3 _ (fun t _ => flushed_eq V c t) cover

theorem arr_0 : Pipeline.arrRef spec2 0 = main_v98 := rfl
theorem arr_1 : Pipeline.arrRef spec2 1 = main_v105 := rfl
theorem arr_2 : Pipeline.arrRef spec2 2 = main_v112 := rfl
theorem arr_3 : Pipeline.arrRef spec2 3 = main_v113 := rfl

end Cert.KernelIdeal.MsgValue2

end
-- ==== Proof.MsgValue3.lean ====
import proofs.«428890_j15479062135603_3_alg».proof.Proof.Gen.KernelIdeal.Frame
import proofs.«428890_j15479062135603_3_alg».proof.Proof.MsgSpec
import Idealize.ShloMosaic.Lib.Pipeline.Value
import Idealize.ShloMosaic.Lib.Tactic

noncomputable section

namespace Cert.KernelIdeal.MsgValue3

open Idealize.ShloMosaic Idealize.ShloMosaic.TcCoe Idealize.SL.Sem
open Idealize.ShloMosaic.Pipeline (Dat)
open Idealize.ShloMosaic.ValueIdx
open Cert.KernelIdeal Cert.KernelIdeal.Gen Cert.MsgSpec

theorem pay_apply (x0 x1 : Vec Ideal S3200x4 .f32) (x2 : Vec Ideal S3200x32 .f32) (p : Fin 3200) (q : Fin 128) :
    k3_pay1 (F := Ideal) x0 x1 x2 (ix2 p q)
      = x2 (ix2 p (⟨q.val % 32, by omega⟩ : Fin 32))
        * Ideal.logistic (Ideal.ofBits .f32 0x40C00000#32
            * (x0 (ix2 p (⟨q.val / 32, by omega⟩ : Fin 4)) + x1 (ix2 p (⟨q.val / 32, by omega⟩ : Fin 4)))) := by
  unfold k3_pay1
  simp only [shapeCast_self]
  exact heads_apply (R := 3200) (L := 4) (Fd := 32) (by decide)
    (logistic (mulf (broadcast S3200x4 (Scalar.ofBits .f32 0x40C00000#32)) (addf x0 x1))) x2
    (fun l => by fin_cases l <;> decide) broadcasts_S3200x1_S3200x32 _ p q

theorem hz : (![0, 0] : Fin 2 → Nat) = fun _ => 0 := funext fun a => by fin_cases a <;> rfl

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

abbrev row (t : Fin cfg3.N) (p : Fin 3200) : Fin 640000 :=
  ⟨3200 * t.val + p.val, by have ht : t.val < 200 := t.isLt; have := p.isLt; omega⟩

variable (V : (c : Dev nD) → (b : Ref sig .tc) → Buf (Elt Ideal) ((c : Thread nD τ).loc b))

theorem iblk_0 (c : Dev nD) (t : Fin cfg3.N) (p : Fin 3200) (l : Fin 4) :
    (iblk3 (F := Ideal) V c 0 t : Vec Ideal S3200x4 .f32) (ix2 p l)
      = (V c (Pipeline.arrRef spec3 0) : S640000x4.Idx → EReal) (ix2 (row t p) l) := by
  obtain ⟨e0, e1, -⟩ := idx_facts t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 3200 + 1 * p.val = 3200 * t.val + p.val; omega
  | ⟨1, _⟩ => show win3_0.index t (1 : Fin 2) * 4 + 1 * l.val = l.val; omega

theorem iblk_1 (c : Dev nD) (t : Fin cfg3.N) (p : Fin 3200) (l : Fin 4) :
    (iblk3 (F := Ideal) V c 1 t : Vec Ideal S3200x4 .f32) (ix2 p l)
      = (V c (Pipeline.arrRef spec3 1) : S640000x4.Idx → EReal) (ix2 (row t p) l) := by
  obtain ⟨-, -, e0, e1, -⟩ := idx_facts t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 3200 + 1 * p.val = 3200 * t.val + p.val; omega
  | ⟨1, _⟩ => show win3_1.index t (1 : Fin 2) * 4 + 1 * l.val = l.val; omega

theorem iblk_2 (c : Dev nD) (t : Fin cfg3.N) (p : Fin 3200) (f : Fin 32) :
    (iblk3 (F := Ideal) V c 2 t : Vec Ideal S3200x32 .f32) (ix2 p f)
      = (V c (Pipeline.arrRef spec3 2) : S640000x32.Idx → EReal) (ix2 (row t p) f) := by
  obtain ⟨-, -, -, -, e0, e1, -⟩ := idx_facts t
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 3200 + 1 * p.val = 3200 * t.val + p.val; omega
  | ⟨1, _⟩ => show win3_2.index t (1 : Fin 2) * 32 + 1 * f.val = f.val; omega

theorem emb_3 (t : Fin cfg3.N) (p : Fin 3200) (q : Fin 128) :
    (((cfg3.win 3).blk t).view.emb (ix2 p q) : S640000x128.Idx) = ix2 (row t p) q := by
  obtain ⟨-, -, -, -, -, -, e0, e1⟩ := idx_facts t
  refine funext fun a => Fin.ext ?_
  match a with
  | ⟨0, _⟩ => show win3_3.index t (0 : Fin 2) * 3200 + 1 * p.val = 3200 * t.val + p.val; omega
  | ⟨1, _⟩ => show win3_3.index t (1 : Fin 2) * 128 + 1 * q.val = q.val; omega

theorem flushed_eq (c : Dev nD) (t : Fin cfg3.N) :
    (dat3 (F := Ideal) V c).flushed 3 t = ((cfg3.win 3).blk t).view.read (Elt Ideal)
      (msg32 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S3200x4) hz, View.ld_unit_zero (S := S3200x32) hz]
  funext j
  obtain ⟨p, q, rfl⟩ : ∃ (p : Fin 3200) (q : Fin 128), j = ix2 p q := ⟨j 0, j 1, eq_ix2 j⟩
  rw [View.read_apply]
  show k3_pay1 (F := Ideal) (iblk3 V c 0 t) (iblk3 V c 1 t) (iblk3 V c 2 t) (ix2 p q)
    = msg32 (V c (Pipeline.arrRef spec3 0)) (V c (Pipeline.arrRef spec3 1)) (V c (Pipeline.arrRef spec3 2))
        (((cfg3.win 3).blk t).view.emb (ix2 p q))
  refine (pay_apply (iblk3 V c 0 t) (iblk3 V c 1 t) (iblk3 V c 2 t) p q).trans ?_
  rw [emb_3, msg32_apply, iblk_0, iblk_1, iblk_2]

theorem cover (i : S640000x128.Idx) :
    ∃ t : Fin cfg3.N, (cfg3.win 3).flush t = true ∧ i ∈ ((cfg3.win 3).blk t).view.set := by
  have hi0 : (i 0).val < 640000 := (i 0).isLt
  have hi1 : (i 1).val < 128 := (i 1).isLt
  let t : Fin cfg3.N := ⟨(i 0).val / 3200, by show (i 0).val / 3200 < 200; omega⟩
  obtain ⟨-, -, -, -, -, -, e0, e1⟩ := idx_facts t
  have ht : t.val = (i 0).val / 3200 := rfl
  refine ⟨t, flush3_3 t, ?_⟩
  show i ∈ ((View.whole main_v179).slice (win3_3.rect t)).set
  rw [View.set_slice_whole, Rect.mem_set_unit]
  intro a
  match a with
  | ⟨0, _⟩ => show win3_3.index t (0 : Fin 2) * 3200 ≤ (i 0).val ∧ (i 0).val < win3_3.index t (0 : Fin 2) * 3200 + 3200; omega
  | ⟨1, _⟩ => show win3_3.index t (1 : Fin 2) * 128 ≤ (i 1).val ∧ (i 1).val < win3_3.index t (1 : Fin 2) * 128 + 128; omega

theorem final3 (c : Dev nD) :
    (dat3 (F := Ideal) V c).arrAt 3 cfg3.N
      = msg32 (V c (Pipeline.arrRef spec3 0)) (V c (Pipeline.arrRef spec3 1)) (V c (Pipeline.arrRef spec3 2)) :=
  (dat3 (F := Ideal) V c).arrAt_eq_of_cover 3 _ (fun t _ => flushed_eq V c t) cover

theorem arr_0 : Pipeline.arrRef spec3 0 = main_v164 := rfl
theorem arr_1 : Pipeline.arrRef spec3 1 = main_v171 := rfl
theorem arr_2 : Pipeline.arrRef spec3 2 = main_v178 := rfl
theorem arr_3 : Pipeline.arrRef spec3 3 = main_v179 := rfl

end Cert.KernelIdeal.MsgValue3

end
-- ==== Proof.Steps1.lean ====
import proofs.«428890_j15479062135603_3_alg».proof.Proof.Gen.KernelIdeal.Launch
import proofs.«428890_j15479062135603_3_alg».proof.Proof.RefOps1
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps0_1 hostOps0_2 hostOps1 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7)
open Cert.ReferenceIdeal.RefRun

abbrev KV := Valuation Cert.KernelIdeal.τ Cert.KernelIdeal.sig (Elt Ideal)
abbrev RV := Valuation Cert.ReferenceIdeal.τ Cert.ReferenceIdeal.sig (Elt Ideal)

theorem maximumf_comm {S : Shape} (a b : FVec Ideal S .f32) : maximumf a b = maximumf b a := by
  funext i
  simp only [maximumf, Ideal.maximumf_def, max_comm]

set_option maxHeartbeats 1000000 in

theorem norm1 (VK : KV) (VR : RV) (ha2 : VK (Proc.devRef .tc Cert.KernelIdeal.main_arg2) = VR (Proc.devRef .tc Cert.ReferenceIdeal.main_arg2)) :
    after (hostOps0_2 (F := Ideal)) (after (hostOps0_1 (F := Ideal)) (after (hostOps0 (F := Ideal)) (VK))) (Proc.devRef .tc Cert.KernelIdeal.main_v7) = after (opsB1 (F := Ideal)) VR (Proc.devRef .tc Cert.ReferenceIdeal.main_v48) := by
  after_results_simp
  rw [ha2]
  refine congrArg₂ (Host.powf (F := Ideal)) ?_ rfl
  change maximumf _ _ = maximumf _ _
  refine (maximumf_comm _ _).trans (congrArg₂ maximumf ?_ ?_)
  · rfl
  · change Host.scatterAdd _ _ _ _ = Host.scatterAdd _ _ _ _
    rfl

set_option maxHeartbeats 1000000 in

theorem pre1_al (VK : KV) (VR : RV)
    (h10 : VK (Proc.devRef .tc Cert.KernelIdeal.main_v10) = VR (Proc.devRef .tc Cert.ReferenceIdeal.main_v6))
    (ha1 : VK (Proc.devRef .tc Cert.KernelIdeal.main_arg1) = VR (Proc.devRef .tc Cert.ReferenceIdeal.main_arg1))
    (ha5 : VK (Proc.devRef .tc Cert.KernelIdeal.main_arg5) = VR (Proc.devRef .tc Cert.ReferenceIdeal.main_arg5))
    (ha6 : VK (Proc.devRef .tc Cert.KernelIdeal.main_arg6) = VR (Proc.devRef .tc Cert.ReferenceIdeal.main_arg6))
    (ha7 : VK (Proc.devRef .tc Cert.KernelIdeal.main_arg7) = VR (Proc.devRef .tc Cert.ReferenceIdeal.main_arg7))
    (ha8 : VK (Proc.devRef .tc Cert.KernelIdeal.main_arg8) = VR (Proc.devRef .tc Cert.ReferenceIdeal.main_arg8)) :
    after (hostOps1 (F := Ideal)) VK (Proc.devRef .tc Cert.KernelIdeal.main_v32) = after (opsB1 (F := Ideal)) VR (Proc.devRef .tc Cert.ReferenceIdeal.main_v25) := by
  after_results_simp
  simp only [h10, ha1, ha5, ha6, ha7, ha8]
  try rfl

set_option maxHeartbeats 1000000 in

theorem pre1_ar (VK : KV) (VR : RV)
    (h10 : VK (Proc.devRef .tc Cert.KernelIdeal.main_v10) = VR (Proc.devRef .tc Cert.ReferenceIdeal.main_v6))
    (ha2 : VK (Proc.devRef .tc Cert.KernelIdeal.main_arg2) = VR (Proc.devRef .tc Cert.ReferenceIdeal.main_arg2))
    (ha5 : VK (Proc.devRef .tc Cert.KernelIdeal.main_arg5) = VR (Proc.devRef .tc Cert.ReferenceIdeal.main_arg5))
    (ha6 : VK (Proc.devRef .tc Cert.KernelIdeal.main_arg6) = VR (Proc.devRef .tc Cert.ReferenceIdeal.main_arg6))
    (ha9 : VK (Proc.devRef .tc Cert.KernelIdeal.main_arg9) = VR (Proc.devRef .tc Cert.ReferenceIdeal.main_arg9))
    (ha10 : VK (Proc.devRef .tc Cert.KernelIdeal.main_arg10) = VR (Proc.devRef .tc Cert.ReferenceIdeal.main_arg10)) :
    after (hostOps1 (F := Ideal)) VK (Proc.devRef .tc Cert.KernelIdeal.main_v39) = after (opsB1 (F := Ideal)) VR (Proc.devRef .tc Cert.ReferenceIdeal.main_v32) := by
  after_results_simp
  simp only [h10, ha2, ha5, ha6, ha9, ha10]
  try rfl

set_option maxHeartbeats 1000000 in

theorem pre1_h (VK : KV) (VR : RV)
    (h10 : VK (Proc.devRef .tc Cert.KernelIdeal.main_v10) = VR (Proc.devRef .tc Cert.ReferenceIdeal.main_v6))
    (h7 : VK (Proc.devRef .tc Cert.KernelIdeal.main_v7) = after (opsB1 (F := Ideal)) VR (Proc.devRef .tc Cert.ReferenceIdeal.main_v48))
    (ha1 : VK (Proc.devRef .tc Cert.KernelIdeal.main_arg1) = VR (Proc.devRef .tc Cert.ReferenceIdeal.main_arg1))
    (ha5 : VK (Proc.devRef .tc Cert.KernelIdeal.main_arg5) = VR (Proc.devRef .tc Cert.ReferenceIdeal.main_arg5))
    (ha6 : VK (Proc.devRef .tc Cert.KernelIdeal.main_arg6) = VR (Proc.devRef .tc Cert.ReferenceIdeal.main_arg6)) :
    after (hostOps1 (F := Ideal)) VK (Proc.devRef .tc Cert.KernelIdeal.main_v46) = after (opsB1 (F := Ideal)) VR (Proc.devRef .tc Cert.ReferenceIdeal.main_v58) := by
  after_results_simp
  simp only [h10, h7, ha1, ha5, ha6]
  after_results_simp
  try rfl

theorem gate1 (VR : RV) :
    after (opsB1 (F := Ideal)) VR (Proc.devRef .tc Cert.ReferenceIdeal.main_v41)
      = Host.divf (F := Ideal) (broadcastInDim Cert.ReferenceIdeal.S640000x8 ![] Cert.ReferenceIdeal.Gen.bcast_S_S640000x8 (constant (F := Ideal) Cert.ReferenceIdeal.S_ .f32 0x3F800000#32))
          (addf (broadcastInDim Cert.ReferenceIdeal.S640000x8 ![] Cert.ReferenceIdeal.Gen.bcast_S_S640000x8 (constant (F := Ideal) Cert.ReferenceIdeal.S_ .f32 0x3F800000#32))
            (Host.exp (Host.negf (mulf (broadcastInDim Cert.ReferenceIdeal.S640000x8 ![] Cert.ReferenceIdeal.Gen.bcast_S_S640000x8 (constant (F := Ideal) Cert.ReferenceIdeal.S_ .f32 0x40C00000#32))
              (addf (after (opsB1 (F := Ideal)) VR (Proc.devRef .tc Cert.ReferenceIdeal.main_v25)) (after (opsB1 (F := Ideal)) VR (Proc.devRef .tc Cert.ReferenceIdeal.main_v32))))))) := by
  after_results_simp
  try rfl

theorem scat1 (VR : RV) :
    after (opsC1 (F := Ideal)) VR (Proc.devRef .tc Cert.ReferenceIdeal.main_v67)
      = (fun i => shapeCast Cert.ReferenceIdeal.S20000x128
          (Host.scatterAdd (F := Ideal) Cert.ReferenceIdeal.scatter_S20000x8x16_S640000x1_S640000x8x16_12_0_0_1
            (broadcastInDim Cert.ReferenceIdeal.S20000x8x16 ![] Cert.ReferenceIdeal.Gen.bcast_S_S20000x8x16 (constant (F := Ideal) Cert.ReferenceIdeal.S_ .f32 0x00000000#32))
            (broadcastInDim Cert.ReferenceIdeal.S640000x1 ![0] Cert.ReferenceIdeal.Gen.bcast_S640000_S640000x1_0 (VR (Proc.devRef .tc Cert.ReferenceIdeal.main_arg2)))
            (mulf
              (broadcastInDim Cert.ReferenceIdeal.S640000x8x16 ![0, 1, 2] Cert.ReferenceIdeal.Gen.bcast_S640000x1x16_S640000x8x16_0_1_2
                (broadcastInDim Cert.ReferenceIdeal.S640000x1x16 ![0, 2] Cert.ReferenceIdeal.Gen.bcast_S640000x16_S640000x1x16_0_2 (VR (Proc.devRef .tc Cert.ReferenceIdeal.main_v58))))
              (broadcastInDim Cert.ReferenceIdeal.S640000x8x16 ![0, 1, 2] Cert.ReferenceIdeal.Gen.bcast_S640000x8x1_S640000x8x16_0_1_2
                (broadcastInDim Cert.ReferenceIdeal.S640000x8x1 ![0, 1] Cert.ReferenceIdeal.Gen.bcast_S640000x8_S640000x8x1_0_1 (VR (Proc.devRef .tc Cert.ReferenceIdeal.main_v41))))))
          Cert.ReferenceIdeal.Gen.shapeCasts_S20000x8x16_S20000x128 i) := by
  after_results_simp
  try rfl

end Cert.Steps

end
-- ==== Proof.Steps2.lean ====
import proofs.«428890_j15479062135603_3_alg».proof.Proof.Gen.KernelIdeal.Launch
import proofs.«428890_j15479062135603_3_alg».proof.Proof.RefOps1
import proofs.«428890_j15479062135603_3_alg».proof.Proof.RefOps2
import proofs.«428890_j15479062135603_3_alg».proof.Proof.Steps1
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps0_1 hostOps0_2 hostOps1 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7)
open Cert.ReferenceIdeal.RefRun

set_option maxHeartbeats 1000000 in

theorem norm2 (VK : KV) (VR : RV) (ha2 : VK (Proc.devRef .tc Cert.KernelIdeal.main_arg2) = VR (Proc.devRef .tc Cert.ReferenceIdeal.main_arg2)) :
    after (hostOps0_2 (F := Ideal)) (after (hostOps0_1 (F := Ideal)) (after (hostOps0 (F := Ideal)) (VK))) (Proc.devRef .tc Cert.KernelIdeal.main_v7) = after (opsB2 (F := Ideal)) (after (opsD1 (F := Ideal)) VR) (Proc.devRef .tc Cert.ReferenceIdeal.main_v135) := by
  after_results_simp
  rw [ha2]
  refine congrArg₂ (Host.powf (F := Ideal)) ?_ rfl
  change maximumf _ _ = maximumf _ _
  refine (maximumf_comm _ _).trans (congrArg₂ maximumf ?_ ?_)
  · rfl
  · change Host.scatterAdd _ _ _ _ = Host.scatterAdd _ _ _ _
    rfl

set_option maxHeartbeats 1000000 in

theorem pre2_al (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v47)) = VR (Proc.devRef .tc Cert.ReferenceIdeal.main_v67))
    (ha1 : VK (Proc.devRef .tc Cert.KernelIdeal.main_arg1) = VR (Proc.devRef .tc Cert.ReferenceIdeal.main_arg1))
    (ha3 : VK (Proc.devRef .tc Cert.KernelIdeal.main_arg3) = VR (Proc.devRef .tc Cert.ReferenceIdeal.main_arg3))
    (ha11 : VK (Proc.devRef .tc Cert.KernelIdeal.main_arg11) = VR (Proc.devRef .tc Cert.ReferenceIdeal.main_arg11))
    (ha12 : VK (Proc.devRef .tc Cert.KernelIdeal.main_arg12) = VR (Proc.devRef .tc Cert.ReferenceIdeal.main_arg12))
    (ha13 : VK (Proc.devRef .tc Cert.KernelIdeal.main_arg13) = VR (Proc.devRef .tc Cert.ReferenceIdeal.main_arg13))
    (ha14 : VK (Proc.devRef .tc Cert.KernelIdeal.main_arg14) = VR (Proc.devRef .tc Cert.ReferenceIdeal.main_arg14))
    (ha15 : VK (Proc.devRef .tc Cert.KernelIdeal.main_arg15) = VR (Proc.devRef .tc Cert.ReferenceIdeal.main_arg15))
    (ha16 : VK (Proc.devRef .tc Cert.KernelIdeal.main_arg16) = VR (Proc.devRef .tc Cert.ReferenceIdeal.main_arg16)) :
    after (hostOps2_4 (F := Ideal)) (after (hostOps2_3 (F := Ideal)) (after (hostOps2_2 (F := Ideal)) (after (hostOps2_1 (F := Ideal)) (after (hostOps2 (F := Ideal)) (VK))))) (Proc.devRef .tc Cert.KernelIdeal.main_v98) = after (opsB2 (F := Ideal)) (after (opsD1 (F := Ideal)) VR) (Proc.devRef .tc Cert.ReferenceIdeal.main_v112) := by
  after_results_simp
  simp only [hM, ha1, ha3, ha11, ha12, ha13, ha14, ha15, ha16]
  try rfl

set_option maxHeartbeats 1000000 in

theorem pre2_ar (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v47)) = VR (Proc.devRef .tc Cert.ReferenceIdeal.main_v67))
    (ha2 : VK (Proc.devRef .tc Cert.KernelIdeal.main_arg2) = VR (Proc.devRef .tc Cert.ReferenceIdeal.main_arg2))
    (ha3 : VK (Proc.devRef .tc Cert.KernelIdeal.main_arg3) = VR (Proc.devRef .tc Cert.ReferenceIdeal.main_arg3))
    (ha11 : VK (Proc.devRef .tc Cert.KernelIdeal.main_arg11) = VR (Proc.devRef .tc Cert.ReferenceIdeal.main_arg11))
    (ha12 : VK (Proc.devRef .tc Cert.KernelIdeal.main_arg12) = VR (Proc.devRef .tc Cert.ReferenceIdeal.main_arg12))
    (ha13 : VK (Proc.devRef .tc Cert.KernelIdeal.main_arg13) = VR (Proc.devRef .tc Cert.ReferenceIdeal.main_arg13))
    (ha14 : VK (Proc.devRef .tc Cert.KernelIdeal.main_arg14) = VR (Proc.devRef .tc Cert.ReferenceIdeal.main_arg14))
    (ha17 : VK (Proc.devRef .tc Cert.KernelIdeal.main_arg17) = VR (Proc.devRef .tc Cert.ReferenceIdeal.main_arg17))
    (ha18 : VK (Proc.devRef .tc Cert.KernelIdeal.main_arg18) = VR (Proc.devRef .tc Cert.ReferenceIdeal.main_arg18)) :
    after (hostOps2_4 (F := Ideal)) (after (hostOps2_3 (F := Ideal)) (after (hostOps2_2 (F := Ideal)) (after (hostOps2_1 (F := Ideal)) (after (hostOps2 (F := Ideal)) (VK))))) (Proc.devRef .tc Cert.KernelIdeal.main_v105) = after (opsB2 (F := Ideal)) (after (opsD1 (F := Ideal)) VR) (Proc.devRef .tc Cert.ReferenceIdeal.main_v119) := by
  after_results_simp
  simp only [hM]
  simp only [ha2, ha3, ha11, ha12, ha13, ha14, ha17, ha18]
  try rfl

set_option maxHeartbeats 1000000 in

theorem pre2_h (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v47)) = VR (Proc.devRef .tc Cert.ReferenceIdeal.main_v67))
    (h7 : VK (Proc.devRef .tc Cert.KernelIdeal.main_v7) = after (opsB2 (F := Ideal)) (after (opsD1 (F := Ideal)) VR) (Proc.devRef .tc Cert.ReferenceIdeal.main_v135))
    (ha1 : VK (Proc.devRef .tc Cert.KernelIdeal.main_arg1) = VR (Proc.devRef .tc Cert.ReferenceIdeal.main_arg1))
    (ha3 : VK (Proc.devRef .tc Cert.KernelIdeal.main_arg3) = VR (Proc.devRef .tc Cert.ReferenceIdeal.main_arg3))
    (ha11 : VK (Proc.devRef .tc Cert.KernelIdeal.main_arg11) = VR (Proc.devRef .tc Cert.ReferenceIdeal.main_arg11))
    (ha12 : VK (Proc.devRef .tc Cert.KernelIdeal.main_arg12) = VR (Proc.devRef .tc Cert.ReferenceIdeal.main_arg12))
    (ha13 : VK (Proc.devRef .tc Cert.KernelIdeal.main_arg13) = VR (Proc.devRef .tc Cert.ReferenceIdeal.main_arg13))
    (ha14 : VK (Proc.devRef .tc Cert.KernelIdeal.main_arg14) = VR (Proc.devRef .tc Cert.ReferenceIdeal.main_arg14)) :
    after (hostOps2_4 (F := Ideal)) (after (hostOps2_3 (F := Ideal)) (after (hostOps2_2 (F := Ideal)) (after (hostOps2_1 (F := Ideal)) (after (hostOps2 (F := Ideal)) (VK))))) (Proc.devRef .tc Cert.KernelIdeal.main_v112) = after (opsB2 (F := Ideal)) (after (opsD1 (F := Ideal)) VR) (Proc.devRef .tc Cert.ReferenceIdeal.main_v145) := by
  after_results_simp
  simp only [hM, h7, ha1, ha3, ha11, ha12, ha13, ha14]
  after_results_simp
  try rfl

set_option maxHeartbeats 1000000 in

theorem gate2 (VR : RV) :
    after (opsB2 (F := Ideal)) (after (opsD1 (F := Ideal)) VR) (Proc.devRef .tc Cert.ReferenceIdeal.main_v128)
      = Host.divf (F := Ideal) (broadcastInDim Cert.ReferenceIdeal.S640000x4 ![] Cert.ReferenceIdeal.Gen.bcast_S_S640000x4 (constant (F := Ideal) Cert.ReferenceIdeal.S_ .f32 0x3F800000#32))
          (addf (broadcastInDim Cert.ReferenceIdeal.S640000x4 ![] Cert.ReferenceIdeal.Gen.bcast_S_S640000x4 (constant (F := Ideal) Cert.ReferenceIdeal.S_ .f32 0x3F800000#32))
            (Host.exp (Host.negf (mulf (broadcastInDim Cert.ReferenceIdeal.S640000x4 ![] Cert.ReferenceIdeal.Gen.bcast_S_S640000x4 (constant (F := Ideal) Cert.ReferenceIdeal.S_ .f32 0x40C00000#32))
              (addf (after (opsB2 (F := Ideal)) (after (opsD1 (F := Ideal)) VR) (Proc.devRef .tc Cert.ReferenceIdeal.main_v112)) (after (opsB2 (F := Ideal)) (after (opsD1 (F := Ideal)) VR) (Proc.devRef .tc Cert.ReferenceIdeal.main_v119))))))) := by
  after_results_simp
  try rfl

theorem scat2 (VR : RV) :
    after (opsC2 (F := Ideal)) VR (Proc.devRef .tc Cert.ReferenceIdeal.main_v154)
      = (fun i => shapeCast Cert.ReferenceIdeal.S20000x128
          (Host.scatterAdd (F := Ideal) Cert.ReferenceIdeal.scatter_S20000x4x32_S640000x1_S640000x4x32_12_0_0_1
            (broadcastInDim Cert.ReferenceIdeal.S20000x4x32 ![] Cert.ReferenceIdeal.Gen.bcast_S_S20000x4x32 (constant (F := Ideal) Cert.ReferenceIdeal.S_ .f32 0x00000000#32))
            (broadcastInDim Cert.ReferenceIdeal.S640000x1 ![0] Cert.ReferenceIdeal.Gen.bcast_S640000_S640000x1_0 (VR (Proc.devRef .tc Cert.ReferenceIdeal.main_arg2)))
            (mulf
              (broadcastInDim Cert.ReferenceIdeal.S640000x4x32 ![0, 1, 2] Cert.ReferenceIdeal.Gen.bcast_S640000x1x32_S640000x4x32_0_1_2
                (broadcastInDim Cert.ReferenceIdeal.S640000x1x32 ![0, 2] Cert.ReferenceIdeal.Gen.bcast_S640000x32_S640000x1x32_0_2 (VR (Proc.devRef .tc Cert.ReferenceIdeal.main_v145))))
              (broadcastInDim Cert.ReferenceIdeal.S640000x4x32 ![0, 1, 2] Cert.ReferenceIdeal.Gen.bcast_S640000x4x1_S640000x4x32_0_1_2
                (broadcastInDim Cert.ReferenceIdeal.S640000x4x1 ![0, 1] Cert.ReferenceIdeal.Gen.bcast_S640000x4_S640000x4x1_0_1 (VR (Proc.devRef .tc Cert.ReferenceIdeal.main_v128))))))
          Cert.ReferenceIdeal.Gen.shapeCasts_S20000x4x32_S20000x128 i) := by
  after_results_simp
  try rfl

end Cert.Steps

end
-- ==== Proof.Steps3.lean ====
import proofs.«428890_j15479062135603_3_alg».proof.Proof.Gen.KernelIdeal.Launch
import proofs.«428890_j15479062135603_3_alg».proof.Proof.RefOps2
import proofs.«428890_j15479062135603_3_alg».proof.Proof.RefOps3
import proofs.«428890_j15479062135603_3_alg».proof.Proof.Steps1
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps0_1 hostOps0_2 hostOps1 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7)
open Cert.ReferenceIdeal.RefRun

set_option maxHeartbeats 1000000 in

theorem norm3 (VK : KV) (VR : RV) (ha2 : VK (Proc.devRef .tc Cert.KernelIdeal.main_arg2) = VR (Proc.devRef .tc Cert.ReferenceIdeal.main_arg2)) :
    after (hostOps0_2 (F := Ideal)) (after (hostOps0_1 (F := Ideal)) (after (hostOps0 (F := Ideal)) (VK))) (Proc.devRef .tc Cert.KernelIdeal.main_v7) = after (opsB3 (F := Ideal)) (after (opsD2 (F := Ideal)) VR) (Proc.devRef .tc Cert.ReferenceIdeal.main_v222) := by
  after_results_simp
  rw [ha2]
  refine congrArg₂ (Host.powf (F := Ideal)) ?_ rfl
  change maximumf _ _ = maximumf _ _
  refine (maximumf_comm _ _).trans (congrArg₂ maximumf ?_ ?_)
  · rfl
  · change Host.scatterAdd _ _ _ _ = Host.scatterAdd _ _ _ _
    rfl

set_option maxHeartbeats 1000000 in

theorem pre3_al (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v113)) = VR (Proc.devRef .tc Cert.ReferenceIdeal.main_v154))
    (ha1 : VK (Proc.devRef .tc Cert.KernelIdeal.main_arg1) = VR (Proc.devRef .tc Cert.ReferenceIdeal.main_arg1))
    (ha3 : VK (Proc.devRef .tc Cert.KernelIdeal.main_arg3) = VR (Proc.devRef .tc Cert.ReferenceIdeal.main_arg3))
    (ha19 : VK (Proc.devRef .tc Cert.KernelIdeal.main_arg19) = VR (Proc.devRef .tc Cert.ReferenceIdeal.main_arg19))
    (ha20 : VK (Proc.devRef .tc Cert.KernelIdeal.main_arg20) = VR (Proc.devRef .tc Cert.ReferenceIdeal.main_arg20))
    (ha21 : VK (Proc.devRef .tc Cert.KernelIdeal.main_arg21) = VR (Proc.devRef .tc Cert.ReferenceIdeal.main_arg21))
    (ha22 : VK (Proc.devRef .tc Cert.KernelIdeal.main_arg22) = VR (Proc.devRef .tc Cert.ReferenceIdeal.main_arg22))
    (ha23 : VK (Proc.devRef .tc Cert.KernelIdeal.main_arg23) = VR (Proc.devRef .tc Cert.ReferenceIdeal.main_arg23))
    (ha24 : VK (Proc.devRef .tc Cert.KernelIdeal.main_arg24) = VR (Proc.devRef .tc Cert.ReferenceIdeal.main_arg24)) :
    after (hostOps3_4 (F := Ideal)) (after (hostOps3_3 (F := Ideal)) (after (hostOps3_2 (F := Ideal)) (after (hostOps3_1 (F := Ideal)) (after (hostOps3 (F := Ideal)) (VK))))) (Proc.devRef .tc Cert.KernelIdeal.main_v164) = after (opsB3 (F := Ideal)) (after (opsD2 (F := Ideal)) VR) (Proc.devRef .tc Cert.ReferenceIdeal.main_v199) := by
  after_results_simp
  simp only [hM, ha1, ha3, ha19, ha20, ha21, ha22, ha23, ha24]
  try rfl

set_option maxHeartbeats 1000000 in

theorem pre3_ar (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v113)) = VR (Proc.devRef .tc Cert.ReferenceIdeal.main_v154))
    (ha2 : VK (Proc.devRef .tc Cert.KernelIdeal.main_arg2) = VR (Proc.devRef .tc Cert.ReferenceIdeal.main_arg2))
    (ha3 : VK (Proc.devRef .tc Cert.KernelIdeal.main_arg3) = VR (Proc.devRef .tc Cert.ReferenceIdeal.main_arg3))
    (ha19 : VK (Proc.devRef .tc Cert.KernelIdeal.main_arg19) = VR (Proc.devRef .tc Cert.ReferenceIdeal.main_arg19))
    (ha20 : VK (Proc.devRef .tc Cert.KernelIdeal.main_arg20) = VR (Proc.devRef .tc Cert.ReferenceIdeal.main_arg20))
    (ha21 : VK (Proc.devRef .tc Cert.KernelIdeal.main_arg21) = VR (Proc.devRef .tc Cert.ReferenceIdeal.main_arg21))
    (ha22 : VK (Proc.devRef .tc Cert.KernelIdeal.main_arg22) = VR (Proc.devRef .tc Cert.ReferenceIdeal.main_arg22))
    (ha25 : VK (Proc.devRef .tc Cert.KernelIdeal.main_arg25) = VR (Proc.devRef .tc Cert.ReferenceIdeal.main_arg25))
    (ha26 : VK (Proc.devRef .tc Cert.KernelIdeal.main_arg26) = VR (Proc.devRef .tc Cert.ReferenceIdeal.main_arg26)) :
    after (hostOps3_4 (F := Ideal)) (after (hostOps3_3 (F := Ideal)) (after (hostOps3_2 (F := Ideal)) (after (hostOps3_1 (F := Ideal)) (after (hostOps3 (F := Ideal)) (VK))))) (Proc.devRef .tc Cert.KernelIdeal.main_v171) = after (opsB3 (F := Ideal)) (after (opsD2 (F := Ideal)) VR) (Proc.devRef .tc Cert.ReferenceIdeal.main_v206) := by
  after_results_simp
  simp only [hM]
  simp only [ha2, ha3, ha19, ha20, ha21, ha22, ha25, ha26]
  try rfl

set_option maxHeartbeats 1000000 in

theorem pre3_h (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v113)) = VR (Proc.devRef .tc Cert.ReferenceIdeal.main_v154))
    (h7 : VK (Proc.devRef .tc Cert.KernelIdeal.main_v7) = after (opsB3 (F := Ideal)) (after (opsD2 (F := Ideal)) VR) (Proc.devRef .tc Cert.ReferenceIdeal.main_v222))
    (ha1 : VK (Proc.devRef .tc Cert.KernelIdeal.main_arg1) = VR (Proc.devRef .tc Cert.ReferenceIdeal.main_arg1))
    (ha3 : VK (Proc.devRef .tc Cert.KernelIdeal.main_arg3) = VR (Proc.devRef .tc Cert.ReferenceIdeal.main_arg3))
    (ha19 : VK (Proc.devRef .tc Cert.KernelIdeal.main_arg19) = VR (Proc.devRef .tc Cert.ReferenceIdeal.main_arg19))
    (ha20 : VK (Proc.devRef .tc Cert.KernelIdeal.main_arg20) = VR (Proc.devRef .tc Cert.ReferenceIdeal.main_arg20))
    (ha21 : VK (Proc.devRef .tc Cert.KernelIdeal.main_arg21) = VR (Proc.devRef .tc Cert.ReferenceIdeal.main_arg21))
    (ha22 : VK (Proc.devRef .tc Cert.KernelIdeal.main_arg22) = VR (Proc.devRef .tc Cert.ReferenceIdeal.main_arg22)) :
    after (hostOps3_4 (F := Ideal)) (after (hostOps3_3 (F := Ideal)) (after (hostOps3_2 (F := Ideal)) (after (hostOps3_1 (F := Ideal)) (after (hostOps3 (F := Ideal)) (VK))))) (Proc.devRef .tc Cert.KernelIdeal.main_v178) = after (opsB3 (F := Ideal)) (after (opsD2 (F := Ideal)) VR) (Proc.devRef .tc Cert.ReferenceIdeal.main_v232) := by
  after_results_simp
  simp only [hM, h7, ha1, ha3, ha19, ha20, ha21, ha22]
  after_results_simp
  try rfl

set_option maxHeartbeats 1000000 in

theorem gate3 (VR : RV) :
    after (opsB3 (F := Ideal)) (after (opsD2 (F := Ideal)) VR) (Proc.devRef .tc Cert.ReferenceIdeal.main_v215)
      = Host.divf (F := Ideal) (broadcastInDim Cert.ReferenceIdeal.S640000x4 ![] Cert.ReferenceIdeal.Gen.bcast_S_S640000x4 (constant (F := Ideal) Cert.ReferenceIdeal.S_ .f32 0x3F800000#32))
          (addf (broadcastInDim Cert.ReferenceIdeal.S640000x4 ![] Cert.ReferenceIdeal.Gen.bcast_S_S640000x4 (constant (F := Ideal) Cert.ReferenceIdeal.S_ .f32 0x3F800000#32))
            (Host.exp (Host.negf (mulf (broadcastInDim Cert.ReferenceIdeal.S640000x4 ![] Cert.ReferenceIdeal.Gen.bcast_S_S640000x4 (constant (F := Ideal) Cert.ReferenceIdeal.S_ .f32 0x40C00000#32))
              (addf (after (opsB3 (F := Ideal)) (after (opsD2 (F := Ideal)) VR) (Proc.devRef .tc Cert.ReferenceIdeal.main_v199)) (after (opsB3 (F := Ideal)) (after (opsD2 (F := Ideal)) VR) (Proc.devRef .tc Cert.ReferenceIdeal.main_v206))))))) := by
  after_results_simp
  try rfl

theorem scat3 (VR : RV) :
    after (opsC3 (F := Ideal)) VR (Proc.devRef .tc Cert.ReferenceIdeal.main_v241)
      = (fun i => shapeCast Cert.ReferenceIdeal.S20000x128
          (Host.scatterAdd (F := Ideal) Cert.ReferenceIdeal.scatter_S20000x4x32_S640000x1_S640000x4x32_12_0_0_1
            (broadcastInDim Cert.ReferenceIdeal.S20000x4x32 ![] Cert.ReferenceIdeal.Gen.bcast_S_S20000x4x32 (constant (F := Ideal) Cert.ReferenceIdeal.S_ .f32 0x00000000#32))
            (broadcastInDim Cert.ReferenceIdeal.S640000x1 ![0] Cert.ReferenceIdeal.Gen.bcast_S640000_S640000x1_0 (VR (Proc.devRef .tc Cert.ReferenceIdeal.main_arg2)))
            (mulf
              (broadcastInDim Cert.ReferenceIdeal.S640000x4x32 ![0, 1, 2] Cert.ReferenceIdeal.Gen.bcast_S640000x1x32_S640000x4x32_0_1_2
                (broadcastInDim Cert.ReferenceIdeal.S640000x1x32 ![0, 2] Cert.ReferenceIdeal.Gen.bcast_S640000x32_S640000x1x32_0_2 (VR (Proc.devRef .tc Cert.ReferenceIdeal.main_v232))))
              (broadcastInDim Cert.ReferenceIdeal.S640000x4x32 ![0, 1, 2] Cert.ReferenceIdeal.Gen.bcast_S640000x4x1_S640000x4x32_0_1_2
                (broadcastInDim Cert.ReferenceIdeal.S640000x4x1 ![0, 1] Cert.ReferenceIdeal.Gen.bcast_S640000x4_S640000x4x1_0_1 (VR (Proc.devRef .tc Cert.ReferenceIdeal.main_v215))))))
          Cert.ReferenceIdeal.Gen.shapeCasts_S20000x4x32_S20000x128 i) := by
  after_results_simp
  try rfl

end Cert.Steps

end
-- ==== Proof.Steps4.lean ====
import proofs.«428890_j15479062135603_3_alg».proof.Proof.Gen.KernelIdeal.Launch
import proofs.«428890_j15479062135603_3_alg».proof.Proof.RefOps3
import proofs.«428890_j15479062135603_3_alg».proof.Proof.Steps1
import Idealize.ShloMosaic.Lib.StableHlo.Run
import Idealize.ShloMosaic.PureOps.Ideal

set_option maxRecDepth 16384

noncomputable section

namespace Cert.Steps

open Idealize.ShloMosaic Idealize.ShloMosaic.TcCoe Idealize.SL.Sem Idealize.ShloMosaic.StableHlo
open Cert.KernelIdeal.Gen (hostOps0 hostOps0_1 hostOps0_2 hostOps1 hostOps2 hostOps2_1 hostOps2_2 hostOps2_3 hostOps2_4 hostOps3 hostOps3_1 hostOps3_2 hostOps3_3 hostOps3_4 hostOps4 hostOps4_1 hostOps4_2 hostOps4_3 hostOps4_4 hostOps4_5 hostOps4_6 hostOps4_7)
open Cert.ReferenceIdeal.RefRun

set_option maxHeartbeats 1000000 in

theorem tail (VK : KV) (VR : RV)
    (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (VK (Proc.devRef .tc Cert.KernelIdeal.main_arg2)))
        (VK (Proc.devRef .tc Cert.KernelIdeal.main_v179)) = VR (Proc.devRef .tc Cert.ReferenceIdeal.main_v241))
    (ha3 : VK (Proc.devRef .tc Cert.KernelIdeal.main_arg3) = VR (Proc.devRef .tc Cert.ReferenceIdeal.main_arg3))
    (ha27 : VK (Proc.devRef .tc Cert.KernelIdeal.main_arg27) = VR (Proc.devRef .tc Cert.ReferenceIdeal.main_arg27))
    (ha28 : VK (Proc.devRef .tc Cert.KernelIdeal.main_arg28) = VR (Proc.devRef .tc Cert.ReferenceIdeal.main_arg28))
    (ha29 : VK (Proc.devRef .tc Cert.KernelIdeal.main_arg29) = VR (Proc.devRef .tc Cert.ReferenceIdeal.main_arg29))
    (ha30 : VK (Proc.devRef .tc Cert.KernelIdeal.main_arg30) = VR (Proc.devRef .tc Cert.ReferenceIdeal.main_arg30))
    (ha31 : VK (Proc.devRef .tc Cert.KernelIdeal.main_arg31) = VR (Proc.devRef .tc Cert.ReferenceIdeal.main_arg31))
    (ha32 : VK (Proc.devRef .tc Cert.KernelIdeal.main_arg32) = VR (Proc.devRef .tc Cert.ReferenceIdeal.main_arg32)) :
    after (hostOps4_7 (F := Ideal)) (after (hostOps4_6 (F := Ideal)) (after (hostOps4_5 (F := Ideal)) (after (hostOps4_4 (F := Ideal)) (after (hostOps4_3 (F := Ideal)) (after (hostOps4_2 (F := Ideal)) (after (hostOps4_1 (F := Ideal)) (after (hostOps4 (F := Ideal)) (VK)))))))) (Proc.devRef .tc Cert.KernelIdeal.main_v218) = after (opsT (F := Ideal)) VR (Proc.devRef .tc Cert.ReferenceIdeal.main_v277) := by
  after_results_simp
  simp only [hM, ha3, ha27, ha28, ha29, ha30, ha31, ha32]
  try rfl

end Cert.Steps

end
-- ==== Proof.Sim.lean ====
import proofs.«428890_j15479062135603_3_alg».proof.Proof.Gen.KernelIdeal.Frame
import proofs.«428890_j15479062135603_3_alg».proof.Proof.KKept
import proofs.«428890_j15479062135603_3_alg».proof.Proof.EmbedValue
import proofs.«428890_j15479062135603_3_alg».proof.Proof.MEmbed
import proofs.«428890_j15479062135603_3_alg».proof.Proof.MsgValue1
import proofs.«428890_j15479062135603_3_alg».proof.Proof.MCore
import proofs.«428890_j15479062135603_3_alg».proof.Proof.RefRun
import proofs.«428890_j15479062135603_3_alg».proof.Proof.MsgValue2
import proofs.«428890_j15479062135603_3_alg».proof.Proof.MsgValue3
import proofs.«428890_j15479062135603_3_alg».proof.Proof.Steps1
import proofs.«428890_j15479062135603_3_alg».proof.Proof.Steps2
import proofs.«428890_j15479062135603_3_alg».proof.Proof.Steps3
import proofs.«428890_j15479062135603_3_alg».proof.Proof.Steps4
import Idealize.ShloMosaic.Lib.StableHlo.Run
import Idealize.ShloMosaic.PureOps.Ideal

set_option maxRecDepth 16384

noncomputable section

namespace Cert.Sim

open Idealize.ShloMosaic Idealize.ShloMosaic.TcCoe Idealize.SL.Sem Idealize.ShloMosaic.StableHlo
open Idealize.ShloMosaic.ValueIdx
open Cert.ReferenceIdeal.RefRun
open Cert.Steps (KV RV)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

def RV0 : RV := launchContents m' c
def RVA : RV := after (opsA (F := Ideal)) (RV0 m' c)
def RVB1 : RV := after (opsB1 (F := Ideal)) (RVA m' c)
def RVC1 : RV := after (opsC1 (F := Ideal)) (RVB1 m' c)
def RVB2 : RV := after (opsB2 (F := Ideal)) (after (opsD1 (F := Ideal)) (RVC1 m' c))
def RVC2 : RV := after (opsC2 (F := Ideal)) (RVB2 m' c)
def RVB3 : RV := after (opsB3 (F := Ideal)) (after (opsD2 (F := Ideal)) (RVC2 m' c))
def RVC3 : RV := after (opsC3 (F := Ideal)) (RVB3 m' c)

theorem rA (r : Ref Cert.ReferenceIdeal.sig .tc) (hA : r ∉ writtenA) :
    RVA m' c (Proc.devRef .tc r) = m' ((c.tc : Thread Cert.ReferenceIdeal.nD Cert.ReferenceIdeal.τ).loc r) := lineA.keep _ hA
theorem rB1 (r : Ref Cert.ReferenceIdeal.sig .tc) (hA : r ∉ writtenA) (hB1 : r ∉ writtenB1) :
    RVB1 m' c (Proc.devRef .tc r) = m' ((c.tc : Thread Cert.ReferenceIdeal.nD Cert.ReferenceIdeal.τ).loc r) :=
  (lineB1.keep _ hB1).trans (rA m' c r hA)
theorem rC1 (r : Ref Cert.ReferenceIdeal.sig .tc) (hA : r ∉ writtenA) (hB1 : r ∉ writtenB1) (hC1 : r ∉ writtenC1) :
    RVC1 m' c (Proc.devRef .tc r) = m' ((c.tc : Thread Cert.ReferenceIdeal.nD Cert.ReferenceIdeal.τ).loc r) :=
  (lineC1.keep _ hC1).trans (rB1 m' c r hA hB1)
theorem rB2 (r : Ref Cert.ReferenceIdeal.sig .tc) (hA : r ∉ writtenA) (hB1 : r ∉ writtenB1) (hC1 : r ∉ writtenC1)
    (hD1 : r ∉ writtenD1) (hB2 : r ∉ writtenB2) :
    RVB2 m' c (Proc.devRef .tc r) = m' ((c.tc : Thread Cert.ReferenceIdeal.nD Cert.ReferenceIdeal.τ).loc r) :=
  (lineB2.keep _ hB2).trans ((lineD1.keep _ hD1).trans (rC1 m' c r hA hB1 hC1))
theorem rC2 (r : Ref Cert.ReferenceIdeal.sig .tc) (hA : r ∉ writtenA) (hB1 : r ∉ writtenB1) (hC1 : r ∉ writtenC1)
    (hD1 : r ∉ writtenD1) (hB2 : r ∉ writtenB2) (hC2 : r ∉ writtenC2) :
    RVC2 m' c (Proc.devRef .tc r) = m' ((c.tc : Thread Cert.ReferenceIdeal.nD Cert.ReferenceIdeal.τ).loc r) :=
  (lineC2.keep _ hC2).trans (rB2 m' c r hA hB1 hC1 hD1 hB2)
theorem rB3 (r : Ref Cert.ReferenceIdeal.sig .tc) (hA : r ∉ writtenA) (hB1 : r ∉ writtenB1) (hC1 : r ∉ writtenC1)
    (hD1 : r ∉ writtenD1) (hB2 : r ∉ writtenB2) (hC2 : r ∉ writtenC2) (hD2 : r ∉ writtenD2) (hB3 : r ∉ writtenB3) :
    RVB3 m' c (Proc.devRef .tc r) = m' ((c.tc : Thread Cert.ReferenceIdeal.nD Cert.ReferenceIdeal.τ).loc r) :=
  (lineB3.keep _ hB3).trans ((lineD2.keep _ hD2).trans (rC2 m' c r hA hB1 hC1 hD1 hB2 hC2))
theorem rC3 (r : Ref Cert.ReferenceIdeal.sig .tc) (hA : r ∉ writtenA) (hB1 : r ∉ writtenB1) (hC1 : r ∉ writtenC1)
    (hD1 : r ∉ writtenD1) (hB2 : r ∉ writtenB2) (hC2 : r ∉ writtenC2) (hD2 : r ∉ writtenD2) (hB3 : r ∉ writtenB3)
    (hC3 : r ∉ writtenC3) :
    RVC3 m' c (Proc.devRef .tc r) = m' ((c.tc : Thread Cert.ReferenceIdeal.nD Cert.ReferenceIdeal.τ).loc r) :=
  (lineC3.keep _ hC3).trans (rB3 m' c r hA hB1 hC1 hD1 hB2 hC2 hD2 hB3)

/-- The reference's argument `r` and the kernel program's argument `k` are launched with the same contents (their types agree at each
    pair of corresponding arguments, not for arbitrary `k` and `r`: hence the heterogeneous equality). -/
abbrev Agree (k : Ref Cert.KernelIdeal.sig .tc) (r : Ref Cert.ReferenceIdeal.sig .tc) : Prop :=
  HEq (m' ((c.tc : Thread Cert.ReferenceIdeal.nD Cert.ReferenceIdeal.τ).loc r)) (m ((c.tc : Thread Cert.KernelIdeal.nD Cert.KernelIdeal.τ).loc k))

section
open Cert.KernelIdeal.KKept
variable {k : Ref Cert.KernelIdeal.sig .tc} {r : Ref Cert.ReferenceIdeal.sig .tc}

/-- Arguments launched equal, and written by neither program so far, read the same through both folds. -/
theorem arg4 (h : Agree m m' c k r) (hk : k ∉ hostWritten := by decide) (hk' : k ∉ regionArrays := by decide)
    (hA : r ∉ writtenA := by decide) :
    HEq (Cert.KernelIdeal.Gen.W4 m ρ c (Proc.devRef .tc k)) (RVA m' c (Proc.devRef .tc r)) :=
  (heq_of_eq (kept4 m ρ c k hk hk')).trans ((HEq.symm h).trans (heq_of_eq (rA m' c r hA).symm))
theorem arg6 (h : Agree m m' c k r) (hk : k ∉ hostWritten := by decide) (hk' : k ∉ regionArrays := by decide)
    (hA : r ∉ writtenA := by decide) (hB1 : r ∉ writtenB1 := by decide) (hC1 : r ∉ writtenC1 := by decide) :
    HEq (Cert.KernelIdeal.Gen.W6 m ρ c (Proc.devRef .tc k)) (RVC1 m' c (Proc.devRef .tc r)) :=
  (heq_of_eq (kept6 m ρ c k hk hk')).trans ((HEq.symm h).trans (heq_of_eq (rC1 m' c r hA hB1 hC1).symm))
theorem arg12 (h : Agree m m' c k r) (hk : k ∉ hostWritten := by decide) (hk' : k ∉ regionArrays := by decide)
    (hA : r ∉ writtenA := by decide) (hB1 : r ∉ writtenB1 := by decide) (hC1 : r ∉ writtenC1 := by decide)
    (hD1 : r ∉ writtenD1 := by decide) (hB2 : r ∉ writtenB2 := by decide) (hC2 : r ∉ writtenC2 := by decide) :
    HEq (Cert.KernelIdeal.Gen.W12 m ρ c (Proc.devRef .tc k)) (RVC2 m' c (Proc.devRef .tc r)) :=
  (heq_of_eq (kept12 m ρ c k hk hk')).trans ((HEq.symm h).trans (heq_of_eq (rC2 m' c r hA hB1 hC1 hD1 hB2 hC2).symm))
theorem arg18 (h : Agree m m' c k r) (hk : k ∉ hostWritten := by decide) (hk' : k ∉ regionArrays := by decide)
    (hA : r ∉ writtenA := by decide) (hB1 : r ∉ writtenB1 := by decide) (hC1 : r ∉ writtenC1 := by decide)
    (hD1 : r ∉ writtenD1 := by decide) (hB2 : r ∉ writtenB2 := by decide) (hC2 : r ∉ writtenC2 := by decide)
    (hD2 : r ∉ writtenD2 := by decide) (hB3 : r ∉ writtenB3 := by decide) (hC3 : r ∉ writtenC3 := by decide) :
    HEq (Cert.KernelIdeal.Gen.W18 m ρ c (Proc.devRef .tc k)) (RVC3 m' c (Proc.devRef .tc r)) :=
  (heq_of_eq (kept18 m ρ c k hk hk')).trans ((HEq.symm h).trans (heq_of_eq (rC3 m' c r hA hB1 hC1 hD1 hB2 hC2 hD2 hB3 hC3).symm))
end

theorem feat0 (hx : ∀ n : Fin 20000, 0 ≤ ((m ((c.tc : Thread Cert.KernelIdeal.nD Cert.KernelIdeal.τ).loc Cert.KernelIdeal.main_arg0) : IVec Cert.KernelIdeal.S20000 32) (ix1 n)).toInt ∧ ((m ((c.tc : Thread Cert.KernelIdeal.nD Cert.KernelIdeal.τ).loc Cert.KernelIdeal.main_arg0) : IVec Cert.KernelIdeal.S20000 32) (ix1 n)).toInt < 200)
    (h0 : Agree m m' c Cert.KernelIdeal.main_arg0 Cert.ReferenceIdeal.main_arg0)
    (h4 : Agree m m' c Cert.KernelIdeal.main_arg4 Cert.ReferenceIdeal.main_arg4) :
    Cert.KernelIdeal.Gen.W4 m ρ c (Proc.devRef .tc Cert.KernelIdeal.main_v10) = RVA m' c (Proc.devRef .tc Cert.ReferenceIdeal.main_v6) := by
  have e1 : Cert.KernelIdeal.Gen.W4 m ρ c (Proc.devRef .tc Cert.KernelIdeal.main_v10) = (Cert.KernelIdeal.Gen.dat0 (F := Ideal) (Cert.KernelIdeal.Gen.V3 m ρ) c).arrAt 2 Cert.KernelIdeal.cfg0.N := Cert.KernelIdeal.Gen.W4_arr m ρ c 2
  have e2 : Cert.KernelIdeal.Gen.V3 m ρ c (Pipeline.arrRef Cert.KernelIdeal.spec0 0)
      = (fun i => shapeCast Cert.KernelIdeal.S20000x1 (minsi (broadcastInDim Cert.KernelIdeal.S20000 ![] Cert.KernelIdeal.Gen.bcast_S_S20000 (constantI Cert.KernelIdeal.S_ 32 199#32)) (maxsi (broadcastInDim Cert.KernelIdeal.S20000 ![] Cert.KernelIdeal.Gen.bcast_S_S20000 (constantI Cert.KernelIdeal.S_ 32 0#32)) (m ((c.tc : Thread Cert.KernelIdeal.nD Cert.KernelIdeal.τ).loc Cert.KernelIdeal.main_arg0)))) Cert.KernelIdeal.Gen.shapeCasts_S20000_S20000x1 i) := by
    show after (Cert.KernelIdeal.Gen.hostOps0_2 (F := Ideal)) (after (Cert.KernelIdeal.Gen.hostOps0_1 (F := Ideal)) (after (Cert.KernelIdeal.Gen.hostOps0 (F := Ideal)) (Cert.KernelIdeal.Gen.W0 m ρ c))) (Proc.devRef .tc Cert.KernelIdeal.main_v9) = _
    after_results_simp
    rfl
  have e3 : Cert.KernelIdeal.Gen.V3 m ρ c (Pipeline.arrRef Cert.KernelIdeal.spec0 1) = m ((c.tc : Thread Cert.KernelIdeal.nD Cert.KernelIdeal.τ).loc Cert.KernelIdeal.main_arg4) :=
    Cert.KernelIdeal.KKept.kept3 m ρ c Cert.KernelIdeal.main_arg4 (by decide)
  have e4 : RVA m' c (Proc.devRef .tc Cert.ReferenceIdeal.main_v6)
      = Host.gather Cert.ReferenceIdeal.gather_S200x128_S20000x1_S20000x128_1_0_n_n_0_1_1128 (m' ((c.tc : Thread Cert.ReferenceIdeal.nD Cert.ReferenceIdeal.τ).loc Cert.ReferenceIdeal.main_arg4))
          (broadcastInDim Cert.ReferenceIdeal.S20000x1 ![0] Cert.ReferenceIdeal.Gen.bcast_S20000_S20000x1_0
            (select (cmpi .slt (m' ((c.tc : Thread Cert.ReferenceIdeal.nD Cert.ReferenceIdeal.τ).loc Cert.ReferenceIdeal.main_arg0)) (broadcastInDim Cert.ReferenceIdeal.S20000 ![] Cert.ReferenceIdeal.Gen.bcast_S_S20000 (constantI Cert.ReferenceIdeal.S_ 32 0#32)))
              (addi (m' ((c.tc : Thread Cert.ReferenceIdeal.nD Cert.ReferenceIdeal.τ).loc Cert.ReferenceIdeal.main_arg0)) (broadcastInDim Cert.ReferenceIdeal.S20000 ![] Cert.ReferenceIdeal.Gen.bcast_S_S20000 (constantI Cert.ReferenceIdeal.S_ 32 200#32))) (m' ((c.tc : Thread Cert.ReferenceIdeal.nD Cert.ReferenceIdeal.τ).loc Cert.ReferenceIdeal.main_arg0)))) := by
    show after (opsA (F := Ideal)) (launchContents m' c) (Proc.devRef .tc Cert.ReferenceIdeal.main_v6) = _
    after_results_simp
    try rfl
  rw [e1, Cert.KernelIdeal.EmbedValue.final0 (Cert.KernelIdeal.Gen.V3 m ρ) c, e2, e3, e4, eq_of_heq h0, eq_of_heq h4]
  exact Cert.MEmbed.membed (m ((c.tc : Thread Cert.KernelIdeal.nD Cert.KernelIdeal.τ).loc Cert.KernelIdeal.main_arg0)) (m ((c.tc : Thread Cert.KernelIdeal.nD Cert.KernelIdeal.τ).loc Cert.KernelIdeal.main_arg4)) hx

theorem norm1 (h2 : Agree m m' c Cert.KernelIdeal.main_arg2 Cert.ReferenceIdeal.main_arg2) :
    Cert.KernelIdeal.Gen.W4 m ρ c (Proc.devRef .tc Cert.KernelIdeal.main_v7) = after (opsB1 (F := Ideal)) (RVA m' c) (Proc.devRef .tc Cert.ReferenceIdeal.main_v48) :=
  (Cert.KernelIdeal.KKept.v7_kept m ρ c).1.trans
    (Cert.Steps.norm1 (Cert.KernelIdeal.Gen.W0 m ρ c) (RVA m' c) ((eq_of_heq h2).symm.trans (rA m' c Cert.ReferenceIdeal.main_arg2 (by decide)).symm))

theorem gathered1 (hx : ∀ n : Fin 20000, 0 ≤ ((m ((c.tc : Thread Cert.KernelIdeal.nD Cert.KernelIdeal.τ).loc Cert.KernelIdeal.main_arg0) : IVec Cert.KernelIdeal.S20000 32) (ix1 n)).toInt ∧ ((m ((c.tc : Thread Cert.KernelIdeal.nD Cert.KernelIdeal.τ).loc Cert.KernelIdeal.main_arg0) : IVec Cert.KernelIdeal.S20000 32) (ix1 n)).toInt < 200)
    (h0 : Agree m m' c Cert.KernelIdeal.main_arg0 Cert.ReferenceIdeal.main_arg0)
    (h4 : Agree m m' c Cert.KernelIdeal.main_arg4 Cert.ReferenceIdeal.main_arg4)
    (h1 : Agree m m' c Cert.KernelIdeal.main_arg1 Cert.ReferenceIdeal.main_arg1)
    (h2 : Agree m m' c Cert.KernelIdeal.main_arg2 Cert.ReferenceIdeal.main_arg2)
    (h5 : Agree m m' c Cert.KernelIdeal.main_arg5 Cert.ReferenceIdeal.main_arg5)
    (h6 : Agree m m' c Cert.KernelIdeal.main_arg6 Cert.ReferenceIdeal.main_arg6)
    (h7 : Agree m m' c Cert.KernelIdeal.main_arg7 Cert.ReferenceIdeal.main_arg7)
    (h8 : Agree m m' c Cert.KernelIdeal.main_arg8 Cert.ReferenceIdeal.main_arg8)
    (h9 : Agree m m' c Cert.KernelIdeal.main_arg9 Cert.ReferenceIdeal.main_arg9)
    (h10 : Agree m m' c Cert.KernelIdeal.main_arg10 Cert.ReferenceIdeal.main_arg10) :
    Cert.KernelIdeal.Gen.W5 m ρ c (Proc.devRef .tc Cert.KernelIdeal.main_v32) = RVB1 m' c (Proc.devRef .tc Cert.ReferenceIdeal.main_v25)
    ∧ Cert.KernelIdeal.Gen.W5 m ρ c (Proc.devRef .tc Cert.KernelIdeal.main_v39) = RVB1 m' c (Proc.devRef .tc Cert.ReferenceIdeal.main_v32)
    ∧ Cert.KernelIdeal.Gen.W5 m ρ c (Proc.devRef .tc Cert.KernelIdeal.main_v46) = RVB1 m' c (Proc.devRef .tc Cert.ReferenceIdeal.main_v58) :=
  ⟨Cert.Steps.pre1_al (Cert.KernelIdeal.Gen.W4 m ρ c) (RVA m' c) (feat0 m ρ m' c hx h0 h4)
      (eq_of_heq (arg4 m ρ m' c h1))
      (eq_of_heq (arg4 m ρ m' c h5))
      (eq_of_heq (arg4 m ρ m' c h6))
      (eq_of_heq (arg4 m ρ m' c h7))
      (eq_of_heq (arg4 m ρ m' c h8)),
   Cert.Steps.pre1_ar (Cert.KernelIdeal.Gen.W4 m ρ c) (RVA m' c) (feat0 m ρ m' c hx h0 h4)
      (eq_of_heq (arg4 m ρ m' c h2))
      (eq_of_heq (arg4 m ρ m' c h5))
      (eq_of_heq (arg4 m ρ m' c h6))
      (eq_of_heq (arg4 m ρ m' c h9))
      (eq_of_heq (arg4 m ρ m' c h10)),
   Cert.Steps.pre1_h (Cert.KernelIdeal.Gen.W4 m ρ c) (RVA m' c) (feat0 m ρ m' c hx h0 h4) (norm1 m ρ m' c h2)
      (eq_of_heq (arg4 m ρ m' c h1))
      (eq_of_heq (arg4 m ρ m' c h5))
      (eq_of_heq (arg4 m ρ m' c h6))⟩

theorem scattered1
    (hg : Cert.KernelIdeal.Gen.W5 m ρ c (Proc.devRef .tc Cert.KernelIdeal.main_v32) = RVB1 m' c (Proc.devRef .tc Cert.ReferenceIdeal.main_v25)
      ∧ Cert.KernelIdeal.Gen.W5 m ρ c (Proc.devRef .tc Cert.KernelIdeal.main_v39) = RVB1 m' c (Proc.devRef .tc Cert.ReferenceIdeal.main_v32)
      ∧ Cert.KernelIdeal.Gen.W5 m ρ c (Proc.devRef .tc Cert.KernelIdeal.main_v46) = RVB1 m' c (Proc.devRef .tc Cert.ReferenceIdeal.main_v58))
    (h2 : Agree m m' c Cert.KernelIdeal.main_arg2 Cert.ReferenceIdeal.main_arg2) :
    Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W6 m ρ c (Proc.devRef .tc Cert.KernelIdeal.main_arg2)))
        (Cert.KernelIdeal.Gen.W6 m ρ c (Proc.devRef .tc Cert.KernelIdeal.main_v47)) = RVC1 m' c (Proc.devRef .tc Cert.ReferenceIdeal.main_v67) := by
  have e1 : Cert.KernelIdeal.Gen.W6 m ρ c (Proc.devRef .tc Cert.KernelIdeal.main_v47) = (Cert.KernelIdeal.Gen.dat1 (F := Ideal) (Cert.KernelIdeal.Gen.V5 m ρ) c).arrAt 3 Cert.KernelIdeal.cfg1.N := Cert.KernelIdeal.Gen.W6_arr m ρ c 3
  have e2 : Cert.KernelIdeal.Gen.W6 m ρ c (Proc.devRef .tc Cert.KernelIdeal.main_arg2) = m ((c.tc : Thread Cert.KernelIdeal.nD Cert.KernelIdeal.τ).loc Cert.KernelIdeal.main_arg2) :=
    Cert.KernelIdeal.KKept.kept6 m ρ c Cert.KernelIdeal.main_arg2 (by decide) (by decide)
  have e3 := Cert.Steps.scat1 (RVB1 m' c)
  have e4 : RVB1 m' c (Proc.devRef .tc Cert.ReferenceIdeal.main_v41) = (Host.divf (F := Ideal) (broadcastInDim Cert.ReferenceIdeal.S640000x8 ![] Cert.ReferenceIdeal.Gen.bcast_S_S640000x8 (constant (F := Ideal) Cert.ReferenceIdeal.S_ .f32 0x3F800000#32))
          (addf (broadcastInDim Cert.ReferenceIdeal.S640000x8 ![] Cert.ReferenceIdeal.Gen.bcast_S_S640000x8 (constant (F := Ideal) Cert.ReferenceIdeal.S_ .f32 0x3F800000#32))
            (Host.exp (Host.negf (mulf (broadcastInDim Cert.ReferenceIdeal.S640000x8 ![] Cert.ReferenceIdeal.Gen.bcast_S_S640000x8 (constant (F := Ideal) Cert.ReferenceIdeal.S_ .f32 0x40C00000#32))
              (addf (RVB1 m' c (Proc.devRef .tc Cert.ReferenceIdeal.main_v25)) (RVB1 m' c (Proc.devRef .tc Cert.ReferenceIdeal.main_v32)))))))) :=
    Cert.Steps.gate1 (RVA m' c)
  have e5 : RVB1 m' c (Proc.devRef .tc Cert.ReferenceIdeal.main_arg2) = m' ((c.tc : Thread Cert.ReferenceIdeal.nD Cert.ReferenceIdeal.τ).loc Cert.ReferenceIdeal.main_arg2) := rB1 m' c Cert.ReferenceIdeal.main_arg2 (by decide) (by decide)
  have a0 : Cert.KernelIdeal.Gen.V5 m ρ c (Pipeline.arrRef Cert.KernelIdeal.spec1 0) = RVB1 m' c (Proc.devRef .tc Cert.ReferenceIdeal.main_v25) := hg.1
  have a1 : Cert.KernelIdeal.Gen.V5 m ρ c (Pipeline.arrRef Cert.KernelIdeal.spec1 1) = RVB1 m' c (Proc.devRef .tc Cert.ReferenceIdeal.main_v32) := hg.2.1
  have a2 : Cert.KernelIdeal.Gen.V5 m ρ c (Pipeline.arrRef Cert.KernelIdeal.spec1 2) = RVB1 m' c (Proc.devRef .tc Cert.ReferenceIdeal.main_v58) := hg.2.2
  rw [e1, Cert.KernelIdeal.MsgValue1.final1 (Cert.KernelIdeal.Gen.V5 m ρ) c, e2, a0, a1, a2]
  refine Eq.trans ?_ e3.symm
  rw [e4, e5, eq_of_heq h2]
  exact Cert.MCore.mcore (N := 20000) (E := 640000) (L := 8) (Fd := 16) (by decide)
    Cert.KernelIdeal.Gen.scatter_S20000x128_S640000x1_S640000x128_1_0_0_1_wf
    Cert.ReferenceIdeal.Gen.scatter_S20000x8x16_S640000x1_S640000x8x16_12_0_0_1_wf _ _ rfl rfl
    Cert.ReferenceIdeal.Gen.shapeCasts_S20000x8x16_S20000x128
    Cert.KernelIdeal.Gen.bcast_S_S20000x128 Cert.ReferenceIdeal.Gen.bcast_S_S20000x8x16
    Cert.KernelIdeal.Gen.bcast_S640000_S640000x1_0
    Cert.ReferenceIdeal.Gen.bcast_S640000x1x16_S640000x8x16_0_1_2 Cert.ReferenceIdeal.Gen.bcast_S640000x16_S640000x1x16_0_2
    Cert.ReferenceIdeal.Gen.bcast_S640000x8x1_S640000x8x16_0_1_2 Cert.ReferenceIdeal.Gen.bcast_S640000x8_S640000x8x1_0_1
    Cert.ReferenceIdeal.Gen.bcast_S_S640000x8 _ _ _ _

theorem norm2 (h2 : Agree m m' c Cert.KernelIdeal.main_arg2 Cert.ReferenceIdeal.main_arg2) :
    Cert.KernelIdeal.Gen.W6 m ρ c (Proc.devRef .tc Cert.KernelIdeal.main_v7) = after (opsB2 (F := Ideal)) (after (opsD1 (F := Ideal)) (RVC1 m' c)) (Proc.devRef .tc Cert.ReferenceIdeal.main_v135) :=
  (Cert.KernelIdeal.KKept.v7_kept m ρ c).2.1.trans
    (Cert.Steps.norm2 (Cert.KernelIdeal.Gen.W0 m ρ c) (RVC1 m' c) ((eq_of_heq h2).symm.trans (rC1 m' c Cert.ReferenceIdeal.main_arg2 (by decide) (by decide) (by decide)).symm))

theorem gathered2 (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W6 m ρ c (Proc.devRef .tc Cert.KernelIdeal.main_arg2)))
        (Cert.KernelIdeal.Gen.W6 m ρ c (Proc.devRef .tc Cert.KernelIdeal.main_v47)) = RVC1 m' c (Proc.devRef .tc Cert.ReferenceIdeal.main_v67))
    (h1 : Agree m m' c Cert.KernelIdeal.main_arg1 Cert.ReferenceIdeal.main_arg1)
    (h2 : Agree m m' c Cert.KernelIdeal.main_arg2 Cert.ReferenceIdeal.main_arg2)
    (h3 : Agree m m' c Cert.KernelIdeal.main_arg3 Cert.ReferenceIdeal.main_arg3)
    (h11 : Agree m m' c Cert.KernelIdeal.main_arg11 Cert.ReferenceIdeal.main_arg11)
    (h12 : Agree m m' c Cert.KernelIdeal.main_arg12 Cert.ReferenceIdeal.main_arg12)
    (h13 : Agree m m' c Cert.KernelIdeal.main_arg13 Cert.ReferenceIdeal.main_arg13)
    (h14 : Agree m m' c Cert.KernelIdeal.main_arg14 Cert.ReferenceIdeal.main_arg14)
    (h15 : Agree m m' c Cert.KernelIdeal.main_arg15 Cert.ReferenceIdeal.main_arg15)
    (h16 : Agree m m' c Cert.KernelIdeal.main_arg16 Cert.ReferenceIdeal.main_arg16)
    (h17 : Agree m m' c Cert.KernelIdeal.main_arg17 Cert.ReferenceIdeal.main_arg17)
    (h18 : Agree m m' c Cert.KernelIdeal.main_arg18 Cert.ReferenceIdeal.main_arg18) :
    Cert.KernelIdeal.Gen.W11 m ρ c (Proc.devRef .tc Cert.KernelIdeal.main_v98) = RVB2 m' c (Proc.devRef .tc Cert.ReferenceIdeal.main_v112)
    ∧ Cert.KernelIdeal.Gen.W11 m ρ c (Proc.devRef .tc Cert.KernelIdeal.main_v105) = RVB2 m' c (Proc.devRef .tc Cert.ReferenceIdeal.main_v119)
    ∧ Cert.KernelIdeal.Gen.W11 m ρ c (Proc.devRef .tc Cert.KernelIdeal.main_v112) = RVB2 m' c (Proc.devRef .tc Cert.ReferenceIdeal.main_v145) :=
  ⟨Cert.Steps.pre2_al (Cert.KernelIdeal.Gen.W6 m ρ c) (RVC1 m' c) hM
      (eq_of_heq (arg6 m ρ m' c h1))
      (eq_of_heq (arg6 m ρ m' c h3))
      (eq_of_heq (arg6 m ρ m' c h11))
      (eq_of_heq (arg6 m ρ m' c h12))
      (eq_of_heq (arg6 m ρ m' c h13))
      (eq_of_heq (arg6 m ρ m' c h14))
      (eq_of_heq (arg6 m ρ m' c h15))
      (eq_of_heq (arg6 m ρ m' c h16)),
   Cert.Steps.pre2_ar (Cert.KernelIdeal.Gen.W6 m ρ c) (RVC1 m' c) hM
      (eq_of_heq (arg6 m ρ m' c h2))
      (eq_of_heq (arg6 m ρ m' c h3))
      (eq_of_heq (arg6 m ρ m' c h11))
      (eq_of_heq (arg6 m ρ m' c h12))
      (eq_of_heq (arg6 m ρ m' c h13))
      (eq_of_heq (arg6 m ρ m' c h14))
      (eq_of_heq (arg6 m ρ m' c h17))
      (eq_of_heq (arg6 m ρ m' c h18)),
   Cert.Steps.pre2_h (Cert.KernelIdeal.Gen.W6 m ρ c) (RVC1 m' c) hM (norm2 m ρ m' c h2)
      (eq_of_heq (arg6 m ρ m' c h1))
      (eq_of_heq (arg6 m ρ m' c h3))
      (eq_of_heq (arg6 m ρ m' c h11))
      (eq_of_heq (arg6 m ρ m' c h12))
      (eq_of_heq (arg6 m ρ m' c h13))
      (eq_of_heq (arg6 m ρ m' c h14))⟩

theorem scattered2
    (hg : Cert.KernelIdeal.Gen.W11 m ρ c (Proc.devRef .tc Cert.KernelIdeal.main_v98) = RVB2 m' c (Proc.devRef .tc Cert.ReferenceIdeal.main_v112)
      ∧ Cert.KernelIdeal.Gen.W11 m ρ c (Proc.devRef .tc Cert.KernelIdeal.main_v105) = RVB2 m' c (Proc.devRef .tc Cert.ReferenceIdeal.main_v119)
      ∧ Cert.KernelIdeal.Gen.W11 m ρ c (Proc.devRef .tc Cert.KernelIdeal.main_v112) = RVB2 m' c (Proc.devRef .tc Cert.ReferenceIdeal.main_v145))
    (h2 : Agree m m' c Cert.KernelIdeal.main_arg2 Cert.ReferenceIdeal.main_arg2) :
    Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W12 m ρ c (Proc.devRef .tc Cert.KernelIdeal.main_arg2)))
        (Cert.KernelIdeal.Gen.W12 m ρ c (Proc.devRef .tc Cert.KernelIdeal.main_v113)) = RVC2 m' c (Proc.devRef .tc Cert.ReferenceIdeal.main_v154) := by
  have e1 : Cert.KernelIdeal.Gen.W12 m ρ c (Proc.devRef .tc Cert.KernelIdeal.main_v113) = (Cert.KernelIdeal.Gen.dat2 (F := Ideal) (Cert.KernelIdeal.Gen.V11 m ρ) c).arrAt 3 Cert.KernelIdeal.cfg2.N := Cert.KernelIdeal.Gen.W12_arr m ρ c 3
  have e2 : Cert.KernelIdeal.Gen.W12 m ρ c (Proc.devRef .tc Cert.KernelIdeal.main_arg2) = m ((c.tc : Thread Cert.KernelIdeal.nD Cert.KernelIdeal.τ).loc Cert.KernelIdeal.main_arg2) :=
    Cert.KernelIdeal.KKept.kept12 m ρ c Cert.KernelIdeal.main_arg2 (by decide) (by decide)
  have e3 := Cert.Steps.scat2 (RVB2 m' c)
  have e4 : RVB2 m' c (Proc.devRef .tc Cert.ReferenceIdeal.main_v128) = (Host.divf (F := Ideal) (broadcastInDim Cert.ReferenceIdeal.S640000x4 ![] Cert.ReferenceIdeal.Gen.bcast_S_S640000x4 (constant (F := Ideal) Cert.ReferenceIdeal.S_ .f32 0x3F800000#32))
          (addf (broadcastInDim Cert.ReferenceIdeal.S640000x4 ![] Cert.ReferenceIdeal.Gen.bcast_S_S640000x4 (constant (F := Ideal) Cert.ReferenceIdeal.S_ .f32 0x3F800000#32))
            (Host.exp (Host.negf (mulf (broadcastInDim Cert.ReferenceIdeal.S640000x4 ![] Cert.ReferenceIdeal.Gen.bcast_S_S640000x4 (constant (F := Ideal) Cert.ReferenceIdeal.S_ .f32 0x40C00000#32))
              (addf (RVB2 m' c (Proc.devRef .tc Cert.ReferenceIdeal.main_v112)) (RVB2 m' c (Proc.devRef .tc Cert.ReferenceIdeal.main_v119)))))))) :=
    Cert.Steps.gate2 (RVC1 m' c)
  have e5 : RVB2 m' c (Proc.devRef .tc Cert.ReferenceIdeal.main_arg2) = m' ((c.tc : Thread Cert.ReferenceIdeal.nD Cert.ReferenceIdeal.τ).loc Cert.ReferenceIdeal.main_arg2) := rB2 m' c Cert.ReferenceIdeal.main_arg2 (by decide) (by decide) (by decide) (by decide) (by decide)
  have a0 : Cert.KernelIdeal.Gen.V11 m ρ c (Pipeline.arrRef Cert.KernelIdeal.spec2 0) = RVB2 m' c (Proc.devRef .tc Cert.ReferenceIdeal.main_v112) := hg.1
  have a1 : Cert.KernelIdeal.Gen.V11 m ρ c (Pipeline.arrRef Cert.KernelIdeal.spec2 1) = RVB2 m' c (Proc.devRef .tc Cert.ReferenceIdeal.main_v119) := hg.2.1
  have a2 : Cert.KernelIdeal.Gen.V11 m ρ c (Pipeline.arrRef Cert.KernelIdeal.spec2 2) = RVB2 m' c (Proc.devRef .tc Cert.ReferenceIdeal.main_v145) := hg.2.2
  rw [e1, Cert.KernelIdeal.MsgValue2.final2 (Cert.KernelIdeal.Gen.V11 m ρ) c, e2, a0, a1, a2]
  refine Eq.trans ?_ e3.symm
  rw [e4, e5, eq_of_heq h2]
  exact Cert.MCore.mcore (N := 20000) (E := 640000) (L := 4) (Fd := 32) (by decide)
    Cert.KernelIdeal.Gen.scatter_S20000x128_S640000x1_S640000x128_1_0_0_1_wf
    Cert.ReferenceIdeal.Gen.scatter_S20000x4x32_S640000x1_S640000x4x32_12_0_0_1_wf _ _ rfl rfl
    Cert.ReferenceIdeal.Gen.shapeCasts_S20000x4x32_S20000x128
    Cert.KernelIdeal.Gen.bcast_S_S20000x128 Cert.ReferenceIdeal.Gen.bcast_S_S20000x4x32
    Cert.KernelIdeal.Gen.bcast_S640000_S640000x1_0
    Cert.ReferenceIdeal.Gen.bcast_S640000x1x32_S640000x4x32_0_1_2 Cert.ReferenceIdeal.Gen.bcast_S640000x32_S640000x1x32_0_2
    Cert.ReferenceIdeal.Gen.bcast_S640000x4x1_S640000x4x32_0_1_2 Cert.ReferenceIdeal.Gen.bcast_S640000x4_S640000x4x1_0_1
    Cert.ReferenceIdeal.Gen.bcast_S_S640000x4 _ _ _ _

theorem norm3 (h2 : Agree m m' c Cert.KernelIdeal.main_arg2 Cert.ReferenceIdeal.main_arg2) :
    Cert.KernelIdeal.Gen.W12 m ρ c (Proc.devRef .tc Cert.KernelIdeal.main_v7) = after (opsB3 (F := Ideal)) (after (opsD2 (F := Ideal)) (RVC2 m' c)) (Proc.devRef .tc Cert.ReferenceIdeal.main_v222) :=
  (Cert.KernelIdeal.KKept.v7_kept m ρ c).2.2.trans
    (Cert.Steps.norm3 (Cert.KernelIdeal.Gen.W0 m ρ c) (RVC2 m' c) ((eq_of_heq h2).symm.trans (rC2 m' c Cert.ReferenceIdeal.main_arg2 (by decide) (by decide) (by decide) (by decide) (by decide) (by decide)).symm))

theorem gathered3 (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W12 m ρ c (Proc.devRef .tc Cert.KernelIdeal.main_arg2)))
        (Cert.KernelIdeal.Gen.W12 m ρ c (Proc.devRef .tc Cert.KernelIdeal.main_v113)) = RVC2 m' c (Proc.devRef .tc Cert.ReferenceIdeal.main_v154))
    (h1 : Agree m m' c Cert.KernelIdeal.main_arg1 Cert.ReferenceIdeal.main_arg1)
    (h2 : Agree m m' c Cert.KernelIdeal.main_arg2 Cert.ReferenceIdeal.main_arg2)
    (h3 : Agree m m' c Cert.KernelIdeal.main_arg3 Cert.ReferenceIdeal.main_arg3)
    (h19 : Agree m m' c Cert.KernelIdeal.main_arg19 Cert.ReferenceIdeal.main_arg19)
    (h20 : Agree m m' c Cert.KernelIdeal.main_arg20 Cert.ReferenceIdeal.main_arg20)
    (h21 : Agree m m' c Cert.KernelIdeal.main_arg21 Cert.ReferenceIdeal.main_arg21)
    (h22 : Agree m m' c Cert.KernelIdeal.main_arg22 Cert.ReferenceIdeal.main_arg22)
    (h23 : Agree m m' c Cert.KernelIdeal.main_arg23 Cert.ReferenceIdeal.main_arg23)
    (h24 : Agree m m' c Cert.KernelIdeal.main_arg24 Cert.ReferenceIdeal.main_arg24)
    (h25 : Agree m m' c Cert.KernelIdeal.main_arg25 Cert.ReferenceIdeal.main_arg25)
    (h26 : Agree m m' c Cert.KernelIdeal.main_arg26 Cert.ReferenceIdeal.main_arg26) :
    Cert.KernelIdeal.Gen.W17 m ρ c (Proc.devRef .tc Cert.KernelIdeal.main_v164) = RVB3 m' c (Proc.devRef .tc Cert.ReferenceIdeal.main_v199)
    ∧ Cert.KernelIdeal.Gen.W17 m ρ c (Proc.devRef .tc Cert.KernelIdeal.main_v171) = RVB3 m' c (Proc.devRef .tc Cert.ReferenceIdeal.main_v206)
    ∧ Cert.KernelIdeal.Gen.W17 m ρ c (Proc.devRef .tc Cert.KernelIdeal.main_v178) = RVB3 m' c (Proc.devRef .tc Cert.ReferenceIdeal.main_v232) :=
  ⟨Cert.Steps.pre3_al (Cert.KernelIdeal.Gen.W12 m ρ c) (RVC2 m' c) hM
      (eq_of_heq (arg12 m ρ m' c h1))
      (eq_of_heq (arg12 m ρ m' c h3))
      (eq_of_heq (arg12 m ρ m' c h19))
      (eq_of_heq (arg12 m ρ m' c h20))
      (eq_of_heq (arg12 m ρ m' c h21))
      (eq_of_heq (arg12 m ρ m' c h22))
      (eq_of_heq (arg12 m ρ m' c h23))
      (eq_of_heq (arg12 m ρ m' c h24)),
   Cert.Steps.pre3_ar (Cert.KernelIdeal.Gen.W12 m ρ c) (RVC2 m' c) hM
      (eq_of_heq (arg12 m ρ m' c h2))
      (eq_of_heq (arg12 m ρ m' c h3))
      (eq_of_heq (arg12 m ρ m' c h19))
      (eq_of_heq (arg12 m ρ m' c h20))
      (eq_of_heq (arg12 m ρ m' c h21))
      (eq_of_heq (arg12 m ρ m' c h22))
      (eq_of_heq (arg12 m ρ m' c h25))
      (eq_of_heq (arg12 m ρ m' c h26)),
   Cert.Steps.pre3_h (Cert.KernelIdeal.Gen.W12 m ρ c) (RVC2 m' c) hM (norm3 m ρ m' c h2)
      (eq_of_heq (arg12 m ρ m' c h1))
      (eq_of_heq (arg12 m ρ m' c h3))
      (eq_of_heq (arg12 m ρ m' c h19))
      (eq_of_heq (arg12 m ρ m' c h20))
      (eq_of_heq (arg12 m ρ m' c h21))
      (eq_of_heq (arg12 m ρ m' c h22))⟩

theorem scattered3
    (hg : Cert.KernelIdeal.Gen.W17 m ρ c (Proc.devRef .tc Cert.KernelIdeal.main_v164) = RVB3 m' c (Proc.devRef .tc Cert.ReferenceIdeal.main_v199)
      ∧ Cert.KernelIdeal.Gen.W17 m ρ c (Proc.devRef .tc Cert.KernelIdeal.main_v171) = RVB3 m' c (Proc.devRef .tc Cert.ReferenceIdeal.main_v206)
      ∧ Cert.KernelIdeal.Gen.W17 m ρ c (Proc.devRef .tc Cert.KernelIdeal.main_v178) = RVB3 m' c (Proc.devRef .tc Cert.ReferenceIdeal.main_v232))
    (h2 : Agree m m' c Cert.KernelIdeal.main_arg2 Cert.ReferenceIdeal.main_arg2) :
    Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W18 m ρ c (Proc.devRef .tc Cert.KernelIdeal.main_arg2)))
        (Cert.KernelIdeal.Gen.W18 m ρ c (Proc.devRef .tc Cert.KernelIdeal.main_v179)) = RVC3 m' c (Proc.devRef .tc Cert.ReferenceIdeal.main_v241) := by
  have e1 : Cert.KernelIdeal.Gen.W18 m ρ c (Proc.devRef .tc Cert.KernelIdeal.main_v179) = (Cert.KernelIdeal.Gen.dat3 (F := Ideal) (Cert.KernelIdeal.Gen.V17 m ρ) c).arrAt 3 Cert.KernelIdeal.cfg3.N := Cert.KernelIdeal.Gen.W18_arr m ρ c 3
  have e2 : Cert.KernelIdeal.Gen.W18 m ρ c (Proc.devRef .tc Cert.KernelIdeal.main_arg2) = m ((c.tc : Thread Cert.KernelIdeal.nD Cert.KernelIdeal.τ).loc Cert.KernelIdeal.main_arg2) :=
    Cert.KernelIdeal.KKept.kept18 m ρ c Cert.KernelIdeal.main_arg2 (by decide) (by decide)
  have e3 := Cert.Steps.scat3 (RVB3 m' c)
  have e4 : RVB3 m' c (Proc.devRef .tc Cert.ReferenceIdeal.main_v215) = (Host.divf (F := Ideal) (broadcastInDim Cert.ReferenceIdeal.S640000x4 ![] Cert.ReferenceIdeal.Gen.bcast_S_S640000x4 (constant (F := Ideal) Cert.ReferenceIdeal.S_ .f32 0x3F800000#32))
          (addf (broadcastInDim Cert.ReferenceIdeal.S640000x4 ![] Cert.ReferenceIdeal.Gen.bcast_S_S640000x4 (constant (F := Ideal) Cert.ReferenceIdeal.S_ .f32 0x3F800000#32))
            (Host.exp (Host.negf (mulf (broadcastInDim Cert.ReferenceIdeal.S640000x4 ![] Cert.ReferenceIdeal.Gen.bcast_S_S640000x4 (constant (F := Ideal) Cert.ReferenceIdeal.S_ .f32 0x40C00000#32))
              (addf (RVB3 m' c (Proc.devRef .tc Cert.ReferenceIdeal.main_v199)) (RVB3 m' c (Proc.devRef .tc Cert.ReferenceIdeal.main_v206)))))))) :=
    Cert.Steps.gate3 (RVC2 m' c)
  have e5 : RVB3 m' c (Proc.devRef .tc Cert.ReferenceIdeal.main_arg2) = m' ((c.tc : Thread Cert.ReferenceIdeal.nD Cert.ReferenceIdeal.τ).loc Cert.ReferenceIdeal.main_arg2) := rB3 m' c Cert.ReferenceIdeal.main_arg2 (by decide) (by decide) (by decide) (by decide) (by decide) (by decide) (by decide) (by decide)
  have a0 : Cert.KernelIdeal.Gen.V17 m ρ c (Pipeline.arrRef Cert.KernelIdeal.spec3 0) = RVB3 m' c (Proc.devRef .tc Cert.ReferenceIdeal.main_v199) := hg.1
  have a1 : Cert.KernelIdeal.Gen.V17 m ρ c (Pipeline.arrRef Cert.KernelIdeal.spec3 1) = RVB3 m' c (Proc.devRef .tc Cert.ReferenceIdeal.main_v206) := hg.2.1
  have a2 : Cert.KernelIdeal.Gen.V17 m ρ c (Pipeline.arrRef Cert.KernelIdeal.spec3 2) = RVB3 m' c (Proc.devRef .tc Cert.ReferenceIdeal.main_v232) := hg.2.2
  rw [e1, Cert.KernelIdeal.MsgValue3.final3 (Cert.KernelIdeal.Gen.V17 m ρ) c, e2, a0, a1, a2]
  refine Eq.trans ?_ e3.symm
  rw [e4, e5, eq_of_heq h2]
  exact Cert.MCore.mcore (N := 20000) (E := 640000) (L := 4) (Fd := 32) (by decide)
    Cert.KernelIdeal.Gen.scatter_S20000x128_S640000x1_S640000x128_1_0_0_1_wf
    Cert.ReferenceIdeal.Gen.scatter_S20000x4x32_S640000x1_S640000x4x32_12_0_0_1_wf _ _ rfl rfl
    Cert.ReferenceIdeal.Gen.shapeCasts_S20000x4x32_S20000x128
    Cert.KernelIdeal.Gen.bcast_S_S20000x128 Cert.ReferenceIdeal.Gen.bcast_S_S20000x4x32
    Cert.KernelIdeal.Gen.bcast_S640000_S640000x1_0
    Cert.ReferenceIdeal.Gen.bcast_S640000x1x32_S640000x4x32_0_1_2 Cert.ReferenceIdeal.Gen.bcast_S640000x32_S640000x1x32_0_2
    Cert.ReferenceIdeal.Gen.bcast_S640000x4x1_S640000x4x32_0_1_2 Cert.ReferenceIdeal.Gen.bcast_S640000x4_S640000x4x1_0_1
    Cert.ReferenceIdeal.Gen.bcast_S_S640000x4 _ _ _ _

theorem result (hM : Host.scatterAdd (F := Ideal) Cert.KernelIdeal.scatter_S20000x128_S640000x1_S640000x128_1_0_0_1
        (broadcastInDim Cert.KernelIdeal.S20000x128 ![] Cert.KernelIdeal.Gen.bcast_S_S20000x128 (constant (F := Ideal) Cert.KernelIdeal.S_ .f32 0x00000000#32))
        (broadcastInDim Cert.KernelIdeal.S640000x1 ![0] Cert.KernelIdeal.Gen.bcast_S640000_S640000x1_0 (Cert.KernelIdeal.Gen.W18 m ρ c (Proc.devRef .tc Cert.KernelIdeal.main_arg2)))
        (Cert.KernelIdeal.Gen.W18 m ρ c (Proc.devRef .tc Cert.KernelIdeal.main_v179)) = RVC3 m' c (Proc.devRef .tc Cert.ReferenceIdeal.main_v241))
    (h3 : Agree m m' c Cert.KernelIdeal.main_arg3 Cert.ReferenceIdeal.main_arg3)
    (h27 : Agree m m' c Cert.KernelIdeal.main_arg27 Cert.ReferenceIdeal.main_arg27)
    (h28 : Agree m m' c Cert.KernelIdeal.main_arg28 Cert.ReferenceIdeal.main_arg28)
    (h29 : Agree m m' c Cert.KernelIdeal.main_arg29 Cert.ReferenceIdeal.main_arg29)
    (h30 : Agree m m' c Cert.KernelIdeal.main_arg30 Cert.ReferenceIdeal.main_arg30)
    (h31 : Agree m m' c Cert.KernelIdeal.main_arg31 Cert.ReferenceIdeal.main_arg31)
    (h32 : Agree m m' c Cert.KernelIdeal.main_arg32 Cert.ReferenceIdeal.main_arg32) :
    Cert.KernelIdeal.Gen.W26 m ρ c (Proc.devRef .tc Cert.KernelIdeal.main_v218) = after (opsT (F := Ideal)) (RVC3 m' c) (Proc.devRef .tc Cert.ReferenceIdeal.main_v277) :=
  Cert.Steps.tail (Cert.KernelIdeal.Gen.W18 m ρ c) (RVC3 m' c) hM
      (eq_of_heq (arg18 m ρ m' c h3))
      (eq_of_heq (arg18 m ρ m' c h27))
      (eq_of_heq (arg18 m ρ m' c h28))
      (eq_of_heq (arg18 m ρ m' c h29))
      (eq_of_heq (arg18 m ρ m' c h30))
      (eq_of_heq (arg18 m ρ m' c h31))
      (eq_of_heq (arg18 m ρ m' c h32))

theorem sim (hx : ∀ n : Fin 20000, 0 ≤ ((m ((c.tc : Thread Cert.KernelIdeal.nD Cert.KernelIdeal.τ).loc Cert.KernelIdeal.main_arg0) : IVec Cert.KernelIdeal.S20000 32) (ix1 n)).toInt ∧ ((m ((c.tc : Thread Cert.KernelIdeal.nD Cert.KernelIdeal.τ).loc Cert.KernelIdeal.main_arg0) : IVec Cert.KernelIdeal.S20000 32) (ix1 n)).toInt < 200)
    (h0 : Agree m m' c Cert.KernelIdeal.main_arg0 Cert.ReferenceIdeal.main_arg0)
    (h1 : Agree m m' c Cert.KernelIdeal.main_arg1 Cert.ReferenceIdeal.main_arg1)
    (h2 : Agree m m' c Cert.KernelIdeal.main_arg2 Cert.ReferenceIdeal.main_arg2)
    (h3 : Agree m m' c Cert.KernelIdeal.main_arg3 Cert.ReferenceIdeal.main_arg3)
    (h4 : Agree m m' c Cert.KernelIdeal.main_arg4 Cert.ReferenceIdeal.main_arg4)
    (h5 : Agree m m' c Cert.KernelIdeal.main_arg5 Cert.ReferenceIdeal.main_arg5)
    (h6 : Agree m m' c Cert.KernelIdeal.main_arg6 Cert.ReferenceIdeal.main_arg6)
    (h7 : Agree m m' c Cert.KernelIdeal.main_arg7 Cert.ReferenceIdeal.main_arg7)
    (h8 : Agree m m' c Cert.KernelIdeal.main_arg8 Cert.ReferenceIdeal.main_arg8)
    (h9 : Agree m m' c Cert.KernelIdeal.main_arg9 Cert.ReferenceIdeal.main_arg9)
    (h10 : Agree m m' c Cert.KernelIdeal.main_arg10 Cert.ReferenceIdeal.main_arg10)
    (h11 : Agree m m' c Cert.KernelIdeal.main_arg11 Cert.ReferenceIdeal.main_arg11)
    (h12 : Agree m m' c Cert.KernelIdeal.main_arg12 Cert.ReferenceIdeal.main_arg12)
    (h13 : Agree m m' c Cert.KernelIdeal.main_arg13 Cert.ReferenceIdeal.main_arg13)
    (h14 : Agree m m' c Cert.KernelIdeal.main_arg14 Cert.ReferenceIdeal.main_arg14)
    (h15 : Agree m m' c Cert.KernelIdeal.main_arg15 Cert.ReferenceIdeal.main_arg15)
    (h16 : Agree m m' c Cert.KernelIdeal.main_arg16 Cert.ReferenceIdeal.main_arg16)
    (h17 : Agree m m' c Cert.KernelIdeal.main_arg17 Cert.ReferenceIdeal.main_arg17)
    (h18 : Agree m m' c Cert.KernelIdeal.main_arg18 Cert.ReferenceIdeal.main_arg18)
    (h19 : Agree m m' c Cert.KernelIdeal.main_arg19 Cert.ReferenceIdeal.main_arg19)
    (h20 : Agree m m' c Cert.KernelIdeal.main_arg20 Cert.ReferenceIdeal.main_arg20)
    (h21 : Agree m m' c Cert.KernelIdeal.main_arg21 Cert.ReferenceIdeal.main_arg21)
    (h22 : Agree m m' c Cert.KernelIdeal.main_arg22 Cert.ReferenceIdeal.main_arg22)
    (h23 : Agree m m' c Cert.KernelIdeal.main_arg23 Cert.ReferenceIdeal.main_arg23)
    (h24 : Agree m m' c Cert.KernelIdeal.main_arg24 Cert.ReferenceIdeal.main_arg24)
    (h25 : Agree m m' c Cert.KernelIdeal.main_arg25 Cert.ReferenceIdeal.main_arg25)
    (h26 : Agree m m' c Cert.KernelIdeal.main_arg26 Cert.ReferenceIdeal.main_arg26)
    (h27 : Agree m m' c Cert.KernelIdeal.main_arg27 Cert.ReferenceIdeal.main_arg27)
    (h28 : Agree m m' c Cert.KernelIdeal.main_arg28 Cert.ReferenceIdeal.main_arg28)
    (h29 : Agree m m' c Cert.KernelIdeal.main_arg29 Cert.ReferenceIdeal.main_arg29)
    (h30 : Agree m m' c Cert.KernelIdeal.main_arg30 Cert.ReferenceIdeal.main_arg30)
    (h31 : Agree m m' c Cert.KernelIdeal.main_arg31 Cert.ReferenceIdeal.main_arg31)
    (h32 : Agree m m' c Cert.KernelIdeal.main_arg32 Cert.ReferenceIdeal.main_arg32) :
    after (allOps (F := Ideal)) (launchContents m' c) (Proc.devRef .tc Cert.ReferenceIdeal.main_v277) = Cert.KernelIdeal.Gen.W26 m ρ c (Proc.devRef .tc Cert.KernelIdeal.main_v218) := by
  have g1 := gathered1 m ρ m' c hx h0 h4 h1 h2 h5 h6 h7 h8 h9 h10
  have s1 := scattered1 m ρ m' c g1 h2
  have g2 := gathered2 m ρ m' c s1 h1 h2 h3 h11 h12 h13 h14 h15 h16 h17 h18
  have s2 := scattered2 m ρ m' c g2 h2
  have g3 := gathered3 m ρ m' c s2 h1 h2 h3 h19 h20 h21 h22 h23 h24 h25 h26
  have s3 := scattered3 m ρ m' c g3 h2
  rw [after_all]
  exact (result m ρ m' c s3 h3 h27 h28 h29 h30 h31 h32).symm

end Cert.Sim

end
-- ==== Proof.lean ====
import proofs.«428890_j15479062135603_3_alg».proof.Defs
import proofs.«428890_j15479062135603_3_alg».proof.Proof.Gen.Kernel
import proofs.«428890_j15479062135603_3_alg».proof.Proof.Gen.Kernel.Frame
import proofs.«428890_j15479062135603_3_alg».proof.Proof.Gen.KernelIdeal
import proofs.«428890_j15479062135603_3_alg».proof.Proof.Gen.KernelIdeal.Frame
import proofs.«428890_j15479062135603_3_alg».proof.Proof.Gen.ReferenceIdeal
import proofs.«428890_j15479062135603_3_alg».proof.Proof.Gen.Pre_finite_inputs
import proofs.«428890_j15479062135603_3_alg».proof.Proof.KernelRun
import proofs.«428890_j15479062135603_3_alg».proof.Proof.RefRun
import proofs.«428890_j15479062135603_3_alg».proof.Proof.PreRange
import proofs.«428890_j15479062135603_3_alg».proof.Proof.Sim
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- No operation of the reference's line writes an argument. -/
theorem frame_ri : Cert.frame_ReferenceIdeal := fun m ρ _ =>
  (θ_run Cert.ReferenceIdeal.defs _ _).mono (fun _ h c => by
    repeat' constructor
    all_goals exact Cert.ReferenceIdeal.RefRun.kept (V := launchContents m c) (h c _)) (Cert.ReferenceIdeal.RefRun.run (F := Ideal) m ρ)

theorem preserves : Cert.preserves_Kernel_KernelIdeal := trivial

/-- The kernel program's result at its last boundary is what the reference's result buffer holds, under the index
    range the precondition gives. -/
theorem algebraic : Cert.algebraic_KernelIdeal_ReferenceIdeal := by
  intro m ρ m' ρ' hpre hag
  refine ⟨fun c => Cert.KernelIdeal.Gen.W26 m ρ c (Proc.devRef .tc Cert.KernelIdeal.main_v218), Cert.KernelIdeal.KRun.run m ρ, ?_⟩
  refine (θ_run Cert.ReferenceIdeal.defs _ _).mono (fun _ h c => ⟨?_, ?_⟩) (Cert.ReferenceIdeal.RefRun.run (F := Ideal) m' ρ')
  · obtain ⟨h0, h1, h2, h3, h4, h5, h6, h7, h8, h9, h10, h11, h12, h13, h14, h15, h16, h17, h18, h19, h20, h21, h22, h23, h24, h25, h26, h27, h28, h29, h30, h31, h32⟩ := hag c
    exact (h c Cert.ReferenceIdeal.main_v277).trans
      (Cert.Sim.sim m ρ m' c (fun n => Cert.PreRange.x_range m hpre c n) (heq_of_eq h0) (heq_of_eq h1) (heq_of_eq h2) (heq_of_eq h3) (heq_of_eq h4) (heq_of_eq h5) (heq_of_eq h6) (heq_of_eq h7) (heq_of_eq h8) (heq_of_eq h9) (heq_of_eq h10) (heq_of_eq h11) (heq_of_eq h12) (heq_of_eq h13) (heq_of_eq h14) (heq_of_eq h15) (heq_of_eq h16) (heq_of_eq h17) (heq_of_eq h18) (heq_of_eq h19) (heq_of_eq h20) (heq_of_eq h21) (heq_of_eq h22) (heq_of_eq h23) (heq_of_eq h24) (heq_of_eq h25) (heq_of_eq h26) (heq_of_eq h27) (heq_of_eq h28) (heq_of_eq h29) (heq_of_eq h30) (heq_of_eq h31) (heq_of_eq h32))
  · repeat' constructor
    all_goals exact Cert.ReferenceIdeal.RefRun.kept (V := launchContents m' c) (h c _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
